-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![4096, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S512x1024 : Shape := ⟨2, ![512, 1024]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S1024x512 .f32) (main_arg1 : FVec F S512x1024 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  main_v8
-- ==== Pre_finite_inputs_ReferenceIdeal.lean ====
abbrev S1024x4096 : Shape := ⟨2, ![1024, 4096]⟩
abbrev S4096x1024 : Shape := ⟨2, ![4096, 1024]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S1024x4096 .f32) (main_arg1 : FVec F S4096x1024 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S1024x512 : Shape := ⟨2, ![1024, 512]⟩
abbrev S512x1024 : Shape := ⟨2, ![512, 1024]⟩
abbrev S1024x1024 : Shape := ⟨2, ![1024, 1024]⟩
abbrev S896x1024 : Shape := ⟨2, ![896, 1024]⟩
abbrev S9x3 : Shape := ⟨2, ![9, 3]⟩
abbrev S_ : Shape := ⟨0, ![]⟩
abbrev S128x512 : Shape := ⟨2, ![128, 512]⟩
abbrev S128x1024 : Shape := ⟨2, ![128, 1024]⟩
abbrev S1x1 : Shape := ⟨2, ![1, 1]⟩
abbrev S64x1024 : Shape := ⟨2, ![64, 1024]⟩
abbrev S64x512 : Shape := ⟨2, ![64, 512]⟩
abbrev S32x1024 : Shape := ⟨2, ![32, 1024]⟩
abbrev S16x1024 : Shape := ⟨2, ![16, 1024]⟩
abbrev S8x1024 : Shape := ⟨2, ![8, 1024]⟩

abbrev nBuf : Space → Nat
  | .hbm => 3
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S1024x1024, .f32⟩
  | .local _ .vmem, ⟨0, _⟩ => ⟨S1024x512, .f32⟩
  | .local _ .vmem, ⟨1, _⟩ => ⟨S512x1024, .f32⟩
  | .local _ .vmem, ⟨2, _⟩ => ⟨S1024x1024, .f32⟩
  | .local _ .vmem, ⟨3, _⟩ => ⟨S896x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => false
  | ⟨1, _⟩ => true
  | _ => false

abbrev dmaSemScoped : Fin 111 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | _ => false

abbrev sig : RefSig :=
  (ofTc nBuf bufTy 2 111 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_7 : BitVec 32 := 1#32
  let v14 : BitVec 32 := Scalar.muli v10 c1_i32_7
  let v15 : BitVec 32 := Scalar.addi c0_i32 v14
  v15.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_9 : BitVec 32 := 1#32
  let v16 : BitVec 32 := Scalar.muli v11 c1_i32_9
  let v17 : BitVec 32 := Scalar.addi c0_i32_10 v16
  v17.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_12 : BitVec 32 := 1#32
  let v18 : BitVec 32 := Scalar.muli v12 c1_i32_12
  let v19 : BitVec 32 := Scalar.addi c0_i32_13 v18
  v19.toNat
def k0_off1 (d0 : Dev nD) (c0_i32_21 : BitVec 32) : Fin 2 → Nat :=
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v26 : BitVec 32 := Scalar.subi c1_i32_20 v5
  let c64_i32 : BitVec 32 := 64#32
  let v27 : BitVec 32 := Scalar.muli v26 c64_i32
  let v28 : BitVec 32 := Scalar.addi c0_i32_21 v27
  let c0_i32_30 : BitVec 32 := 0#32
  ![v28.toNat, 0]
def k0_dev4 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_26 : BitVec 32 := 1#32
  let v29 : BitVec 32 := Scalar.muli v10 c1_i32_26
  let v30 : BitVec 32 := Scalar.addi c0_i32_27 v29
  v30.toNat
def k0_off2 (d0 : Dev nD) (c384_i32 : BitVec 32) (c1_i32_2 : BitVec 32) : Fin 2 → Nat :=
  let c1_i32_39 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let v45 : BitVec 32 := Scalar.subi c1_i32_39 v7
  let c32_i32 : BitVec 32 := 32#32
  let v46 : BitVec 32 := Scalar.muli v45 c32_i32
  let v47 : BitVec 32 := Scalar.addi c384_i32 v46
  let c0_i32_47 : BitVec 32 := 0#32
  ![v47.toNat, 0]
def k0_off2_at (r : Fin 2) : BitVec 32 × BitVec 32 :=
  if r.val < 1 then
    (384#32, 1#32)
  else
    (704#32, 2#32)
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_44 : BitVec 32 := 1#32
  let v48 : BitVec 32 := Scalar.muli v11 c1_i32_44
  let v49 : BitVec 32 := Scalar.addi c0_i32_45 v48
  v49.toNat
def k0_dev6 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_62 : BitVec 32 := 1#32
  let v67 : BitVec 32 := Scalar.muli v12 c1_i32_62
  let v68 : BitVec 32 := Scalar.addi c0_i32_63 v67
  v68.toNat
def k0_dev7 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_80 : BitVec 32 := 1#32
  let v86 : BitVec 32 := Scalar.muli v10 c1_i32_80
  let v87 : BitVec 32 := Scalar.addi c0_i32_81 v86
  v87.toNat
def k0_off3 (d0 : Dev nD) (c448_i32 : BitVec 32) (c1_i32_2 : BitVec 32) : Fin 2 → Nat :=
  let c1_i32_92 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let v102 : BitVec 32 := Scalar.subi c1_i32_92 v7
  let c64_i32_93 : BitVec 32 := 64#32
  let v103 : BitVec 32 := Scalar.muli v102 c64_i32_93
  let v104 : BitVec 32 := Scalar.addi c448_i32 v103
  let c0_i32_101 : BitVec 32 := 0#32
  ![v104.toNat, 0]
def k0_off3_at (r : Fin 4) : BitVec 32 × BitVec 32 :=
  if r.val < 2 then
    if r.val < 1 then
      (448#32, 1#32)
    else
      (768#32, 2#32)
  else
    if r.val < 3 then
      (576#32, 1#32)
    else
      (896#32, 2#32)
def k0_dev8 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_98 : BitVec 32 := 1#32
  let v105 : BitVec 32 := Scalar.muli v11 c1_i32_98
  let v106 : BitVec 32 := Scalar.addi c0_i32_99 v105
  v106.toNat
def k0_dev9 (d0 : Dev nD) : Nat :=
  let c0_i32_116 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_115 : BitVec 32 := 1#32
  let v124 : BitVec 32 := Scalar.muli v12 c1_i32_115
  let v125 : BitVec 32 := Scalar.addi c0_i32_116 v124
  v125.toNat
def k0_off4 (d0 : Dev nD) (c0_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_31 : BitVec 32 := 64#32
  let v37 : BitVec 32 := Scalar.muli v5 c64_i32_31
  let v38 : BitVec 32 := Scalar.addi c0_i32_32 v37
  let v158 : Index := Scalar.indexCast v38
  let c0_149 : Index := 0#32
  ![v158.toNat, 0]
def k0_off5 (d0 : Dev nD) (c0_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_31 : BitVec 32 := 64#32
  let v37 : BitVec 32 := Scalar.muli v5 c64_i32_31
  let v38 : BitVec 32 := Scalar.addi c0_i32_32 v37
  let c1_i32_153 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v165 : BitVec 32 := Scalar.subi c1_i32_153 v7
  let c32_i32_154 : BitVec 32 := 32#32
  let v166 : BitVec 32 := Scalar.muli v165 c32_i32_154
  let v167 : BitVec 32 := Scalar.addi v38 v166
  let c0_i32_163 : BitVec 32 := 0#32
  ![v167.toNat, 0]
def k0_dev10 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_159 : BitVec 32 := 1#32
  let v168 : BitVec 32 := Scalar.muli v11 c1_i32_159
  let v169 : BitVec 32 := Scalar.addi c0_i32_160 v168
  v169.toNat
def k0_off6 (d0 : Dev nD) (c384_i32_49 : BitVec 32) (c1_i32_2 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let c32_i32_48 : BitVec 32 := 32#32
  let v56 : BitVec 32 := Scalar.muli v7 c32_i32_48
  let v57 : BitVec 32 := Scalar.addi c384_i32_49 v56
  let v184 : Index := Scalar.indexCast v57
  let c0_174 : Index := 0#32
  ![v184.toNat, 0]
def k0_off6_at (r : Fin 2) : BitVec 32 × BitVec 32 :=
  if r.val < 1 then
    (384#32, 1#32)
  else
    (704#32, 2#32)
def k0_off7 (d0 : Dev nD) : Fin 2 → Nat :=
  let c384_i32_49 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c32_i32_48 : BitVec 32 := 32#32
  let v56 : BitVec 32 := Scalar.muli v7 c32_i32_48
  let v57 : BitVec 32 := Scalar.addi c384_i32_49 v56
  let c1_i32_177 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v191 : BitVec 32 := Scalar.subi c1_i32_177 v9
  let c16_i32 : BitVec 32 := 16#32
  let v192 : BitVec 32 := Scalar.muli v191 c16_i32
  let v193 : BitVec 32 := Scalar.addi v57 v192
  let c0_i32_185 : BitVec 32 := 0#32
  ![v193.toNat, 0]
def k0_dev11 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_182 : BitVec 32 := 1#32
  let v194 : BitVec 32 := Scalar.muli v12 c1_i32_182
  let v195 : BitVec 32 := Scalar.addi c0_i32_183 v194
  v195.toNat
def k0_off8 (d0 : Dev nD) : Fin 2 → Nat :=
  let c704_i32_67 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c32_i32_66 : BitVec 32 := 32#32
  let v75 : BitVec 32 := Scalar.muli v9 c32_i32_66
  let v76 : BitVec 32 := Scalar.addi c704_i32_67 v75
  let c1_i32_199 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v217 : BitVec 32 := Scalar.subi c1_i32_199 v5
  let c16_i32_200 : BitVec 32 := 16#32
  let v218 : BitVec 32 := Scalar.muli v217 c16_i32_200
  let v219 : BitVec 32 := Scalar.addi v76 v218
  let c0_i32_208 : BitVec 32 := 0#32
  ![v219.toNat, 0]
def k0_dev12 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_205 : BitVec 32 := 1#32
  let v220 : BitVec 32 := Scalar.muli v10 c1_i32_205
  let v221 : BitVec 32 := Scalar.addi c0_i32_206 v220
  v221.toNat
def k0_dev13 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_215 : BitVec 32 := 1#32
  let v233 : BitVec 32 := Scalar.muli v10 c1_i32_215
  let v234 : BitVec 32 := Scalar.addi c0_i32_216 v233
  v234.toNat
def k0_dev14 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_226 : BitVec 32 := 1#32
  let v246 : BitVec 32 := Scalar.muli v11 c1_i32_226
  let v247 : BitVec 32 := Scalar.addi c0_i32_227 v246
  v247.toNat
def k0_dev15 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_238 : BitVec 32 := 1#32
  let v259 : BitVec 32 := Scalar.muli v12 c1_i32_238
  let v260 : BitVec 32 := Scalar.addi c0_i32_239 v259
  v260.toNat
def k0_dev16 (d0 : Dev nD) : Nat :=
  let c0_i32_263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_262 : BitVec 32 := 1#32
  let v285 : BitVec 32 := Scalar.muli v11 c1_i32_262
  let v286 : BitVec 32 := Scalar.addi c0_i32_263 v285
  v286.toNat
def k0_off9 (d0 : Dev nD) (c448_i32_103 : BitVec 32) (c1_i32_2 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v6 : BitVec 32 := Scalar.shrsi v2 c1_i32_2
  let c1_i32_3 : BitVec 32 := 1#32
  let v7 : BitVec 32 := Scalar.andi v6 c1_i32_3
  let c64_i32_102 : BitVec 32 := 64#32
  let v113 : BitVec 32 := Scalar.muli v7 c64_i32_102
  let v114 : BitVec 32 := Scalar.addi c448_i32_103 v113
  let v301 : Index := Scalar.indexCast v114
  let c0_276 : Index := 0#32
  ![v301.toNat, 0]
def k0_off9_at (r : Fin 4) : BitVec 32 × BitVec 32 :=
  if r.val < 2 then
    if r.val < 1 then
      (448#32, 1#32)
    else
      (768#32, 2#32)
  else
    if r.val < 3 then
      (576#32, 1#32)
    else
      (896#32, 2#32)
def k0_off10 (d0 : Dev nD) (c448_i32_103 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c64_i32_102 : BitVec 32 := 64#32
  let v113 : BitVec 32 := Scalar.muli v7 c64_i32_102
  let v114 : BitVec 32 := Scalar.addi c448_i32_103 v113
  let c1_i32_279 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v308 : BitVec 32 := Scalar.subi c1_i32_279 v9
  let c32_i32_280 : BitVec 32 := 32#32
  let v309 : BitVec 32 := Scalar.muli v308 c32_i32_280
  let v310 : BitVec 32 := Scalar.addi v114 v309
  let c0_i32_288 : BitVec 32 := 0#32
  ![v310.toNat, 0]
def k0_dev17 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_285 : BitVec 32 := 1#32
  let v311 : BitVec 32 := Scalar.muli v12 c1_i32_285
  let v312 : BitVec 32 := Scalar.addi c0_i32_286 v311
  v312.toNat
def k0_off11 (d0 : Dev nD) (c768_i32_121 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c64_i32_120 : BitVec 32 := 64#32
  let v132 : BitVec 32 := Scalar.muli v9 c64_i32_120
  let v133 : BitVec 32 := Scalar.addi c768_i32_121 v132
  let c1_i32_303 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v334 : BitVec 32 := Scalar.subi c1_i32_303 v5
  let c32_i32_304 : BitVec 32 := 32#32
  let v335 : BitVec 32 := Scalar.muli v334 c32_i32_304
  let v336 : BitVec 32 := Scalar.addi v133 v335
  let c0_i32_312 : BitVec 32 := 0#32
  ![v336.toNat, 0]
def k0_dev18 (d0 : Dev nD) : Nat :=
  let c0_i32_310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_309 : BitVec 32 := 1#32
  let v337 : BitVec 32 := Scalar.muli v10 c1_i32_309
  let v338 : BitVec 32 := Scalar.addi c0_i32_310 v337
  v338.toNat
def k0_off12 (d0 : Dev nD) (c0_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_31 : BitVec 32 := 64#32
  let v37 : BitVec 32 := Scalar.muli v5 c64_i32_31
  let v38 : BitVec 32 := Scalar.addi c0_i32_32 v37
  let c1_i32_2 : BitVec 32 := 1#32
  let v6 : BitVec 32 := Scalar.shrsi v2 c1_i32_2
  let c1_i32_3 : BitVec 32 := 1#32
  let v7 : BitVec 32 := Scalar.andi v6 c1_i32_3
  let c32_i32_164 : BitVec 32 := 32#32
  let v176 : BitVec 32 := Scalar.muli v7 c32_i32_164
  let v177 : BitVec 32 := Scalar.addi v38 v176
  let v353 : Index := Scalar.indexCast v177
  let c0_323 : Index := 0#32
  ![v353.toNat, 0]
def k0_off13 (d0 : Dev nD) (c0_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_31 : BitVec 32 := 64#32
  let v37 : BitVec 32 := Scalar.muli v5 c64_i32_31
  let v38 : BitVec 32 := Scalar.addi c0_i32_32 v37
  let c1_i32_2 : BitVec 32 := 1#32
  let v6 : BitVec 32 := Scalar.shrsi v2 c1_i32_2
  let c1_i32_3 : BitVec 32 := 1#32
  let v7 : BitVec 32 := Scalar.andi v6 c1_i32_3
  let c32_i32_164 : BitVec 32 := 32#32
  let v176 : BitVec 32 := Scalar.muli v7 c32_i32_164
  let v177 : BitVec 32 := Scalar.addi v38 v176
  let c1_i32_326 : BitVec 32 := 1#32
  let c2_i32 : BitVec 32 := 2#32
  let v8 : BitVec 32 := Scalar.shrsi v2 c2_i32
  let c1_i32_4 : BitVec 32 := 1#32
  let v9 : BitVec 32 := Scalar.andi v8 c1_i32_4
  let v360 : BitVec 32 := Scalar.subi c1_i32_326 v9
  let c16_i32_327 : BitVec 32 := 16#32
  let v361 : BitVec 32 := Scalar.muli v360 c16_i32_327
  let v362 : BitVec 32 := Scalar.addi v177 v361
  let c0_i32_335 : BitVec 32 := 0#32
  ![v362.toNat, 0]
def k0_dev19 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_332 : BitVec 32 := 1#32
  let v363 : BitVec 32 := Scalar.muli v12 c1_i32_332
  let v364 : BitVec 32 := Scalar.addi c0_i32_333 v363
  v364.toNat
def k0_off14 (d0 : Dev nD) : Fin 2 → Nat :=
  let c384_i32_49 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c32_i32_48 : BitVec 32 := 32#32
  let v56 : BitVec 32 := Scalar.muli v7 c32_i32_48
  let v57 : BitVec 32 := Scalar.addi c384_i32_49 v56
  let c2_i32 : BitVec 32 := 2#32
  let v8 : BitVec 32 := Scalar.shrsi v2 c2_i32
  let c1_i32_4 : BitVec 32 := 1#32
  let v9 : BitVec 32 := Scalar.andi v8 c1_i32_4
  let c16_i32_186 : BitVec 32 := 16#32
  let v202 : BitVec 32 := Scalar.muli v9 c16_i32_186
  let v203 : BitVec 32 := Scalar.addi v57 v202
  let v379 : Index := Scalar.indexCast v203
  let c0_346 : Index := 0#32
  ![v379.toNat, 0]
def k0_off15 (d0 : Dev nD) : Fin 2 → Nat :=
  let c384_i32_49 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c32_i32_48 : BitVec 32 := 32#32
  let v56 : BitVec 32 := Scalar.muli v7 c32_i32_48
  let v57 : BitVec 32 := Scalar.addi c384_i32_49 v56
  let c2_i32 : BitVec 32 := 2#32
  let v8 : BitVec 32 := Scalar.shrsi v2 c2_i32
  let c1_i32_4 : BitVec 32 := 1#32
  let v9 : BitVec 32 := Scalar.andi v8 c1_i32_4
  let c16_i32_186 : BitVec 32 := 16#32
  let v202 : BitVec 32 := Scalar.muli v9 c16_i32_186
  let v203 : BitVec 32 := Scalar.addi v57 v202
  let c1_i32_349 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v386 : BitVec 32 := Scalar.subi c1_i32_349 v5
  let c8_i32_350 : BitVec 32 := 8#32
  let v387 : BitVec 32 := Scalar.muli v386 c8_i32_350
  let v388 : BitVec 32 := Scalar.addi v203 v387
  let c0_i32_358 : BitVec 32 := 0#32
  ![v388.toNat, 0]
def k0_dev20 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_355 : BitVec 32 := 1#32
  let v389 : BitVec 32 := Scalar.muli v10 c1_i32_355
  let v390 : BitVec 32 := Scalar.addi c0_i32_356 v389
  v390.toNat
def k0_off16 (d0 : Dev nD) : Fin 2 → Nat :=
  let c704_i32_67 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c32_i32_66 : BitVec 32 := 32#32
  let v75 : BitVec 32 := Scalar.muli v9 c32_i32_66
  let v76 : BitVec 32 := Scalar.addi c704_i32_67 v75
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c16_i32_209 : BitVec 32 := 16#32
  let v228 : BitVec 32 := Scalar.muli v5 c16_i32_209
  let v229 : BitVec 32 := Scalar.addi v76 v228
  let v405 : Index := Scalar.indexCast v229
  let c0_369 : Index := 0#32
  ![v405.toNat, 0]
def k0_off17 (d0 : Dev nD) : Fin 2 → Nat :=
  let c704_i32_67 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c32_i32_66 : BitVec 32 := 32#32
  let v75 : BitVec 32 := Scalar.muli v9 c32_i32_66
  let v76 : BitVec 32 := Scalar.addi c704_i32_67 v75
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c16_i32_209 : BitVec 32 := 16#32
  let v228 : BitVec 32 := Scalar.muli v5 c16_i32_209
  let v229 : BitVec 32 := Scalar.addi v76 v228
  let c1_i32_372 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v412 : BitVec 32 := Scalar.subi c1_i32_372 v7
  let c8_i32_373 : BitVec 32 := 8#32
  let v413 : BitVec 32 := Scalar.muli v412 c8_i32_373
  let v414 : BitVec 32 := Scalar.addi v229 v413
  let c0_i32_381 : BitVec 32 := 0#32
  ![v414.toNat, 0]
def k0_dev21 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_378 : BitVec 32 := 1#32
  let v415 : BitVec 32 := Scalar.muli v11 c1_i32_378
  let v416 : BitVec 32 := Scalar.addi c0_i32_379 v415
  v416.toNat
def k0_dev22 (d0 : Dev nD) : Nat :=
  let c0_i32_402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_401 : BitVec 32 := 1#32
  let v441 : BitVec 32 := Scalar.muli v11 c1_i32_401
  let v442 : BitVec 32 := Scalar.addi c0_i32_402 v441
  v442.toNat
def k0_dev23 (d0 : Dev nD) : Nat :=
  let c0_i32_425 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_424 : BitVec 32 := 1#32
  let v467 : BitVec 32 := Scalar.muli v12 c1_i32_424
  let v468 : BitVec 32 := Scalar.addi c0_i32_425 v467
  v468.toNat
def k0_dev24 (d0 : Dev nD) : Nat :=
  let c0_i32_448 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_447 : BitVec 32 := 1#32
  let v493 : BitVec 32 := Scalar.muli v10 c1_i32_447
  let v494 : BitVec 32 := Scalar.addi c0_i32_448 v493
  v494.toNat
def k0_dev25 (d0 : Dev nD) : Nat :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_470 : BitVec 32 := 1#32
  let v519 : BitVec 32 := Scalar.muli v12 c1_i32_470
  let v520 : BitVec 32 := Scalar.addi c0_i32_471 v519
  v520.toNat
def k0_off18 (d0 : Dev nD) (c448_i32_103 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c64_i32_102 : BitVec 32 := 64#32
  let v113 : BitVec 32 := Scalar.muli v7 c64_i32_102
  let v114 : BitVec 32 := Scalar.addi c448_i32_103 v113
  let c2_i32 : BitVec 32 := 2#32
  let v8 : BitVec 32 := Scalar.shrsi v2 c2_i32
  let c1_i32_4 : BitVec 32 := 1#32
  let v9 : BitVec 32 := Scalar.andi v8 c1_i32_4
  let c32_i32_289 : BitVec 32 := 32#32
  let v319 : BitVec 32 := Scalar.muli v9 c32_i32_289
  let v320 : BitVec 32 := Scalar.addi v114 v319
  let v535 : Index := Scalar.indexCast v320
  let c0_484 : Index := 0#32
  ![v535.toNat, 0]
def k0_off19 (d0 : Dev nD) (c448_i32_103 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c64_i32_102 : BitVec 32 := 64#32
  let v113 : BitVec 32 := Scalar.muli v7 c64_i32_102
  let v114 : BitVec 32 := Scalar.addi c448_i32_103 v113
  let c2_i32 : BitVec 32 := 2#32
  let v8 : BitVec 32 := Scalar.shrsi v2 c2_i32
  let c1_i32_4 : BitVec 32 := 1#32
  let v9 : BitVec 32 := Scalar.andi v8 c1_i32_4
  let c32_i32_289 : BitVec 32 := 32#32
  let v319 : BitVec 32 := Scalar.muli v9 c32_i32_289
  let v320 : BitVec 32 := Scalar.addi v114 v319
  let c1_i32_487 : BitVec 32 := 1#32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let v542 : BitVec 32 := Scalar.subi c1_i32_487 v5
  let c16_i32_488 : BitVec 32 := 16#32
  let v543 : BitVec 32 := Scalar.muli v542 c16_i32_488
  let v544 : BitVec 32 := Scalar.addi v320 v543
  let c0_i32_496 : BitVec 32 := 0#32
  ![v544.toNat, 0]
def k0_dev26 (d0 : Dev nD) : Nat :=
  let c0_i32_494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_493 : BitVec 32 := 1#32
  let v545 : BitVec 32 := Scalar.muli v10 c1_i32_493
  let v546 : BitVec 32 := Scalar.addi c0_i32_494 v545
  v546.toNat
def k0_off20 (d0 : Dev nD) (c768_i32_121 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c64_i32_120 : BitVec 32 := 64#32
  let v132 : BitVec 32 := Scalar.muli v9 c64_i32_120
  let v133 : BitVec 32 := Scalar.addi c768_i32_121 v132
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_313 : BitVec 32 := 32#32
  let v345 : BitVec 32 := Scalar.muli v5 c32_i32_313
  let v346 : BitVec 32 := Scalar.addi v133 v345
  let v561 : Index := Scalar.indexCast v346
  let c0_507 : Index := 0#32
  ![v561.toNat, 0]
def k0_off21 (d0 : Dev nD) (c768_i32_121 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c64_i32_120 : BitVec 32 := 64#32
  let v132 : BitVec 32 := Scalar.muli v9 c64_i32_120
  let v133 : BitVec 32 := Scalar.addi c768_i32_121 v132
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_313 : BitVec 32 := 32#32
  let v345 : BitVec 32 := Scalar.muli v5 c32_i32_313
  let v346 : BitVec 32 := Scalar.addi v133 v345
  let c1_i32_510 : BitVec 32 := 1#32
  let c1_i32_2 : BitVec 32 := 1#32
  let v6 : BitVec 32 := Scalar.shrsi v2 c1_i32_2
  let c1_i32_3 : BitVec 32 := 1#32
  let v7 : BitVec 32 := Scalar.andi v6 c1_i32_3
  let v568 : BitVec 32 := Scalar.subi c1_i32_510 v7
  let c16_i32_511 : BitVec 32 := 16#32
  let v569 : BitVec 32 := Scalar.muli v568 c16_i32_511
  let v570 : BitVec 32 := Scalar.addi v346 v569
  let c0_i32_519 : BitVec 32 := 0#32
  ![v570.toNat, 0]
def k0_dev27 (d0 : Dev nD) : Nat :=
  let c0_i32_517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_516 : BitVec 32 := 1#32
  let v571 : BitVec 32 := Scalar.muli v11 c1_i32_516
  let v572 : BitVec 32 := Scalar.addi c0_i32_517 v571
  v572.toNat
def k0_off22 (d0 : Dev nD) (c0_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_31 : BitVec 32 := 64#32
  let v37 : BitVec 32 := Scalar.muli v5 c64_i32_31
  let v38 : BitVec 32 := Scalar.addi c0_i32_32 v37
  let c1_i32_2 : BitVec 32 := 1#32
  let v6 : BitVec 32 := Scalar.shrsi v2 c1_i32_2
  let c1_i32_3 : BitVec 32 := 1#32
  let v7 : BitVec 32 := Scalar.andi v6 c1_i32_3
  let c32_i32_164 : BitVec 32 := 32#32
  let v176 : BitVec 32 := Scalar.muli v7 c32_i32_164
  let v177 : BitVec 32 := Scalar.addi v38 v176
  let c2_i32 : BitVec 32 := 2#32
  let v8 : BitVec 32 := Scalar.shrsi v2 c2_i32
  let c1_i32_4 : BitVec 32 := 1#32
  let v9 : BitVec 32 := Scalar.andi v8 c1_i32_4
  let c16_i32_336 : BitVec 32 := 16#32
  let v371 : BitVec 32 := Scalar.muli v9 c16_i32_336
  let v372 : BitVec 32 := Scalar.addi v177 v371
  let v587 : Index := Scalar.indexCast v372
  let c0_530 : Index := 0#32
  ![v587.toNat, 0]
def k0_off23 (d0 : Dev nD) (c0_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_31 : BitVec 32 := 64#32
  let v37 : BitVec 32 := Scalar.muli v5 c64_i32_31
  let v38 : BitVec 32 := Scalar.addi c0_i32_32 v37
  let c1_i32_2 : BitVec 32 := 1#32
  let v6 : BitVec 32 := Scalar.shrsi v2 c1_i32_2
  let c1_i32_3 : BitVec 32 := 1#32
  let v7 : BitVec 32 := Scalar.andi v6 c1_i32_3
  let c32_i32_164 : BitVec 32 := 32#32
  let v176 : BitVec 32 := Scalar.muli v7 c32_i32_164
  let v177 : BitVec 32 := Scalar.addi v38 v176
  let c2_i32 : BitVec 32 := 2#32
  let v8 : BitVec 32 := Scalar.shrsi v2 c2_i32
  let c1_i32_4 : BitVec 32 := 1#32
  let v9 : BitVec 32 := Scalar.andi v8 c1_i32_4
  let c16_i32_336 : BitVec 32 := 16#32
  let v371 : BitVec 32 := Scalar.muli v9 c16_i32_336
  let v372 : BitVec 32 := Scalar.addi v177 v371
  let c0_i32_539 : BitVec 32 := 0#32
  ![v372.toNat, 0]
def k0_dev28 (d0 : Dev nD) : Nat :=
  let c0_i32_538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_537 : BitVec 32 := 1#32
  let v594 : BitVec 32 := Scalar.muli v12 c1_i32_537
  let v595 : BitVec 32 := Scalar.addi c0_i32_538 v594
  v595.toNat
def k0_off24 (d0 : Dev nD) : Fin 2 → Nat :=
  let c384_i32_49 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c32_i32_48 : BitVec 32 := 32#32
  let v56 : BitVec 32 := Scalar.muli v7 c32_i32_48
  let v57 : BitVec 32 := Scalar.addi c384_i32_49 v56
  let c2_i32 : BitVec 32 := 2#32
  let v8 : BitVec 32 := Scalar.shrsi v2 c2_i32
  let c1_i32_4 : BitVec 32 := 1#32
  let v9 : BitVec 32 := Scalar.andi v8 c1_i32_4
  let c16_i32_186 : BitVec 32 := 16#32
  let v202 : BitVec 32 := Scalar.muli v9 c16_i32_186
  let v203 : BitVec 32 := Scalar.addi v57 v202
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c8_i32_359 : BitVec 32 := 8#32
  let v397 : BitVec 32 := Scalar.muli v5 c8_i32_359
  let v398 : BitVec 32 := Scalar.addi v203 v397
  let v610 : Index := Scalar.indexCast v398
  let c0_551 : Index := 0#32
  ![v610.toNat, 0]
def k0_off25 (d0 : Dev nD) : Fin 2 → Nat :=
  let c384_i32_49 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c32_i32_48 : BitVec 32 := 32#32
  let v56 : BitVec 32 := Scalar.muli v7 c32_i32_48
  let v57 : BitVec 32 := Scalar.addi c384_i32_49 v56
  let c2_i32 : BitVec 32 := 2#32
  let v8 : BitVec 32 := Scalar.shrsi v2 c2_i32
  let c1_i32_4 : BitVec 32 := 1#32
  let v9 : BitVec 32 := Scalar.andi v8 c1_i32_4
  let c16_i32_186 : BitVec 32 := 16#32
  let v202 : BitVec 32 := Scalar.muli v9 c16_i32_186
  let v203 : BitVec 32 := Scalar.addi v57 v202
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c8_i32_359 : BitVec 32 := 8#32
  let v397 : BitVec 32 := Scalar.muli v5 c8_i32_359
  let v398 : BitVec 32 := Scalar.addi v203 v397
  let c0_i32_560 : BitVec 32 := 0#32
  ![v398.toNat, 0]
def k0_dev29 (d0 : Dev nD) : Nat :=
  let c0_i32_559 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_558 : BitVec 32 := 1#32
  let v617 : BitVec 32 := Scalar.muli v10 c1_i32_558
  let v618 : BitVec 32 := Scalar.addi c0_i32_559 v617
  v618.toNat
def k0_off26 (d0 : Dev nD) : Fin 2 → Nat :=
  let c704_i32_67 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c32_i32_66 : BitVec 32 := 32#32
  let v75 : BitVec 32 := Scalar.muli v9 c32_i32_66
  let v76 : BitVec 32 := Scalar.addi c704_i32_67 v75
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c16_i32_209 : BitVec 32 := 16#32
  let v228 : BitVec 32 := Scalar.muli v5 c16_i32_209
  let v229 : BitVec 32 := Scalar.addi v76 v228
  let c1_i32_2 : BitVec 32 := 1#32
  let v6 : BitVec 32 := Scalar.shrsi v2 c1_i32_2
  let c1_i32_3 : BitVec 32 := 1#32
  let v7 : BitVec 32 := Scalar.andi v6 c1_i32_3
  let c8_i32_382 : BitVec 32 := 8#32
  let v423 : BitVec 32 := Scalar.muli v7 c8_i32_382
  let v424 : BitVec 32 := Scalar.addi v229 v423
  let v633 : Index := Scalar.indexCast v424
  let c0_572 : Index := 0#32
  ![v633.toNat, 0]
def k0_off27 (d0 : Dev nD) : Fin 2 → Nat :=
  let c704_i32_67 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c32_i32_66 : BitVec 32 := 32#32
  let v75 : BitVec 32 := Scalar.muli v9 c32_i32_66
  let v76 : BitVec 32 := Scalar.addi c704_i32_67 v75
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c16_i32_209 : BitVec 32 := 16#32
  let v228 : BitVec 32 := Scalar.muli v5 c16_i32_209
  let v229 : BitVec 32 := Scalar.addi v76 v228
  let c1_i32_2 : BitVec 32 := 1#32
  let v6 : BitVec 32 := Scalar.shrsi v2 c1_i32_2
  let c1_i32_3 : BitVec 32 := 1#32
  let v7 : BitVec 32 := Scalar.andi v6 c1_i32_3
  let c8_i32_382 : BitVec 32 := 8#32
  let v423 : BitVec 32 := Scalar.muli v7 c8_i32_382
  let v424 : BitVec 32 := Scalar.addi v229 v423
  let c0_i32_581 : BitVec 32 := 0#32
  ![v424.toNat, 0]
def k0_dev30 (d0 : Dev nD) : Nat :=
  let c0_i32_580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_579 : BitVec 32 := 1#32
  let v640 : BitVec 32 := Scalar.muli v11 c1_i32_579
  let v641 : BitVec 32 := Scalar.addi c0_i32_580 v640
  v641.toNat
def k0_dev31 (d0 : Dev nD) : Nat :=
  let c0_i32_603 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_602 : BitVec 32 := 1#32
  let v666 : BitVec 32 := Scalar.muli v12 c1_i32_602
  let v667 : BitVec 32 := Scalar.addi c0_i32_603 v666
  v667.toNat
def k0_dev32 (d0 : Dev nD) : Nat :=
  let c0_i32_626 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_625 : BitVec 32 := 1#32
  let v692 : BitVec 32 := Scalar.muli v10 c1_i32_625
  let v693 : BitVec 32 := Scalar.addi c0_i32_626 v692
  v693.toNat
def k0_dev33 (d0 : Dev nD) : Nat :=
  let c0_i32_650 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_649 : BitVec 32 := 1#32
  let v718 : BitVec 32 := Scalar.muli v11 c1_i32_649
  let v719 : BitVec 32 := Scalar.addi c0_i32_650 v718
  v719.toNat
def k0_dev34 (d0 : Dev nD) : Nat :=
  let c0_i32_671 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_670 : BitVec 32 := 1#32
  let v741 : BitVec 32 := Scalar.muli v12 c1_i32_670
  let v742 : BitVec 32 := Scalar.addi c0_i32_671 v741
  v742.toNat
def k0_off28 (d0 : Dev nD) (c448_i32_103 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c64_i32_102 : BitVec 32 := 64#32
  let v113 : BitVec 32 := Scalar.muli v7 c64_i32_102
  let v114 : BitVec 32 := Scalar.addi c448_i32_103 v113
  let c2_i32 : BitVec 32 := 2#32
  let v8 : BitVec 32 := Scalar.shrsi v2 c2_i32
  let c1_i32_4 : BitVec 32 := 1#32
  let v9 : BitVec 32 := Scalar.andi v8 c1_i32_4
  let c32_i32_289 : BitVec 32 := 32#32
  let v319 : BitVec 32 := Scalar.muli v9 c32_i32_289
  let v320 : BitVec 32 := Scalar.addi v114 v319
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c16_i32_497 : BitVec 32 := 16#32
  let v553 : BitVec 32 := Scalar.muli v5 c16_i32_497
  let v554 : BitVec 32 := Scalar.addi v320 v553
  let v757 : Index := Scalar.indexCast v554
  let c0_684 : Index := 0#32
  ![v757.toNat, 0]
def k0_off29 (d0 : Dev nD) (c448_i32_103 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c64_i32_102 : BitVec 32 := 64#32
  let v113 : BitVec 32 := Scalar.muli v7 c64_i32_102
  let v114 : BitVec 32 := Scalar.addi c448_i32_103 v113
  let c2_i32 : BitVec 32 := 2#32
  let v8 : BitVec 32 := Scalar.shrsi v2 c2_i32
  let c1_i32_4 : BitVec 32 := 1#32
  let v9 : BitVec 32 := Scalar.andi v8 c1_i32_4
  let c32_i32_289 : BitVec 32 := 32#32
  let v319 : BitVec 32 := Scalar.muli v9 c32_i32_289
  let v320 : BitVec 32 := Scalar.addi v114 v319
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c16_i32_497 : BitVec 32 := 16#32
  let v553 : BitVec 32 := Scalar.muli v5 c16_i32_497
  let v554 : BitVec 32 := Scalar.addi v320 v553
  let c0_i32_693 : BitVec 32 := 0#32
  ![v554.toNat, 0]
def k0_dev35 (d0 : Dev nD) : Nat :=
  let c0_i32_692 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_691 : BitVec 32 := 1#32
  let v764 : BitVec 32 := Scalar.muli v10 c1_i32_691
  let v765 : BitVec 32 := Scalar.addi c0_i32_692 v764
  v765.toNat
def k0_off30 (d0 : Dev nD) (c768_i32_121 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c64_i32_120 : BitVec 32 := 64#32
  let v132 : BitVec 32 := Scalar.muli v9 c64_i32_120
  let v133 : BitVec 32 := Scalar.addi c768_i32_121 v132
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_313 : BitVec 32 := 32#32
  let v345 : BitVec 32 := Scalar.muli v5 c32_i32_313
  let v346 : BitVec 32 := Scalar.addi v133 v345
  let c1_i32_2 : BitVec 32 := 1#32
  let v6 : BitVec 32 := Scalar.shrsi v2 c1_i32_2
  let c1_i32_3 : BitVec 32 := 1#32
  let v7 : BitVec 32 := Scalar.andi v6 c1_i32_3
  let c16_i32_520 : BitVec 32 := 16#32
  let v579 : BitVec 32 := Scalar.muli v7 c16_i32_520
  let v580 : BitVec 32 := Scalar.addi v346 v579
  let v780 : Index := Scalar.indexCast v580
  let c0_705 : Index := 0#32
  ![v780.toNat, 0]
def k0_off31 (d0 : Dev nD) (c768_i32_121 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c64_i32_120 : BitVec 32 := 64#32
  let v132 : BitVec 32 := Scalar.muli v9 c64_i32_120
  let v133 : BitVec 32 := Scalar.addi c768_i32_121 v132
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_313 : BitVec 32 := 32#32
  let v345 : BitVec 32 := Scalar.muli v5 c32_i32_313
  let v346 : BitVec 32 := Scalar.addi v133 v345
  let c1_i32_2 : BitVec 32 := 1#32
  let v6 : BitVec 32 := Scalar.shrsi v2 c1_i32_2
  let c1_i32_3 : BitVec 32 := 1#32
  let v7 : BitVec 32 := Scalar.andi v6 c1_i32_3
  let c16_i32_520 : BitVec 32 := 16#32
  let v579 : BitVec 32 := Scalar.muli v7 c16_i32_520
  let v580 : BitVec 32 := Scalar.addi v346 v579
  let c0_i32_714 : BitVec 32 := 0#32
  ![v580.toNat, 0]
def k0_dev36 (d0 : Dev nD) : Nat :=
  let c0_i32_713 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_712 : BitVec 32 := 1#32
  let v787 : BitVec 32 := Scalar.muli v11 c1_i32_712
  let v788 : BitVec 32 := Scalar.addi c0_i32_713 v787
  v788.toNat
def k0_off32 (d0 : Dev nD) (c0_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_31 : BitVec 32 := 64#32
  let v37 : BitVec 32 := Scalar.muli v5 c64_i32_31
  let v38 : BitVec 32 := Scalar.addi c0_i32_32 v37
  let c1_i32_2 : BitVec 32 := 1#32
  let v6 : BitVec 32 := Scalar.shrsi v2 c1_i32_2
  let c1_i32_3 : BitVec 32 := 1#32
  let v7 : BitVec 32 := Scalar.andi v6 c1_i32_3
  let c32_i32_164 : BitVec 32 := 32#32
  let v176 : BitVec 32 := Scalar.muli v7 c32_i32_164
  let v177 : BitVec 32 := Scalar.addi v38 v176
  let c2_i32 : BitVec 32 := 2#32
  let v8 : BitVec 32 := Scalar.shrsi v2 c2_i32
  let c1_i32_4 : BitVec 32 := 1#32
  let v9 : BitVec 32 := Scalar.andi v8 c1_i32_4
  let c16_i32_336 : BitVec 32 := 16#32
  let v371 : BitVec 32 := Scalar.muli v9 c16_i32_336
  let v372 : BitVec 32 := Scalar.addi v177 v371
  let c16_i32_541 : BitVec 32 := 16#32
  let v602 : BitVec 32 := Scalar.muli v9 c16_i32_541
  let v603 : BitVec 32 := Scalar.subi v372 v602
  let c0_i32_731 : BitVec 32 := 0#32
  ![v603.toNat, 0]
def k0_dev37 (d0 : Dev nD) : Nat :=
  let c0_i32_730 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_729 : BitVec 32 := 1#32
  let v803 : BitVec 32 := Scalar.muli v11 c1_i32_729
  let v804 : BitVec 32 := Scalar.addi c0_i32_730 v803
  v804.toNat
def k0_off33 (d0 : Dev nD) : Fin 2 → Nat :=
  let c384_i32_49 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c32_i32_48 : BitVec 32 := 32#32
  let v56 : BitVec 32 := Scalar.muli v7 c32_i32_48
  let v57 : BitVec 32 := Scalar.addi c384_i32_49 v56
  let c2_i32 : BitVec 32 := 2#32
  let v8 : BitVec 32 := Scalar.shrsi v2 c2_i32
  let c1_i32_4 : BitVec 32 := 1#32
  let v9 : BitVec 32 := Scalar.andi v8 c1_i32_4
  let c16_i32_186 : BitVec 32 := 16#32
  let v202 : BitVec 32 := Scalar.muli v9 c16_i32_186
  let v203 : BitVec 32 := Scalar.addi v57 v202
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c8_i32_359 : BitVec 32 := 8#32
  let v397 : BitVec 32 := Scalar.muli v5 c8_i32_359
  let v398 : BitVec 32 := Scalar.addi v203 v397
  let c8_i32_562 : BitVec 32 := 8#32
  let v625 : BitVec 32 := Scalar.muli v5 c8_i32_562
  let v626 : BitVec 32 := Scalar.subi v398 v625
  let c0_i32_748 : BitVec 32 := 0#32
  ![v626.toNat, 0]
def k0_dev38 (d0 : Dev nD) : Nat :=
  let c0_i32_747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_746 : BitVec 32 := 1#32
  let v819 : BitVec 32 := Scalar.muli v12 c1_i32_746
  let v820 : BitVec 32 := Scalar.addi c0_i32_747 v819
  v820.toNat
def k0_off34 (d0 : Dev nD) : Fin 2 → Nat :=
  let c704_i32_67 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c32_i32_66 : BitVec 32 := 32#32
  let v75 : BitVec 32 := Scalar.muli v9 c32_i32_66
  let v76 : BitVec 32 := Scalar.addi c704_i32_67 v75
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c16_i32_209 : BitVec 32 := 16#32
  let v228 : BitVec 32 := Scalar.muli v5 c16_i32_209
  let v229 : BitVec 32 := Scalar.addi v76 v228
  let c1_i32_2 : BitVec 32 := 1#32
  let v6 : BitVec 32 := Scalar.shrsi v2 c1_i32_2
  let c1_i32_3 : BitVec 32 := 1#32
  let v7 : BitVec 32 := Scalar.andi v6 c1_i32_3
  let c8_i32_382 : BitVec 32 := 8#32
  let v423 : BitVec 32 := Scalar.muli v7 c8_i32_382
  let v424 : BitVec 32 := Scalar.addi v229 v423
  let c8_i32_583 : BitVec 32 := 8#32
  let v648 : BitVec 32 := Scalar.muli v7 c8_i32_583
  let v649 : BitVec 32 := Scalar.subi v424 v648
  let c0_i32_765 : BitVec 32 := 0#32
  ![v649.toNat, 0]
def k0_dev39 (d0 : Dev nD) : Nat :=
  let c0_i32_764 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_763 : BitVec 32 := 1#32
  let v835 : BitVec 32 := Scalar.muli v10 c1_i32_763
  let v836 : BitVec 32 := Scalar.addi c0_i32_764 v835
  v836.toNat
def k0_dev40 (d0 : Dev nD) : Nat :=
  let c0_i32_785 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_784 : BitVec 32 := 1#32
  let v858 : BitVec 32 := Scalar.muli v12 c1_i32_784
  let v859 : BitVec 32 := Scalar.addi c0_i32_785 v858
  v859.toNat
def k0_dev41 (d0 : Dev nD) : Nat :=
  let c0_i32_807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_806 : BitVec 32 := 1#32
  let v881 : BitVec 32 := Scalar.muli v10 c1_i32_806
  let v882 : BitVec 32 := Scalar.addi c0_i32_807 v881
  v882.toNat
def k0_dev42 (d0 : Dev nD) : Nat :=
  let c0_i32_828 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_827 : BitVec 32 := 1#32
  let v904 : BitVec 32 := Scalar.muli v11 c1_i32_827
  let v905 : BitVec 32 := Scalar.addi c0_i32_828 v904
  v905.toNat
def k0_dev43 (d0 : Dev nD) : Nat :=
  let c0_i32_845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_844 : BitVec 32 := 1#32
  let v920 : BitVec 32 := Scalar.muli v11 c1_i32_844
  let v921 : BitVec 32 := Scalar.addi c0_i32_845 v920
  v921.toNat
def k0_off35 (d0 : Dev nD) (c448_i32_103 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c64_i32_102 : BitVec 32 := 64#32
  let v113 : BitVec 32 := Scalar.muli v7 c64_i32_102
  let v114 : BitVec 32 := Scalar.addi c448_i32_103 v113
  let c2_i32 : BitVec 32 := 2#32
  let v8 : BitVec 32 := Scalar.shrsi v2 c2_i32
  let c1_i32_4 : BitVec 32 := 1#32
  let v9 : BitVec 32 := Scalar.andi v8 c1_i32_4
  let c32_i32_289 : BitVec 32 := 32#32
  let v319 : BitVec 32 := Scalar.muli v9 c32_i32_289
  let v320 : BitVec 32 := Scalar.addi v114 v319
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c16_i32_497 : BitVec 32 := 16#32
  let v553 : BitVec 32 := Scalar.muli v5 c16_i32_497
  let v554 : BitVec 32 := Scalar.addi v320 v553
  let c16_i32_695 : BitVec 32 := 16#32
  let v772 : BitVec 32 := Scalar.muli v5 c16_i32_695
  let v773 : BitVec 32 := Scalar.subi v554 v772
  let c0_i32_863 : BitVec 32 := 0#32
  ![v773.toNat, 0]
def k0_dev44 (d0 : Dev nD) : Nat :=
  let c0_i32_862 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_861 : BitVec 32 := 1#32
  let v936 : BitVec 32 := Scalar.muli v12 c1_i32_861
  let v937 : BitVec 32 := Scalar.addi c0_i32_862 v936
  v937.toNat
def k0_off36 (d0 : Dev nD) (c768_i32_121 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c64_i32_120 : BitVec 32 := 64#32
  let v132 : BitVec 32 := Scalar.muli v9 c64_i32_120
  let v133 : BitVec 32 := Scalar.addi c768_i32_121 v132
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_313 : BitVec 32 := 32#32
  let v345 : BitVec 32 := Scalar.muli v5 c32_i32_313
  let v346 : BitVec 32 := Scalar.addi v133 v345
  let c1_i32_2 : BitVec 32 := 1#32
  let v6 : BitVec 32 := Scalar.shrsi v2 c1_i32_2
  let c1_i32_3 : BitVec 32 := 1#32
  let v7 : BitVec 32 := Scalar.andi v6 c1_i32_3
  let c16_i32_520 : BitVec 32 := 16#32
  let v579 : BitVec 32 := Scalar.muli v7 c16_i32_520
  let v580 : BitVec 32 := Scalar.addi v346 v579
  let c16_i32_716 : BitVec 32 := 16#32
  let v795 : BitVec 32 := Scalar.muli v7 c16_i32_716
  let v796 : BitVec 32 := Scalar.subi v580 v795
  let c0_i32_880 : BitVec 32 := 0#32
  ![v796.toNat, 0]
def k0_dev45 (d0 : Dev nD) : Nat :=
  let c0_i32_879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_878 : BitVec 32 := 1#32
  let v952 : BitVec 32 := Scalar.muli v10 c1_i32_878
  let v953 : BitVec 32 := Scalar.addi c0_i32_879 v952
  v953.toNat
def k0_off37 (d0 : Dev nD) (c0_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c64_i32_31 : BitVec 32 := 64#32
  let v37 : BitVec 32 := Scalar.muli v5 c64_i32_31
  let v38 : BitVec 32 := Scalar.addi c0_i32_32 v37
  let c1_i32_2 : BitVec 32 := 1#32
  let v6 : BitVec 32 := Scalar.shrsi v2 c1_i32_2
  let c1_i32_3 : BitVec 32 := 1#32
  let v7 : BitVec 32 := Scalar.andi v6 c1_i32_3
  let c32_i32_164 : BitVec 32 := 32#32
  let v176 : BitVec 32 := Scalar.muli v7 c32_i32_164
  let v177 : BitVec 32 := Scalar.addi v38 v176
  let c2_i32 : BitVec 32 := 2#32
  let v8 : BitVec 32 := Scalar.shrsi v2 c2_i32
  let c1_i32_4 : BitVec 32 := 1#32
  let v9 : BitVec 32 := Scalar.andi v8 c1_i32_4
  let c16_i32_336 : BitVec 32 := 16#32
  let v371 : BitVec 32 := Scalar.muli v9 c16_i32_336
  let v372 : BitVec 32 := Scalar.addi v177 v371
  let c16_i32_541 : BitVec 32 := 16#32
  let v602 : BitVec 32 := Scalar.muli v9 c16_i32_541
  let v603 : BitVec 32 := Scalar.subi v372 v602
  let c32_i32_733 : BitVec 32 := 32#32
  let v811 : BitVec 32 := Scalar.muli v7 c32_i32_733
  let v812 : BitVec 32 := Scalar.subi v603 v811
  let c0_i32_897 : BitVec 32 := 0#32
  ![v812.toNat, 0]
def k0_dev46 (d0 : Dev nD) : Nat :=
  let c0_i32_896 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_895 : BitVec 32 := 1#32
  let v968 : BitVec 32 := Scalar.muli v10 c1_i32_895
  let v969 : BitVec 32 := Scalar.addi c0_i32_896 v968
  v969.toNat
def k0_off38 (d0 : Dev nD) : Fin 2 → Nat :=
  let c384_i32_49 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c32_i32_48 : BitVec 32 := 32#32
  let v56 : BitVec 32 := Scalar.muli v7 c32_i32_48
  let v57 : BitVec 32 := Scalar.addi c384_i32_49 v56
  let c2_i32 : BitVec 32 := 2#32
  let v8 : BitVec 32 := Scalar.shrsi v2 c2_i32
  let c1_i32_4 : BitVec 32 := 1#32
  let v9 : BitVec 32 := Scalar.andi v8 c1_i32_4
  let c16_i32_186 : BitVec 32 := 16#32
  let v202 : BitVec 32 := Scalar.muli v9 c16_i32_186
  let v203 : BitVec 32 := Scalar.addi v57 v202
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c8_i32_359 : BitVec 32 := 8#32
  let v397 : BitVec 32 := Scalar.muli v5 c8_i32_359
  let v398 : BitVec 32 := Scalar.addi v203 v397
  let c8_i32_562 : BitVec 32 := 8#32
  let v625 : BitVec 32 := Scalar.muli v5 c8_i32_562
  let v626 : BitVec 32 := Scalar.subi v398 v625
  let c16_i32_750 : BitVec 32 := 16#32
  let v827 : BitVec 32 := Scalar.muli v9 c16_i32_750
  let v828 : BitVec 32 := Scalar.subi v626 v827
  let c0_i32_913 : BitVec 32 := 0#32
  ![v828.toNat, 0]
def k0_dev47 (d0 : Dev nD) : Nat :=
  let c0_i32_912 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_911 : BitVec 32 := 1#32
  let v982 : BitVec 32 := Scalar.muli v11 c1_i32_911
  let v983 : BitVec 32 := Scalar.addi c0_i32_912 v982
  v983.toNat
def k0_off39 (d0 : Dev nD) : Fin 2 → Nat :=
  let c704_i32_67 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c32_i32_66 : BitVec 32 := 32#32
  let v75 : BitVec 32 := Scalar.muli v9 c32_i32_66
  let v76 : BitVec 32 := Scalar.addi c704_i32_67 v75
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c16_i32_209 : BitVec 32 := 16#32
  let v228 : BitVec 32 := Scalar.muli v5 c16_i32_209
  let v229 : BitVec 32 := Scalar.addi v76 v228
  let c1_i32_2 : BitVec 32 := 1#32
  let v6 : BitVec 32 := Scalar.shrsi v2 c1_i32_2
  let c1_i32_3 : BitVec 32 := 1#32
  let v7 : BitVec 32 := Scalar.andi v6 c1_i32_3
  let c8_i32_382 : BitVec 32 := 8#32
  let v423 : BitVec 32 := Scalar.muli v7 c8_i32_382
  let v424 : BitVec 32 := Scalar.addi v229 v423
  let c8_i32_583 : BitVec 32 := 8#32
  let v648 : BitVec 32 := Scalar.muli v7 c8_i32_583
  let v649 : BitVec 32 := Scalar.subi v424 v648
  let c16_i32_767 : BitVec 32 := 16#32
  let v843 : BitVec 32 := Scalar.muli v5 c16_i32_767
  let v844 : BitVec 32 := Scalar.subi v649 v843
  let c0_i32_929 : BitVec 32 := 0#32
  ![v844.toNat, 0]
def k0_dev48 (d0 : Dev nD) : Nat :=
  let c0_i32_928 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_927 : BitVec 32 := 1#32
  let v996 : BitVec 32 := Scalar.muli v12 c1_i32_927
  let v997 : BitVec 32 := Scalar.addi c0_i32_928 v996
  v997.toNat
def k0_dev49 (d0 : Dev nD) : Nat :=
  let c0_i32_944 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_943 : BitVec 32 := 1#32
  let v1010 : BitVec 32 := Scalar.muli v11 c1_i32_943
  let v1011 : BitVec 32 := Scalar.addi c0_i32_944 v1010
  v1011.toNat
def k0_dev50 (d0 : Dev nD) : Nat :=
  let c0_i32_961 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_960 : BitVec 32 := 1#32
  let v1026 : BitVec 32 := Scalar.muli v12 c1_i32_960
  let v1027 : BitVec 32 := Scalar.addi c0_i32_961 v1026
  v1027.toNat
def k0_dev51 (d0 : Dev nD) : Nat :=
  let c0_i32_978 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_977 : BitVec 32 := 1#32
  let v1042 : BitVec 32 := Scalar.muli v10 c1_i32_977
  let v1043 : BitVec 32 := Scalar.addi c0_i32_978 v1042
  v1043.toNat
def k0_dev52 (d0 : Dev nD) : Nat :=
  let c0_i32_995 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_994 : BitVec 32 := 1#32
  let v1058 : BitVec 32 := Scalar.muli v10 c1_i32_994
  let v1059 : BitVec 32 := Scalar.addi c0_i32_995 v1058
  v1059.toNat
def k0_off40 (d0 : Dev nD) (c448_i32_103 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c64_i32_102 : BitVec 32 := 64#32
  let v113 : BitVec 32 := Scalar.muli v7 c64_i32_102
  let v114 : BitVec 32 := Scalar.addi c448_i32_103 v113
  let c2_i32 : BitVec 32 := 2#32
  let v8 : BitVec 32 := Scalar.shrsi v2 c2_i32
  let c1_i32_4 : BitVec 32 := 1#32
  let v9 : BitVec 32 := Scalar.andi v8 c1_i32_4
  let c32_i32_289 : BitVec 32 := 32#32
  let v319 : BitVec 32 := Scalar.muli v9 c32_i32_289
  let v320 : BitVec 32 := Scalar.addi v114 v319
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c16_i32_497 : BitVec 32 := 16#32
  let v553 : BitVec 32 := Scalar.muli v5 c16_i32_497
  let v554 : BitVec 32 := Scalar.addi v320 v553
  let c16_i32_695 : BitVec 32 := 16#32
  let v772 : BitVec 32 := Scalar.muli v5 c16_i32_695
  let v773 : BitVec 32 := Scalar.subi v554 v772
  let c32_i32_865 : BitVec 32 := 32#32
  let v944 : BitVec 32 := Scalar.muli v9 c32_i32_865
  let v945 : BitVec 32 := Scalar.subi v773 v944
  let c0_i32_1012 : BitVec 32 := 0#32
  ![v945.toNat, 0]
def k0_dev53 (d0 : Dev nD) : Nat :=
  let c0_i32_1011 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_1010 : BitVec 32 := 1#32
  let v1072 : BitVec 32 := Scalar.muli v11 c1_i32_1010
  let v1073 : BitVec 32 := Scalar.addi c0_i32_1011 v1072
  v1073.toNat
def k0_off41 (d0 : Dev nD) (c768_i32_121 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c64_i32_120 : BitVec 32 := 64#32
  let v132 : BitVec 32 := Scalar.muli v9 c64_i32_120
  let v133 : BitVec 32 := Scalar.addi c768_i32_121 v132
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c32_i32_313 : BitVec 32 := 32#32
  let v345 : BitVec 32 := Scalar.muli v5 c32_i32_313
  let v346 : BitVec 32 := Scalar.addi v133 v345
  let c1_i32_2 : BitVec 32 := 1#32
  let v6 : BitVec 32 := Scalar.shrsi v2 c1_i32_2
  let c1_i32_3 : BitVec 32 := 1#32
  let v7 : BitVec 32 := Scalar.andi v6 c1_i32_3
  let c16_i32_520 : BitVec 32 := 16#32
  let v579 : BitVec 32 := Scalar.muli v7 c16_i32_520
  let v580 : BitVec 32 := Scalar.addi v346 v579
  let c16_i32_716 : BitVec 32 := 16#32
  let v795 : BitVec 32 := Scalar.muli v7 c16_i32_716
  let v796 : BitVec 32 := Scalar.subi v580 v795
  let c32_i32_882 : BitVec 32 := 32#32
  let v960 : BitVec 32 := Scalar.muli v5 c32_i32_882
  let v961 : BitVec 32 := Scalar.subi v796 v960
  let c0_i32_1028 : BitVec 32 := 0#32
  ![v961.toNat, 0]
def k0_dev54 (d0 : Dev nD) : Nat :=
  let c0_i32_1027 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_1026 : BitVec 32 := 1#32
  let v1086 : BitVec 32 := Scalar.muli v12 c1_i32_1026
  let v1087 : BitVec 32 := Scalar.addi c0_i32_1027 v1086
  v1087.toNat
def k0_dev55 (d0 : Dev nD) : Nat :=
  let c0_i32_1067 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_1066 : BitVec 32 := 1#32
  let v1118 : BitVec 32 := Scalar.muli v10 c1_i32_1066
  let v1119 : BitVec 32 := Scalar.addi c0_i32_1067 v1118
  v1119.toNat
def k0_dev56 (d0 : Dev nD) : Nat :=
  let c0_i32_1083 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_1082 : BitVec 32 := 1#32
  let v1132 : BitVec 32 := Scalar.muli v11 c1_i32_1082
  let v1133 : BitVec 32 := Scalar.addi c0_i32_1083 v1132
  v1133.toNat
def k0_dev57 (d0 : Dev nD) : Nat :=
  let c0_i32_1099 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_1098 : BitVec 32 := 1#32
  let v1146 : BitVec 32 := Scalar.muli v12 c1_i32_1098
  let v1147 : BitVec 32 := Scalar.addi c0_i32_1099 v1146
  v1147.toNat
def k0_dev58 (d0 : Dev nD) : Nat :=
  let c0_i32_1557_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v10 : BitVec 32 := Scalar.xori v2 c1_i32_5
  let c1_i32_1556_r0 : BitVec 32 := 1#32
  let v1407_r0 : BitVec 32 := Scalar.muli v10 c1_i32_1556_r0
  let v1408_r0 : BitVec 32 := Scalar.addi c0_i32_1557_r0 v1407_r0
  v1408_r0.toNat
def k0_dev59 (d0 : Dev nD) : Nat :=
  let c0_i32_1560_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v11 : BitVec 32 := Scalar.xori v2 c3_i32
  let c1_i32_1559_r0 : BitVec 32 := 1#32
  let v1409_r0 : BitVec 32 := Scalar.muli v11 c1_i32_1559_r0
  let v1410_r0 : BitVec 32 := Scalar.addi c0_i32_1560_r0 v1409_r0
  v1410_r0.toNat
def k0_dev60 (d0 : Dev nD) : Nat :=
  let c0_i32_1563_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v12 : BitVec 32 := Scalar.xori v2 c4_i32
  let c1_i32_1562_r0 : BitVec 32 := 1#32
  let v1411_r0 : BitVec 32 := Scalar.muli v12 c1_i32_1562_r0
  let v1412_r0 : BitVec 32 := Scalar.addi c0_i32_1563_r0 v1411_r0
  v1412_r0.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  hamt_3 : (3#32 : BitVec 32).msb = false
  inb_S1024x512_S128x512_0_0 : ∀ a, (![0, 0] : Fin 2 → Nat) a + S128x512.size a ≤ S1024x512.size a
  h_S128x512 : 0 < S128x512.numel
  shapeCasts_S128x512_S128x512 : S128x512.ShapeCasts S128x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S128x1024_0_0 : ∀ a, (![0, 0] : Fin 2 → Nat) a + S128x1024.size a ≤ S1024x1024.size a
  h_S128x1024 : 0 < S128x1024.numel
  inb_S9x3_S1x1_0_0 : ∀ a, (![0, 0] : Fin 2 → Nat) a + S1x1.size a ≤ S9x3.size a
  squeezes_S1x1_S_ : S1x1.Squeezes S_
  inb_S896x1024_S64x1024_0_0 : ∀ a, (![0, 0] : Fin 2 → Nat) a + S64x1024.size a ≤ S896x1024.size a
  inb_S1024x512_S64x512_384_0 : ∀ a, (![384, 0] : Fin 2 → Nat) a + S64x512.size a ≤ S1024x512.size a
  h_S64x512 : 0 < S64x512.numel
  shapeCasts_S64x512_S64x512 : S64x512.ShapeCasts S64x512
  inb_S1024x1024_S64x1024_384_0 : ∀ a, (![384, 0] : Fin 2 → Nat) a + S64x1024.size a ≤ S1024x1024.size a
  h_S64x1024 : 0 < S64x1024.numel
  inb_S9x3_S1x1_1_0 : ∀ a, (![1, 0] : Fin 2 → Nat) a + S1x1.size a ≤ S9x3.size a
  inb_S896x1024_S32x1024_112_0 : ∀ a, (![112, 0] : Fin 2 → Nat) a + S32x1024.size a ≤ S896x1024.size a
  inb_S1024x512_S64x512_704_0 : ∀ a, (![704, 0] : Fin 2 → Nat) a + S64x512.size a ≤ S1024x512.size a
  inb_S1024x1024_S64x1024_704_0 : ∀ a, (![704, 0] : Fin 2 → Nat) a + S64x1024.size a ≤ S1024x1024.size a
  inb_S9x3_S1x1_2_0 : ∀ a, (![2, 0] : Fin 2 → Nat) a + S1x1.size a ≤ S9x3.size a
  inb_S896x1024_S32x1024_168_0 : ∀ a, (![168, 0] : Fin 2 → Nat) a + S32x1024.size a ≤ S896x1024.size a
  inb_S1024x512_S128x512_128_0 : ∀ a, (![128, 0] : Fin 2 → Nat) a + S128x512.size a ≤ S1024x512.size a
  inb_S1024x1024_S128x1024_128_0 : ∀ a, (![128, 0] : Fin 2 → Nat) a + S128x1024.size a ≤ S1024x1024.size a
  inb_S9x3_S1x1_3_0 : ∀ a, (![3, 0] : Fin 2 → Nat) a + S1x1.size a ≤ S9x3.size a
  inb_S896x1024_S64x1024_224_0 : ∀ a, (![224, 0] : Fin 2 → Nat) a + S64x1024.size a ≤ S896x1024.size a
  inb_S1024x512_S128x512_448_0 : ∀ a, (![448, 0] : Fin 2 → Nat) a + S128x512.size a ≤ S1024x512.size a
  inb_S1024x1024_S128x1024_448_0 : ∀ a, (![448, 0] : Fin 2 → Nat) a + S128x1024.size a ≤ S1024x1024.size a
  inb_S9x3_S1x1_4_0 : ∀ a, (![4, 0] : Fin 2 → Nat) a + S1x1.size a ≤ S9x3.size a
  inb_S896x1024_S64x1024_336_0 : ∀ a, (![336, 0] : Fin 2 → Nat) a + S64x1024.size a ≤ S896x1024.size a
  inb_S1024x512_S128x512_768_0 : ∀ a, (![768, 0] : Fin 2 → Nat) a + S128x512.size a ≤ S1024x512.size a
  inb_S1024x1024_S128x1024_768_0 : ∀ a, (![768, 0] : Fin 2 → Nat) a + S128x1024.size a ≤ S1024x1024.size a
  inb_S9x3_S1x1_5_0 : ∀ a, (![5, 0] : Fin 2 → Nat) a + S1x1.size a ≤ S9x3.size a
  inb_S896x1024_S64x1024_448_0 : ∀ a, (![448, 0] : Fin 2 → Nat) a + S64x1024.size a ≤ S896x1024.size a
  inb_S1024x512_S128x512_256_0 : ∀ a, (![256, 0] : Fin 2 → Nat) a + S128x512.size a ≤ S1024x512.size a
  inb_S1024x1024_S128x1024_256_0 : ∀ a, (![256, 0] : Fin 2 → Nat) a + S128x1024.size a ≤ S1024x1024.size a
  inb_S1024x512_S128x512_576_0 : ∀ a, (![576, 0] : Fin 2 → Nat) a + S128x512.size a ≤ S1024x512.size a
  inb_S1024x1024_S128x1024_576_0 : ∀ a, (![576, 0] : Fin 2 → Nat) a + S128x1024.size a ≤ S1024x1024.size a
  inb_S1024x512_S128x512_896_0 : ∀ a, (![896, 0] : Fin 2 → Nat) a + S128x512.size a ≤ S1024x512.size a
  inb_S1024x1024_S128x1024_896_0 : ∀ a, (![896, 0] : Fin 2 → Nat) a + S128x1024.size a ≤ S1024x1024.size a
  shapeCasts_S64x1024_S64x1024 : S64x1024.ShapeCasts S64x1024
  inb_S9x3_S1x1_0_1 : ∀ a, (![0, 1] : Fin 2 → Nat) a + S1x1.size a ≤ S9x3.size a
  inb_S896x1024_S32x1024_64_0 : ∀ a, (![64, 0] : Fin 2 → Nat) a + S32x1024.size a ≤ S896x1024.size a
  h_S32x1024 : 0 < S32x1024.numel
  shapeCasts_S32x1024_S32x1024 : S32x1024.ShapeCasts S32x1024
  inb_S9x3_S1x1_1_1 : ∀ a, (![1, 1] : Fin 2 → Nat) a + S1x1.size a ≤ S9x3.size a
  inb_S896x1024_S16x1024_144_0 : ∀ a, (![144, 0] : Fin 2 → Nat) a + S16x1024.size a ≤ S896x1024.size a
  inb_S9x3_S1x1_2_1 : ∀ a, (![2, 1] : Fin 2 → Nat) a + S1x1.size a ≤ S9x3.size a
  inb_S896x1024_S16x1024_200_0 : ∀ a, (![200, 0] : Fin 2 → Nat) a + S16x1024.size a ≤ S896x1024.size a
  inb_S9x3_S1x1_6_0 : ∀ a, (![6, 0] : Fin 2 → Nat) a + S1x1.size a ≤ S9x3.size a
  inb_S896x1024_S64x1024_560_0 : ∀ a, (![560, 0] : Fin 2 → Nat) a + S64x1024.size a ≤ S896x1024.size a
  inb_S9x3_S1x1_7_0 : ∀ a, (![7, 0] : Fin 2 → Nat) a + S1x1.size a ≤ S9x3.size a
  inb_S896x1024_S64x1024_672_0 : ∀ a, (![672, 0] : Fin 2 → Nat) a + S64x1024.size a ≤ S896x1024.size a
  inb_S9x3_S1x1_8_0 : ∀ a, (![8, 0] : Fin 2 → Nat) a + S1x1.size a ≤ S9x3.size a
  inb_S896x1024_S64x1024_784_0 : ∀ a, (![784, 0] : Fin 2 → Nat) a + S64x1024.size a ≤ S896x1024.size a
  inb_S9x3_S1x1_3_1 : ∀ a, (![3, 1] : Fin 2 → Nat) a + S1x1.size a ≤ S9x3.size a
  inb_S896x1024_S32x1024_288_0 : ∀ a, (![288, 0] : Fin 2 → Nat) a + S32x1024.size a ≤ S896x1024.size a
  inb_S9x3_S1x1_4_1 : ∀ a, (![4, 1] : Fin 2 → Nat) a + S1x1.size a ≤ S9x3.size a
  inb_S896x1024_S32x1024_400_0 : ∀ a, (![400, 0] : Fin 2 → Nat) a + S32x1024.size a ≤ S896x1024.size a
  inb_S9x3_S1x1_5_1 : ∀ a, (![5, 1] : Fin 2 → Nat) a + S1x1.size a ≤ S9x3.size a
  inb_S896x1024_S32x1024_512_0 : ∀ a, (![512, 0] : Fin 2 → Nat) a + S32x1024.size a ≤ S896x1024.size a
  inb_S9x3_S1x1_0_2 : ∀ a, (![0, 2] : Fin 2 → Nat) a + S1x1.size a ≤ S9x3.size a
  inb_S896x1024_S16x1024_96_0 : ∀ a, (![96, 0] : Fin 2 → Nat) a + S16x1024.size a ≤ S896x1024.size a
  h_S16x1024 : 0 < S16x1024.numel
  shapeCasts_S16x1024_S16x1024 : S16x1024.ShapeCasts S16x1024
  inb_S9x3_S1x1_1_2 : ∀ a, (![1, 2] : Fin 2 → Nat) a + S1x1.size a ≤ S9x3.size a
  inb_S896x1024_S8x1024_160_0 : ∀ a, (![160, 0] : Fin 2 → Nat) a + S8x1024.size a ≤ S896x1024.size a
  inb_S9x3_S1x1_2_2 : ∀ a, (![2, 2] : Fin 2 → Nat) a + S1x1.size a ≤ S9x3.size a
  inb_S896x1024_S8x1024_216_0 : ∀ a, (![216, 0] : Fin 2 → Nat) a + S8x1024.size a ≤ S896x1024.size a
  inb_S9x3_S1x1_6_1 : ∀ a, (![6, 1] : Fin 2 → Nat) a + S1x1.size a ≤ S9x3.size a
  inb_S896x1024_S32x1024_624_0 : ∀ a, (![624, 0] : Fin 2 → Nat) a + S32x1024.size a ≤ S896x1024.size a
  inb_S9x3_S1x1_7_1 : ∀ a, (![7, 1] : Fin 2 → Nat) a + S1x1.size a ≤ S9x3.size a
  inb_S896x1024_S32x1024_736_0 : ∀ a, (![736, 0] : Fin 2 → Nat) a + S32x1024.size a ≤ S896x1024.size a
  inb_S9x3_S1x1_8_1 : ∀ a, (![8, 1] : Fin 2 → Nat) a + S1x1.size a ≤ S9x3.size a
  inb_S896x1024_S32x1024_848_0 : ∀ a, (![848, 0] : Fin 2 → Nat) a + S32x1024.size a ≤ S896x1024.size a
  inb_S9x3_S1x1_3_2 : ∀ a, (![3, 2] : Fin 2 → Nat) a + S1x1.size a ≤ S9x3.size a
  inb_S896x1024_S16x1024_320_0 : ∀ a, (![320, 0] : Fin 2 → Nat) a + S16x1024.size a ≤ S896x1024.size a
  inb_S9x3_S1x1_4_2 : ∀ a, (![4, 2] : Fin 2 → Nat) a + S1x1.size a ≤ S9x3.size a
  inb_S896x1024_S16x1024_432_0 : ∀ a, (![432, 0] : Fin 2 → Nat) a + S16x1024.size a ≤ S896x1024.size a
  inb_S9x3_S1x1_5_2 : ∀ a, (![5, 2] : Fin 2 → Nat) a + S1x1.size a ≤ S9x3.size a
  inb_S896x1024_S16x1024_544_0 : ∀ a, (![544, 0] : Fin 2 → Nat) a + S16x1024.size a ≤ S896x1024.size a
  h_S8x1024 : 0 < S8x1024.numel
  shapeCasts_S8x1024_S8x1024 : S8x1024.ShapeCasts S8x1024
  inb_S9x3_S1x1_6_2 : ∀ a, (![6, 2] : Fin 2 → Nat) a + S1x1.size a ≤ S9x3.size a
  inb_S896x1024_S16x1024_656_0 : ∀ a, (![656, 0] : Fin 2 → Nat) a + S16x1024.size a ≤ S896x1024.size a
  inb_S9x3_S1x1_7_2 : ∀ a, (![7, 2] : Fin 2 → Nat) a + S1x1.size a ≤ S9x3.size a
  inb_S896x1024_S16x1024_768_0 : ∀ a, (![768, 0] : Fin 2 → Nat) a + S16x1024.size a ≤ S896x1024.size a
  inb_S9x3_S1x1_8_2 : ∀ a, (![8, 2] : Fin 2 → Nat) a + S1x1.size a ≤ S9x3.size a
  inb_S896x1024_S16x1024_880_0 : ∀ a, (![880, 0] : Fin 2 → Nat) a + S16x1024.size a ≤ S896x1024.size a
  dot_S128x512_S512x1024_S128x1024_1_0_0_1_n_n_wf : DotDims.WF S128x512 S512x1024 S128x1024 [1] [0] [0] [1] [] []
  dot_S64x512_S512x1024_S64x1024_1_0_0_1_n_n_wf : DotDims.WF S64x512 S512x1024 S64x1024 [1] [0] [0] [1] [] []
  hcc0_scoped0 : 1 + S_.numel ≤ 2
  hcc0_scratch1 : 3 + S9x3.numel ≤ 111
  hcc0_scratch2 : 30 + S9x3.numel ≤ 111
  hcc0_scratch3 : 57 + S9x3.numel ≤ 111
  hcc0_scratch4 : 84 + S9x3.numel ≤ 111
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 3), ∀ a, (k0_off1 d0 (BitVec.ofNat 32 (128 * r.val))) a + S64x1024.size a ≤ S1024x1024.size a
  k0_dev4_lt : ∀ d0 : Dev nD, (k0_dev4 d0) < nD
  k0_off2_inb : ∀ d0 : Dev nD, ∀ (r : Fin 2), ∀ a, (k0_off2 d0 (k0_off2_at r).1 (k0_off2_at r).2) a + S32x1024.size a ≤ S1024x1024.size a
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off3_inb : ∀ d0 : Dev nD, ∀ (r : Fin 4), ∀ a, (k0_off3 d0 (k0_off3_at r).1 (k0_off3_at r).2) a + S64x1024.size a ≤ S1024x1024.size a
  k0_dev8_lt : ∀ d0 : Dev nD, (k0_dev8 d0) < nD
  k0_dev9_lt : ∀ d0 : Dev nD, (k0_dev9 d0) < nD
  k0_off4_inb : ∀ d0 : Dev nD, ∀ (r : Fin 3), ∀ a, (k0_off4 d0 (BitVec.ofNat 32 (128 * r.val))) a + S64x1024.size a ≤ S1024x1024.size a
  k0_off5_inb : ∀ d0 : Dev nD, ∀ (r : Fin 3), ∀ a, (k0_off5 d0 (BitVec.ofNat 32 (128 * r.val))) a + S32x1024.size a ≤ S1024x1024.size a
  k0_dev10_lt : ∀ d0 : Dev nD, (k0_dev10 d0) < nD
  k0_off6_inb : ∀ d0 : Dev nD, ∀ (r : Fin 2), ∀ a, (k0_off6 d0 (k0_off6_at r).1 (k0_off6_at r).2) a + S32x1024.size a ≤ S1024x1024.size a
  k0_off7_inb : ∀ d0 : Dev nD, ∀ a, (k0_off7 d0) a + S16x1024.size a ≤ S1024x1024.size a
  k0_dev11_lt : ∀ d0 : Dev nD, (k0_dev11 d0) < nD
  k0_off8_inb : ∀ d0 : Dev nD, ∀ a, (k0_off8 d0) a + S16x1024.size a ≤ S1024x1024.size a
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_off9_inb : ∀ d0 : Dev nD, ∀ (r : Fin 4), ∀ a, (k0_off9 d0 (k0_off9_at r).1 (k0_off9_at r).2) a + S64x1024.size a ≤ S1024x1024.size a
  k0_off10_inb : ∀ d0 : Dev nD, ∀ (r : Fin 2), ∀ a, (k0_off10 d0 (BitVec.ofNat 32 (448 + 128 * r.val))) a + S32x1024.size a ≤ S1024x1024.size a
  k0_dev17_lt : ∀ d0 : Dev nD, (k0_dev17 d0) < nD
  k0_off11_inb : ∀ d0 : Dev nD, ∀ (r : Fin 2), ∀ a, (k0_off11 d0 (BitVec.ofNat 32 (768 + 128 * r.val))) a + S32x1024.size a ≤ S1024x1024.size a
  k0_dev18_lt : ∀ d0 : Dev nD, (k0_dev18 d0) < nD
  k0_off12_inb : ∀ d0 : Dev nD, ∀ (r : Fin 3), ∀ a, (k0_off12 d0 (BitVec.ofNat 32 (128 * r.val))) a + S32x1024.size a ≤ S1024x1024.size a
  k0_off13_inb : ∀ d0 : Dev nD, ∀ (r : Fin 3), ∀ a, (k0_off13 d0 (BitVec.ofNat 32 (128 * r.val))) a + S16x1024.size a ≤ S1024x1024.size a
  k0_dev19_lt : ∀ d0 : Dev nD, (k0_dev19 d0) < nD
  k0_off14_inb : ∀ d0 : Dev nD, ∀ a, (k0_off14 d0) a + S16x1024.size a ≤ S1024x1024.size a
  k0_off15_inb : ∀ d0 : Dev nD, ∀ a, (k0_off15 d0) a + S8x1024.size a ≤ S1024x1024.size a
  k0_dev20_lt : ∀ d0 : Dev nD, (k0_dev20 d0) < nD
  k0_off16_inb : ∀ d0 : Dev nD, ∀ a, (k0_off16 d0) a + S16x1024.size a ≤ S1024x1024.size a
  k0_off17_inb : ∀ d0 : Dev nD, ∀ a, (k0_off17 d0) a + S8x1024.size a ≤ S1024x1024.size a
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_off18_inb : ∀ d0 : Dev nD, ∀ (r : Fin 2), ∀ a, (k0_off18 d0 (BitVec.ofNat 32 (448 + 128 * r.val))) a + S32x1024.size a ≤ S1024x1024.size a
  k0_off19_inb : ∀ d0 : Dev nD, ∀ (r : Fin 2), ∀ a, (k0_off19 d0 (BitVec.ofNat 32 (448 + 128 * r.val))) a + S16x1024.size a ≤ S1024x1024.size a
  k0_dev26_lt : ∀ d0 : Dev nD, (k0_dev26 d0) < nD
  k0_off20_inb : ∀ d0 : Dev nD, ∀ (r : Fin 2), ∀ a, (k0_off20 d0 (BitVec.ofNat 32 (768 + 128 * r.val))) a + S32x1024.size a ≤ S1024x1024.size a
  k0_off21_inb : ∀ d0 : Dev nD, ∀ (r : Fin 2), ∀ a, (k0_off21 d0 (BitVec.ofNat 32 (768 + 128 * r.val))) a + S16x1024.size a ≤ S1024x1024.size a
  k0_dev27_lt : ∀ d0 : Dev nD, (k0_dev27 d0) < nD
  k0_off22_inb : ∀ d0 : Dev nD, ∀ (r : Fin 3), ∀ a, (k0_off22 d0 (BitVec.ofNat 32 (128 * r.val))) a + S16x1024.size a ≤ S1024x1024.size a
  k0_off23_inb : ∀ d0 : Dev nD, ∀ (r : Fin 3), ∀ a, (k0_off23 d0 (BitVec.ofNat 32 (128 * r.val))) a + S16x1024.size a ≤ S1024x1024.size a
  k0_dev28_lt : ∀ d0 : Dev nD, (k0_dev28 d0) < nD
  k0_off24_inb : ∀ d0 : Dev nD, ∀ a, (k0_off24 d0) a + S8x1024.size a ≤ S1024x1024.size a
  k0_off25_inb : ∀ d0 : Dev nD, ∀ a, (k0_off25 d0) a + S8x1024.size a ≤ S1024x1024.size a
  k0_dev29_lt : ∀ d0 : Dev nD, (k0_dev29 d0) < nD
  k0_off26_inb : ∀ d0 : Dev nD, ∀ a, (k0_off26 d0) a + S8x1024.size a ≤ S1024x1024.size a
  k0_off27_inb : ∀ d0 : Dev nD, ∀ a, (k0_off27 d0) a + S8x1024.size a ≤ S1024x1024.size a
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off28_inb : ∀ d0 : Dev nD, ∀ (r : Fin 2), ∀ a, (k0_off28 d0 (BitVec.ofNat 32 (448 + 128 * r.val))) a + S16x1024.size a ≤ S1024x1024.size a
  k0_off29_inb : ∀ d0 : Dev nD, ∀ (r : Fin 2), ∀ a, (k0_off29 d0 (BitVec.ofNat 32 (448 + 128 * r.val))) a + S16x1024.size a ≤ S1024x1024.size a
  k0_dev35_lt : ∀ d0 : Dev nD, (k0_dev35 d0) < nD
  k0_off30_inb : ∀ d0 : Dev nD, ∀ (r : Fin 2), ∀ a, (k0_off30 d0 (BitVec.ofNat 32 (768 + 128 * r.val))) a + S16x1024.size a ≤ S1024x1024.size a
  k0_off31_inb : ∀ d0 : Dev nD, ∀ (r : Fin 2), ∀ a, (k0_off31 d0 (BitVec.ofNat 32 (768 + 128 * r.val))) a + S16x1024.size a ≤ S1024x1024.size a
  k0_dev36_lt : ∀ d0 : Dev nD, (k0_dev36 d0) < nD
  k0_off32_inb : ∀ d0 : Dev nD, ∀ (r : Fin 3), ∀ a, (k0_off32 d0 (BitVec.ofNat 32 (128 * r.val))) a + S32x1024.size a ≤ S1024x1024.size a
  k0_dev37_lt : ∀ d0 : Dev nD, (k0_dev37 d0) < nD
  k0_off33_inb : ∀ d0 : Dev nD, ∀ a, (k0_off33 d0) a + S16x1024.size a ≤ S1024x1024.size a
  k0_dev38_lt : ∀ d0 : Dev nD, (k0_dev38 d0) < nD
  k0_off34_inb : ∀ d0 : Dev nD, ∀ a, (k0_off34 d0) a + S16x1024.size a ≤ S1024x1024.size a
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_off35_inb : ∀ d0 : Dev nD, ∀ (r : Fin 2), ∀ a, (k0_off35 d0 (BitVec.ofNat 32 (448 + 128 * r.val))) a + S32x1024.size a ≤ S1024x1024.size a
  k0_dev44_lt : ∀ d0 : Dev nD, (k0_dev44 d0) < nD
  k0_off36_inb : ∀ d0 : Dev nD, ∀ (r : Fin 2), ∀ a, (k0_off36 d0 (BitVec.ofNat 32 (768 + 128 * r.val))) a + S32x1024.size a ≤ S1024x1024.size a
  k0_dev45_lt : ∀ d0 : Dev nD, (k0_dev45 d0) < nD
  k0_off37_inb : ∀ d0 : Dev nD, ∀ (r : Fin 3), ∀ a, (k0_off37 d0 (BitVec.ofNat 32 (128 * r.val))) a + S64x1024.size a ≤ S1024x1024.size a
  k0_dev46_lt : ∀ d0 : Dev nD, (k0_dev46 d0) < nD
  k0_off38_inb : ∀ d0 : Dev nD, ∀ a, (k0_off38 d0) a + S32x1024.size a ≤ S1024x1024.size a
  k0_dev47_lt : ∀ d0 : Dev nD, (k0_dev47 d0) < nD
  k0_off39_inb : ∀ d0 : Dev nD, ∀ a, (k0_off39 d0) a + S32x1024.size a ≤ S1024x1024.size a
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_off40_inb : ∀ d0 : Dev nD, ∀ (r : Fin 2), ∀ a, (k0_off40 d0 (BitVec.ofNat 32 (448 + 128 * r.val))) a + S64x1024.size a ≤ S1024x1024.size a
  k0_dev53_lt : ∀ d0 : Dev nD, (k0_dev53 d0) < nD
  k0_off41_inb : ∀ d0 : Dev nD, ∀ (r : Fin 2), ∀ a, (k0_off41 d0 (BitVec.ofNat 32 (768 + 128 * r.val))) a + S64x1024.size a ≤ S1024x1024.size a
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  hstage0_0 : ∀ j, (stage0_0 j).IsWhole
  hstage0_1 : ∀ j, (stage0_1 j).IsWhole
  hstage0_2 : ∀ j, (stage0_2 j).IsWhole

variable [Facts₀]

abbrev cc0_scoped0 : Sems sig S_ := SemArray.consecutive 1 S_ hcc0_scoped0
abbrev cc0_scratch1 : DmaSems sig S9x3 := SemArray.consecutive 3 S9x3 hcc0_scratch1
abbrev cc0_scratch2 : DmaSems sig S9x3 := SemArray.consecutive 30 S9x3 hcc0_scratch2
abbrev cc0_scratch3 : DmaSems sig S9x3 := SemArray.consecutive 57 S9x3 hcc0_scratch3
abbrev cc0_scratch4 : DmaSems sig S9x3 := SemArray.consecutive 84 S9x3 hcc0_scratch4
def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x1024, .f32⟩
  | .hbm, ⟨2, _⟩ => ⟨S1024x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S1024x4096_S4096x1024_S1024x1024_1_0_0_1_n_n_wf : DotDims.WF S1024x4096 S4096x1024 S1024x1024 [1] [0] [0] [1] [] []

variable [Facts₀]

def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf

class Facts : Prop extends Facts₀ where

variable [Facts]
-- ==== Proof.RefSide.lean ====
import proofs.«900883_g7700000000000884_dist_matmul_k_i_m1024_n1024_k512_v7x_i8_f32_1_alg».proof.Defs
import proofs.«900883_g7700000000000884_dist_matmul_k_i_m1024_n1024_k512_v7x_i8_f32_1_alg».proof.Proof.Gen.ReferenceIdeal
import proofs.«900883_g7700000000000884_dist_matmul_k_i_m1024_n1024_k512_v7x_i8_f32_1_alg».proof.Proof.Gen.ReferenceIdeal.Run
import proofs.«900883_g7700000000000884_dist_matmul_k_i_m1024_n1024_k512_v7x_i8_f32_1_alg».proof.Proof.Gen.ReferenceIdeal.Read
-- ==== Proof.Mesh.lean ====
import Mathlib.Data.Fin.VecNotation
import Mathlib.Data.Fintype.Basic
import Mathlib.Tactic.FinCases

namespace Cert.Butterfly

-- Partner of device `c` along cube dimension `d`: `c` xor 1, 3, 4.
def par (d : Fin 3) (c : Fin 8) : Fin 8 :=
  (![![1, 0, 3, 2, 5, 4, 7, 6], ![3, 2, 1, 0, 7, 6, 5, 4], ![4, 5, 6, 7, 0, 1, 2, 3]] : Fin 3 → Fin 8 → Fin 8) d c

-- Coordinate `d` of device `c` in the three-dimensional cube.
def bit (d : Fin 3) (c : Fin 8) : Nat :=
  (![![0, 1, 1, 0, 0, 1, 1, 0], ![0, 0, 1, 1, 0, 0, 1, 1], ![0, 0, 0, 0, 1, 1, 1, 1]] : Fin 3 → Fin 8 → Nat) d c

theorem par_par (d : Fin 3) (c : Fin 8) : par d (par d c) = c := by revert d c; decide
theorem bit_le (d : Fin 3) (c : Fin 8) : bit d c ≤ 1 := by revert d c; decide

def rows (j : Fin 9) : Nat := (![128, 64, 64, 128, 128, 128, 128, 128, 128] : Fin 9 → Nat) j

def base (j : Fin 9) : Nat := (![0, 384, 704, 128, 448, 768, 256, 576, 896] : Fin 9 → Nat) j

def rot (j : Fin 9) : Nat := (![0, 1, 2, 0, 1, 2, 0, 1, 2] : Fin 9 → Nat) j

def dim (j : Fin 9) (s : Fin 3) : Fin 3 := ⟨(rot j + s.val) % 3, Nat.mod_lt _ (by decide)⟩

def commOff (j : Fin 9) (s : Fin 3) : Nat :=
  (![![0, 64, 96], ![112, 144, 160], ![168, 200, 216], ![224, 288, 320], ![336, 400, 432], ![448, 512, 544],
     ![560, 624, 656], ![672, 736, 768], ![784, 848, 880]] : Fin 9 → Fin 3 → Nat) j s

def half (j : Fin 9) (s : Fin 3) : Nat := rows j >>> (s.val + 1)

-- First row of chunk `j` that `c` still holds after `l` halvings: the upper half where its coordinate is 1.
def keptOff (j : Fin 9) : Nat → Fin 8 → Nat
  | 0, _ => base j
  | l + 1, c => keptOff j l c + bit ⟨(rot j + l) % 3, Nat.mod_lt _ (by decide)⟩ c * (rows j >>> (l + 1))

-- First row of the half `c` gives away at halving `s`: the half its coordinate does not select.
def sentOff (j : Fin 9) (s : Fin 3) (c : Fin 8) : Nat :=
  keptOff j s.val c + (1 - bit (dim j s) c) * half j s

-- Partners differ in exactly the halving's coordinate, so what one gives away the other keeps.
theorem sentOff_eq_keptOff_par (j : Fin 9) (s : Fin 3) (c : Fin 8) :
    sentOff j s c = keptOff j (s.val + 1) (par (dim j s) c) := by revert j s c; decide

theorem keptOff_succ (j : Fin 9) (s : Fin 3) (c : Fin 8) :
    keptOff j (s.val + 1) c = keptOff j s.val c + bit (dim j s) c * half j s := by revert j s c; decide

theorem kept_in (j : Fin 9) (l : Fin 4) (c : Fin 8) :
    base j ≤ keptOff j l.val c ∧ keptOff j l.val c + (rows j >>> l.val) ≤ base j + rows j := by revert j l c; decide

theorem chunk_in (j : Fin 9) : base j + rows j ≤ 1024 := by revert j; decide

end Cert.Butterfly
-- ==== Proof.Spec.lean ====
import Idealize.ShloMosaic.PureOps
import proofs.«900883_g7700000000000884_dist_matmul_k_i_m1024_n1024_k512_v7x_i8_f32_1_alg».proof.Proof.Mesh

noncomputable section

namespace Cert.Butterfly

open Idealize.ShloMosaic

variable {F : FTy → Type} [FloatOps F]

abbrev SO : Shape := ⟨2, ![1024, 1024]⟩

abbrev Mat (F : FTy → Type) : Type := FVec F SO .f32

-- Partial sum on device `c` after `l` halvings: its own plus its partner's, in the order the kernel adds them.
def acc (ρ : Nat) (P : Fin 8 → Mat F) : Nat → Fin 8 → Mat F
  | 0, c => P c
  | l + 1, c => addf (acc ρ P l c) (acc ρ P l (par ⟨(ρ + l) % 3, Nat.mod_lt _ (by decide)⟩ c))

theorem acc_step (j : Fin 9) (s : Fin 3) (P : Fin 8 → Mat F) (c : Fin 8) :
    acc (rot j) P (s.val + 1) c = addf (acc (rot j) P s.val c) (acc (rot j) P s.val (par (dim j s) c)) := rfl

def chunkOf (r : Nat) : Fin 9 :=
  (![0, 0, 3, 3, 6, 6, 1, 4, 4, 7, 7, 2, 5, 5, 8, 8] : Fin 16 → Fin 9) ⟨(r / 64) % 16, Nat.mod_lt _ (by decide)⟩

def devOfBits (b : Fin 3 → Nat) : Fin 8 :=
  ⟨4 * (b 2 % 2) + 2 * (b 1 % 2) + (b 0 + b 1) % 2, by omega⟩

def halfBit (j : Fin 9) (s : Fin 3) (r : Nat) : Nat := ((r - base j) / half j s) % 2

def stepOf (j : Fin 9) (d : Fin 3) : Fin 3 := ⟨(d.val + 3 - rot j) % 3, Nat.mod_lt _ (by decide)⟩

theorem dim_stepOf (j : Fin 9) (d : Fin 3) : dim j (stepOf j d) = d := by revert j d; decide
theorem stepOf_dim (j : Fin 9) (s : Fin 3) : stepOf j (dim j s) = s := by revert j s; decide

-- The device whose coordinates select, halving by halving, the half that row `r` lies in.
def owner (j : Fin 9) (r : Nat) : Fin 8 := devOfBits fun d => halfBit j (stepOf j d) r

-- The gathered result: each row read from the third partial sum of the device that owns it.
def fin (P : Fin 8 → Mat F) : Mat F := fun i => acc (rot (chunkOf (i 0).val)) P 3 (owner (chunkOf (i 0).val) (i 0).val) i

theorem owner_kept (j : Fin 9) (c : Fin 8) (x : Nat) (hx : x < rows j >>> 3) : owner j (keptOff j 3 c + x) = c := by
  have key : ∀ (j : Fin 9) (c : Fin 8) (x : Fin 16), x.val < rows j >>> 3 → owner j (keptOff j 3 c + x.val) = c := by decide
  have hx16 : x < 16 := lt_of_lt_of_le hx ((by decide : ∀ j : Fin 9, rows j >>> 3 ≤ 16) j)
  exact key j c ⟨x, hx16⟩ hx

theorem chunkOf_in (j : Fin 9) (x : Nat) (hx : x < rows j) : chunkOf (base j + x) = j := by
  have key : ∀ (j : Fin 9) (x : Fin 128), x.val < rows j → chunkOf (base j + x.val) = j := by decide
  have hx128 : x < 128 := lt_of_lt_of_le hx ((by decide : ∀ j : Fin 9, rows j ≤ 128) j)
  exact key j ⟨x, hx128⟩ hx

end Cert.Butterfly

end
-- ==== Proof.SchedIdeal.lean ====
import proofs.«900883_g7700000000000884_dist_matmul_k_i_m1024_n1024_k512_v7x_i8_f32_1_alg».proof.Proof.Gen.KernelIdeal
import proofs.«900883_g7700000000000884_dist_matmul_k_i_m1024_n1024_k512_v7x_i8_f32_1_alg».proof.Proof.Spec
import Idealize.ShloMosaic.Lib.Rounds
import Idealize.ShloMosaic.Lib.Pipeline.Launch
import Idealize.ShloMosaic.Lib.Pipeline.Kit

noncomputable section

namespace Cert.KernelIdeal.Bfly

open Cert.KernelIdeal Cert.KernelIdeal.Gen Cert.Butterfly
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev barS : Sem sig := (SemArray.scalar (sig.barrier 0 rfl) : Sems sig S_).sem
abbrev exitS : Sem sig := cc0_scoped0.sem

def xsem (a : Fin 4) (j : Fin 9) (s : Fin 3) : DmaSem sig := ⟨3 + 27 * a.val + 3 * j.val + s.val, by
  have := a.isLt; have := j.isLt; have := s.isLt; show _ < 111; omega⟩

abbrev barCell (c : Dev nD) : GSem nD τ sig := ((c : Thread nD τ), .reg barS)
abbrev exitCell (c : Dev nD) : GSem nD τ sig := ((c : Thread nD τ), .reg exitS)
abbrev xCell (a : Fin 4) (j : Fin 9) (s : Fin 3) (c : Dev nD) : GSem nD τ sig := ((c : Thread nD τ), .dma (xsem a j s))

def arrOf (q : DmaSem sig) : Fin 4 := ⟨((q.val - 3) / 27) % 4, Nat.mod_lt _ (by decide)⟩
def chunkIx (q : DmaSem sig) : Fin 9 := ⟨(((q.val - 3) % 27) / 3) % 9, Nat.mod_lt _ (by decide)⟩
def stepIx (q : DmaSem sig) : Fin 3 := ⟨(q.val - 3) % 3, Nat.mod_lt _ (by decide)⟩

theorem arrOf_xsem (a : Fin 4) (j : Fin 9) (s : Fin 3) : arrOf (xsem a j s) = a := by revert a j s; decide
theorem chunkIx_xsem (a : Fin 4) (j : Fin 9) (s : Fin 3) : chunkIx (xsem a j s) = j := by revert a j s; decide
theorem stepIx_xsem (a : Fin 4) (j : Fin 9) (s : Fin 3) : stepIx (xsem a j s) = s := by revert a j s; decide
theorem xsem_ge (a : Fin 4) (j : Fin 9) (s : Fin 3) : 3 ≤ (xsem a j s).val := by show 3 ≤ 3 + 27 * a.val + 3 * j.val + s.val; omega

theorem inb_js (j : Fin 9) (s : Fin 3) : ∀ x, (![j.val, s.val] : Fin 2 → Nat) x + S1x1.size x ≤ S9x3.size x := by revert j s; decide

-- Transfer semaphore `(j, s)` of scratch array `a + 1` is cell `xsem a j s`: the arrays lie one after another, row-major.
theorem sem_x0 (j : Fin 9) (s : Fin 3) (inb : ∀ x, (![j.val, s.val] : Fin 2 → Nat) x + S1x1.size x ≤ S9x3.size x) (hsq : S1x1.Squeezes S_) :
    ((cc0_scratch1.slice (Rect.unit (s := S9x3) ![j.val, s.val] S1x1.size inb)).squeeze S_ hsq).sem = xsem 0 j s :=
  (by decide : ∀ (j : Fin 9) (s : Fin 3), ((cc0_scratch1.slice (Rect.unit (s := S9x3) ![j.val, s.val] S1x1.size (inb_js j s))).squeeze S_ squeezes_S1x1_S_).sem = xsem 0 j s) j s
theorem sem_x1 (j : Fin 9) (s : Fin 3) (inb : ∀ x, (![j.val, s.val] : Fin 2 → Nat) x + S1x1.size x ≤ S9x3.size x) (hsq : S1x1.Squeezes S_) :
    ((cc0_scratch2.slice (Rect.unit (s := S9x3) ![j.val, s.val] S1x1.size inb)).squeeze S_ hsq).sem = xsem 1 j s :=
  (by decide : ∀ (j : Fin 9) (s : Fin 3), ((cc0_scratch2.slice (Rect.unit (s := S9x3) ![j.val, s.val] S1x1.size (inb_js j s))).squeeze S_ squeezes_S1x1_S_).sem = xsem 1 j s) j s
theorem sem_x2 (j : Fin 9) (s : Fin 3) (inb : ∀ x, (![j.val, s.val] : Fin 2 → Nat) x + S1x1.size x ≤ S9x3.size x) (hsq : S1x1.Squeezes S_) :
    ((cc0_scratch3.slice (Rect.unit (s := S9x3) ![j.val, s.val] S1x1.size inb)).squeeze S_ hsq).sem = xsem 2 j s :=
  (by decide : ∀ (j : Fin 9) (s : Fin 3), ((cc0_scratch3.slice (Rect.unit (s := S9x3) ![j.val, s.val] S1x1.size (inb_js j s))).squeeze S_ squeezes_S1x1_S_).sem = xsem 2 j s) j s
theorem sem_x3 (j : Fin 9) (s : Fin 3) (inb : ∀ x, (![j.val, s.val] : Fin 2 → Nat) x + S1x1.size x ≤ S9x3.size x) (hsq : S1x1.Squeezes S_) :
    ((cc0_scratch4.slice (Rect.unit (s := S9x3) ![j.val, s.val] S1x1.size inb)).squeeze S_ hsq).sem = xsem 3 j s :=
  (by decide : ∀ (j : Fin 9) (s : Fin 3), ((cc0_scratch4.slice (Rect.unit (s := S9x3) ![j.val, s.val] S1x1.size (inb_js j s))).squeeze S_ squeezes_S1x1_S_).sem = xsem 3 j s) j s

abbrev outLoc (c : Dev nD) : Loc nD τ sig := (c : Thread nD τ).loc cc0_stg2_0
abbrev commLoc (c : Dev nD) : Loc nD τ sig := (c : Thread nD τ).loc cc0_scratch0

def rowsO (c : Dev nD) (o h : Nat) : Finset (Idx (outLoc c)) := Finset.univ.filter fun i : S1024x1024.Idx => o ≤ (i 0).val ∧ (i 0).val < o + h
def rowsC (c : Dev nD) (o h : Nat) : Finset (Idx (commLoc c)) := Finset.univ.filter fun i : S896x1024.Idx => o ≤ (i 0).val ∧ (i 0).val < o + h

def crd (h : Nat) : ℕ := Idealize.ShloMosaic.RefSig.tileCredit ⟨2, ![h, 1024]⟩ .f32

theorem crd_pos {h : Nat} (hh : 0 < h) : 0 < crd h :=
  Idealize.ShloMosaic.RefSig.tileCredit_pos _ _ (by
    show 0 < ∏ a : Fin 2, (![h, 1024] : Fin 2 → Nat) a
    rw [Fin.prod_univ_two]; exact Nat.mul_pos hh (show 0 < 1024 by decide))

theorem half_pos (j : Fin 9) (s : Fin 3) : 0 < half j s := by revert j s; decide
theorem rows_shr_pos (j : Fin 9) (s : Fin 3) : 0 < rows j >>> (3 - s.val) := by revert j s; decide

variable (P : Dev nD → Mat F)

def landed (c : Dev nD) (j : Fin 9) (s : Fin 3) : Buf (Elt F) (commLoc c) := fun (i : S896x1024.Idx) =>
  acc (rot j) P s.val (par (dim j s) c)
    (fun a => match a with
      | ⟨0, _⟩ => ⟨(keptOff j (s.val + 1) c + ((i 0).val - commOff j s)) % 1024, Nat.mod_lt _ (by decide)⟩
      | ⟨1, _⟩ => ⟨(i 1).val, (i 1).isLt⟩)

def accO (c : Dev nD) (j : Fin 9) (l : Nat) : Buf (Elt F) (outLoc c) := acc (rot j) P l c

def finO (c : Dev nD) : Buf (Elt F) (outLoc c) := fin P

def barPay (c : Dev nD) (d : Fin 3) : sProp 𝕄 :=
  bigSep (Finset.univ : Finset (Fin 9)) fun j =>
    iprop(∃ f : Buf (Elt F) (commLoc (par d c)), (commLoc (par d c) ↦[rowsC (par d c) (commOff j (stepOf j d)) (half j (stepOf j d))]{fullShare} f))

def rsRecvPay (c : Dev nD) (j : Fin 9) (s : Fin 3) : sProp 𝕄 :=
  iprop((commLoc c ↦[rowsC c (commOff j s) (half j s)]{fullShare} landed P c j s)
    ∗ (outLoc (par (dim j s) c) ↦[rowsO (par (dim j s) c) (keptOff j (s.val + 1) c) (half j s)]{fullShare} accO P (par (dim j s) c) j s.val))

def agShare (t : Fin 3) : PosShare TreeShare :=
  match t with
  | ⟨0, _⟩ => fullShare.left
  | ⟨1, _⟩ => fullShare.right.left
  | ⟨2, _⟩ => fullShare.right.right.left

def agSendPay (c : Dev nD) (j : Fin 9) (t : Fin 3) : sProp 𝕄 :=
  outLoc c ↦[rowsO c (keptOff j (3 - t.val) c) (rows j >>> (3 - t.val))]{agShare t} finO P c

def agRecvPay (c : Dev nD) (j : Fin 9) (t : Fin 3) : sProp 𝕄 :=
  outLoc c ↦[rowsO c (sentOff j ⟨2 - t.val, by omega⟩ c) (rows j >>> (3 - t.val))]{fullShare} finO P c

-- One round per cell: three unit duties on each barrier cell (one per partner), one duty on each transfer cell.
def Rd : Rounds.Schedule (GSem nD τ sig) (Fin 3) 𝕄 where
  duties g r :=
    if r = 0 ∧ g.1.2 = .tc then
      match g.2 with
      | .reg x => if x = barS ∨ x = exitS then Finset.univ else ∅
      | .dma q => if 3 ≤ q.val then {0} else ∅
    else ∅
  unitless _ := False
  amount g _ _ :=
    match g.2 with
    | .reg _ => 1
    | .dma q => if arrOf q = 0 ∨ arrOf q = 1 then crd (half (chunkIx q) (stepIx q)) else crd (rows (chunkIx q) >>> (3 - (stepIx q).val))
  payload g _ d :=
    match g.2 with
    | .reg x => if x = barS then barPay g.1.1 d else iprop(emp)
    | .dma q =>
        if arrOf q = 1 then rsRecvPay P g.1.1 (chunkIx q) (stepIx q)
        else if arrOf q = 2 then agSendPay P g.1.1 (chunkIx q) (stepIx q)
        else if arrOf q = 3 then agRecvPay P g.1.1 (chunkIx q) (stepIx q)
        else iprop(emp)
  amount_pos g r d hd := by
    obtain ⟨thr, sm⟩ := g
    cases sm with
    | reg x => exact Nat.one_pos
    | dma q =>
        dsimp only
        split
        · exact crd_pos (half_pos _ _)
        · exact crd_pos (rows_shr_pos _ _)

end Cert.KernelIdeal.Bfly

end
-- ==== Proof.RegionsIdeal.lean ====
import proofs.«900883_g7700000000000884_dist_matmul_k_i_m1024_n1024_k512_v7x_i8_f32_1_alg».proof.Proof.SchedIdeal
import Idealize.ShloMosaic.Lib.Pipeline.Value

noncomputable section

namespace Cert.KernelIdeal.Bfly

open Cert.KernelIdeal Cert.KernelIdeal.Gen Cert.Butterfly
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev Sh (h : Nat) : Shape := ⟨2, ![h, 1024]⟩
abbrev outM : Memref sig .tc .vmem S1024x1024 .f32 := Memref.whole cc0_stg2_0
abbrev commM : Memref sig .tc .vmem S896x1024 .f32 := Memref.whole cc0_scratch0

abbrev outSl (off : Fin 2 → Nat) (h : Nat) (inb : ∀ a, off a + (Sh h).size a ≤ S1024x1024.size a) : Memref sig .tc .vmem (Sh h) .f32 :=
  outM.slice (Rect.unit (s := S1024x1024) off (Sh h).size inb) (fun _ => rfl)

abbrev commSl (off : Fin 2 → Nat) (h : Nat) (inb : ∀ a, off a + (Sh h).size a ≤ S896x1024.size a) : Memref sig .tc .vmem (Sh h) .f32 :=
  commM.slice (Rect.unit (s := S896x1024) off (Sh h).size inb) (fun _ => rfl)

theorem set_outSl (c : Dev nD) (off : Fin 2 → Nat) (o h : Nat) (hoff : off = ![o, 0]) (inb : ∀ a, off a + (Sh h).size a ≤ S1024x1024.size a) :
    (outSl off h inb).view.set = rowsO c o h := by
  subst hoff
  ext i
  simp only [rowsO, Finset.mem_filter, Finset.mem_univ, true_and]
  show i ∈ (View.slice (View.whole cc0_stg2_0) _).set ↔ _
  rw [View.set_slice_whole, Rect.mem_set_unit]
  constructor
  · intro hi
    exact hi 0
  · intro hi a
    match a with
    | ⟨0, _⟩ => exact hi
    | ⟨1, _⟩ =>
      have h1 : (i 1).val < 1024 := (i 1).isLt
      show 0 ≤ (i 1).val ∧ (i 1).val < 0 + 1024
      omega

theorem set_commSl (c : Dev nD) (off : Fin 2 → Nat) (o h : Nat) (hoff : off = ![o, 0]) (inb : ∀ a, off a + (Sh h).size a ≤ S896x1024.size a) :
    (commSl off h inb).view.set = rowsC c o h := by
  subst hoff
  ext i
  simp only [rowsC, Finset.mem_filter, Finset.mem_univ, true_and]
  show i ∈ (View.slice (View.whole cc0_scratch0) _).set ↔ _
  rw [View.set_slice_whole, Rect.mem_set_unit]
  constructor
  · intro hi
    exact hi 0
  · intro hi a
    match a with
    | ⟨0, _⟩ => exact hi
    | ⟨1, _⟩ =>
      have h1 : (i 1).val < 1024 := (i 1).isLt
      show 0 ≤ (i 1).val ∧ (i 1).val < 0 + 1024
      omega

theorem rowsO_disjoint (c : Dev nD) (o h₁ o' h₂ : Nat) (h : o + h₁ ≤ o') : Disjoint (rowsO c o h₁) (rowsO c o' h₂) := by
  rw [Finset.disjoint_left]
  intro i hi hi'
  simp only [rowsO, Finset.mem_filter, Finset.mem_univ, true_and] at hi hi'
  omega
theorem rowsC_disjoint (c : Dev nD) (o h₁ o' h₂ : Nat) (h : o + h₁ ≤ o') : Disjoint (rowsC c o h₁) (rowsC c o' h₂) := by
  rw [Finset.disjoint_left]
  intro i hi hi'
  simp only [rowsC, Finset.mem_filter, Finset.mem_univ, true_and] at hi hi'
  omega

theorem rows_shr_eq_two_half (j : Fin 9) (s : Fin 3) : rows j >>> s.val = half j s + half j s := by
  revert j s; decide

theorem kept_sent_offsets (c : Dev nD) (j : Fin 9) (s : Fin 3) :
    (keptOff j (s.val + 1) c = keptOff j s.val c ∧ sentOff j s c = keptOff j s.val c + half j s) ∨
    (keptOff j (s.val + 1) c = keptOff j s.val c + half j s ∧ sentOff j s c = keptOff j s.val c) := by
  have h1 := keptOff_succ j s c
  have h2 : sentOff j s c = keptOff j s.val c + (1 - bit (dim j s) c) * half j s := rfl
  rcases Nat.le_one_iff_eq_zero_or_eq_one.mp (bit_le (dim j s) c) with hb | hb
  · left
    rw [hb] at h1 h2
    simp only [Nat.zero_mul, Nat.add_zero, Nat.sub_zero, Nat.one_mul] at h1 h2
    exact ⟨h1, h2⟩
  · right
    rw [hb] at h1 h2
    simp only [Nat.one_mul, Nat.sub_self, Nat.zero_mul, Nat.add_zero] at h1 h2
    exact ⟨h1, h2⟩

theorem kept_eq_union (c : Dev nD) (j : Fin 9) (s : Fin 3) :
    rowsO c (keptOff j s.val c) (rows j >>> s.val) = rowsO c (keptOff j (s.val + 1) c) (half j s) ∪ rowsO c (sentOff j s c) (half j s) := by
  have hr := rows_shr_eq_two_half j s
  ext i
  simp only [rowsO, Finset.mem_union, Finset.mem_filter, Finset.mem_univ, true_and]
  rcases kept_sent_offsets c j s with ⟨hk, hs⟩ | ⟨hk, hs⟩ <;> rw [hk, hs, hr] <;> omega
theorem kept_sent_disjoint (c : Dev nD) (j : Fin 9) (s : Fin 3) :
    Disjoint (rowsO c (keptOff j (s.val + 1) c) (half j s)) (rowsO c (sentOff j s c) (half j s)) := by
  rcases kept_sent_offsets c j s with ⟨hk, hs⟩ | ⟨hk, hs⟩
  · exact rowsO_disjoint c _ _ _ _ (by omega)
  · exact (rowsO_disjoint c _ _ _ _ (by omega)).symm

theorem pointsTo_union (ℓ : Loc nD τ sig) (A B : Finset (Idx ℓ)) (hAB : Disjoint A B) (q : PosShare TreeShare) (f : Buf (Elt F) ℓ) :
    ((ℓ ↦[A ∪ B]{q} f : sProp 𝕄)) ⊣⊢ iprop((ℓ ↦[A]{q} f) ∗ (ℓ ↦[B]{q} f)) := by
  exact BI.Region.is_union hAB

theorem pointsTo_halves (ℓ : Loc nD τ sig) (A : Finset (Idx ℓ)) (q : PosShare TreeShare) (f : Buf (Elt F) ℓ) :
    ((ℓ ↦[A]{q} f : sProp 𝕄)) ⊣⊢ iprop((ℓ ↦[A]{q.left} f) ∗ (ℓ ↦[A]{q.right} f)) := by
  exact BI.Region.is_share (PosShare.mem_left_op_right q)

theorem pointsTo_congr (ℓ : Loc nD τ sig) (A : Finset (Idx ℓ)) (q : PosShare TreeShare) (f g : Buf (Elt F) ℓ) (h : ∀ i ∈ A, f i = g i) :
    ((ℓ ↦[A]{q} f : sProp 𝕄)) = (ℓ ↦[A]{q} g) := by
  exact BI.Region.is_congr h

theorem block64_in_chunk : ∀ q : Fin 16, ∃ j : Fin 9, base j ≤ 64 * q.val ∧ 64 * q.val + 64 ≤ base j + rows j := by
  decide

theorem chunks_separated : ∀ j j' : Fin 9, j ≠ j' → base j + rows j ≤ base j' ∨ base j' + rows j' ≤ base j := by
  decide

theorem block8_in_slab : ∀ q : Fin 112, ∃ j : Fin 9, ∃ s : Fin 3,
    commOff j s ≤ 8 * q.val ∧ 8 * q.val + 8 ≤ commOff j s + half j s := by
  decide

theorem slabs_separated : ∀ (j : Fin 9) (s : Fin 3) (j' : Fin 9) (s' : Fin 3), (j, s) ≠ (j', s') →
    commOff j s + half j s ≤ commOff j' s' ∨ commOff j' s' + half j' s' ≤ commOff j s := by
  decide

theorem out_univ_eq (c : Dev nD) : (Finset.univ : Finset (Idx (outLoc c))) = Finset.univ.biUnion fun j : Fin 9 => rowsO c (base j) (rows j) := by
  ext i
  simp only [rowsO, Finset.mem_biUnion, Finset.mem_filter, Finset.mem_univ, true_and, true_iff]
  have hi : ((i : S1024x1024.Idx) 0).val < 1024 := ((i : S1024x1024.Idx) 0).isLt
  obtain ⟨j, hlo, hhi⟩ := block64_in_chunk ⟨((i : S1024x1024.Idx) 0).val / 64, by omega⟩
  refine ⟨j, ?_, ?_⟩
  · have : base j ≤ 64 * (((i : S1024x1024.Idx) 0).val / 64) := hlo
    omega
  · have : 64 * (((i : S1024x1024.Idx) 0).val / 64) + 64 ≤ base j + rows j := hhi
    omega
theorem chunks_disjoint (c : Dev nD) (j j' : Fin 9) (h : j ≠ j') : Disjoint (rowsO c (base j) (rows j)) (rowsO c (base j') (rows j')) := by
  rcases chunks_separated j j' h with hlt | hgt
  · exact rowsO_disjoint c _ _ _ _ hlt
  · exact (rowsO_disjoint c _ _ _ _ hgt).symm
theorem comm_univ_eq (c : Dev nD) : (Finset.univ : Finset (Idx (commLoc c))) = Finset.univ.biUnion fun js : Fin 9 × Fin 3 => rowsC c (commOff js.1 js.2) (half js.1 js.2) := by
  ext i
  simp only [rowsC, Finset.mem_biUnion, Finset.mem_filter, Finset.mem_univ, true_and, true_iff]
  have hi : ((i : S896x1024.Idx) 0).val < 896 := ((i : S896x1024.Idx) 0).isLt
  obtain ⟨j, s, hlo, hhi⟩ := block8_in_slab ⟨((i : S896x1024.Idx) 0).val / 8, by omega⟩
  refine ⟨(j, s), ?_, ?_⟩
  · have : commOff j s ≤ 8 * (((i : S896x1024.Idx) 0).val / 8) := hlo
    show commOff j s ≤ _
    omega
  · have : 8 * (((i : S896x1024.Idx) 0).val / 8) + 8 ≤ commOff j s + half j s := hhi
    show _ < commOff j s + half j s
    omega
theorem slabs_disjoint (c : Dev nD) (js js' : Fin 9 × Fin 3) (h : js ≠ js') :
    Disjoint (rowsC c (commOff js.1 js.2) (half js.1 js.2)) (rowsC c (commOff js'.1 js'.2) (half js'.1 js'.2)) := by
  obtain ⟨j, s⟩ := js
  obtain ⟨j', s'⟩ := js'
  rcases slabs_separated j s j' s' h with hlt | hgt
  · exact rowsC_disjoint c _ _ _ _ hlt
  · exact (rowsC_disjoint c _ _ _ _ hgt).symm

end Cert.KernelIdeal.Bfly

end
-- ==== Proof.ChunkIdeal.lean ====
import proofs.«900883_g7700000000000884_dist_matmul_k_i_m1024_n1024_k512_v7x_i8_f32_1_alg».proof.Proof.RegionsIdeal

noncomputable section

namespace Cert.KernelIdeal.Bfly

open Cert.KernelIdeal Cert.KernelIdeal.Gen Cert.Butterfly
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def sh4 : Fin 4 → PosShare TreeShare
  | 0 => fullShare.left
  | 1 => fullShare.right.left
  | 2 => fullShare.right.right.left
  | 3 => fullShare.right.right.right

theorem agShare_eq (t : Fin 3) : agShare t = sh4 ⟨t.val, by omega⟩ := by
  match t with
  | ⟨0, _⟩ => rfl
  | ⟨1, _⟩ => rfl
  | ⟨2, _⟩ => rfl

section Chunk

variable (P : Dev nD → Mat F) (c : Dev nD) (j : Fin 9)

abbrev pS (s : Fin 3) : Dev nD := par (dim j s) c
abbrev rev (t : Fin 3) : Fin 3 := ⟨2 - t.val, by omega⟩
abbrev pT (t : Fin 3) : Dev nD := par (dim j (rev t)) c

abbrev Kreg (l : Nat) : Finset (Idx (outLoc c)) := rowsO c (keptOff j l c) (rows j >>> l)
abbrev Treg (s : Fin 3) : Finset (Idx (outLoc c)) := rowsO c (sentOff j s c) (half j s)
abbrev Creg (s : Fin 3) : Finset (Idx (commLoc c)) := rowsC c (commOff j s) (half j s)
abbrev PCreg (s : Fin 3) : Finset (Idx (commLoc (pS c j s))) := rowsC (pS c j s) (commOff j s) (half j s)
abbrev PTreg (s : Fin 3) : Finset (Idx (outLoc (pS c j s))) := rowsO (pS c j s) (keptOff j (s.val + 1) c) (half j s)

def qt (R : Finset (Idx (outLoc c))) (k : Fin 4) : sProp 𝕄 := outLoc c ↦[R]{sh4 k} finO P c

def tokRS (s : Fin 3) : sProp 𝕄 := iprop(dutyTok ER (xCell 0 j s c) 0 0 ∗ dutyTok ER (xCell 1 j s (pS c j s)) 0 0)
def tokAG (t : Fin 3) : sProp 𝕄 := iprop(dutyTok ER (xCell 2 j t c) 0 0 ∗ dutyTok ER (xCell 3 j t (pT c j t)) 0 0)
def posOf (a : Fin 4) (s : Fin 3) : sProp 𝕄 := atPos ER (xCell a j s c) 0 ∅ 0
def zeroOf (a : Fin 4) (s : Fin 3) : sProp 𝕄 := semVal (xCell a j s c) 0

def amt (a : Fin 4) (s : Fin 3) : ℕ := if a = 0 ∨ a = 1 then crd (half j s) else crd (rows j >>> (3 - s.val))
def credOf (a : Fin 4) (s : Fin 3) : sProp 𝕄 := cred (tallyAt (xCell a j s c) () (amt j a s))

def rsPending (s : Fin 3) : sProp 𝕄 :=
  iprop(tokRS c j s ∗ posOf c j 0 s ∗ posOf c j 1 s ∗ credOf c j 1 s ∗ ∃ f : Buf (Elt F) (commLoc (pS c j s)), (commLoc (pS c j s) ↦[PCreg c j s]{fullShare} f))

def rsSent (s : Fin 3) : sProp 𝕄 := iprop(posOf c j 0 s ∗ posOf c j 1 s ∗ credOf c j 1 s ∗ credOf c j 0 s)

def rsLanded (s : Fin 3) (withRows : Bool) : sProp 𝕄 :=
  iprop(zeroOf c j 1 s ∗ (∃ f : Buf (Elt F) (commLoc c), (commLoc c ↦[Creg c j s]{fullShare} f))
    ∗ (if withRows then (outLoc (pS c j s) ↦[PTreg c j s]{fullShare} accO P (pS c j s) j s.val) else iprop(emp)))

def sendSt (a : Fin 4) (s : Fin 3) (closed : Bool) : sProp 𝕄 :=
  if closed then zeroOf c j a s else iprop(posOf c j a s ∗ credOf c j a s)
def agPending (t : Fin 3) : sProp 𝕄 := iprop(tokAG c j t ∗ posOf c j 2 t ∗ posOf c j 3 t ∗ credOf c j 3 t)
def agSent (t : Fin 3) : sProp 𝕄 := iprop(posOf c j 3 t ∗ credOf c j 3 t)
def agLanded (t : Fin 3) : sProp 𝕄 := zeroOf c j 3 t

-- What a device holds of one chunk after `φ` steps; chunks do not interact, so the body's state is nine of these.
def chunkSt (φ : Nat) : sProp 𝕄 :=
  match φ with
  | 0 => iprop((∃ f : Buf (Elt F) (outLoc c), (outLoc c ↦[Kreg c j 0]{fullShare} f))
      ∗ rsPending c j 0 ∗ rsPending c j 1 ∗ rsPending c j 2 ∗ agPending c j 0 ∗ agPending c j 1 ∗ agPending c j 2)
  | 1 => iprop((outLoc c ↦[Kreg c j 0]{fullShare} accO P c j 0)
      ∗ rsPending c j 0 ∗ rsPending c j 1 ∗ rsPending c j 2 ∗ agPending c j 0 ∗ agPending c j 1 ∗ agPending c j 2)
  | 2 => iprop((outLoc c ↦[Kreg c j 1]{fullShare} accO P c j 0)
      ∗ rsSent c j 0 ∗ rsPending c j 1 ∗ rsPending c j 2 ∗ agPending c j 0 ∗ agPending c j 1 ∗ agPending c j 2)
  | 3 => iprop((outLoc c ↦[Kreg c j 2]{fullShare} accO P c j 1)
      ∗ (rsLanded P c j 0 true ∗ sendSt c j 0 0 false) ∗ rsSent c j 1 ∗ rsPending c j 2 ∗ agPending c j 0 ∗ agPending c j 1 ∗ agPending c j 2)
  | 4 => iprop((outLoc c ↦[Kreg c j 3]{fullShare} accO P c j 2)
      ∗ (rsLanded P c j 0 true ∗ sendSt c j 0 0 false) ∗ (rsLanded P c j 1 true ∗ sendSt c j 0 1 false) ∗ rsSent c j 2
      ∗ agPending c j 0 ∗ agPending c j 1 ∗ agPending c j 2)
  | 5 => iprop((qt P c (Kreg c j 3) 1 ∗ qt P c (Kreg c j 3) 2 ∗ qt P c (Kreg c j 3) 3)
      ∗ (rsLanded P c j 0 true ∗ sendSt c j 0 0 false) ∗ (rsLanded P c j 1 true ∗ sendSt c j 0 1 false) ∗ (rsLanded P c j 2 false ∗ sendSt c j 0 2 false)
      ∗ (agSent c j 0 ∗ sendSt c j 2 0 false) ∗ agPending c j 1 ∗ agPending c j 2)
  | 6 => iprop((qt P c (Kreg c j 3) 2 ∗ qt P c (Kreg c j 3) 3)
      ∗ (qt P c (Treg c j 2) 0 ∗ qt P c (Treg c j 2) 2 ∗ qt P c (Treg c j 2) 3)
      ∗ (rsLanded P c j 0 true ∗ sendSt c j 0 0 false) ∗ (rsLanded P c j 1 false ∗ sendSt c j 0 1 false) ∗ (rsLanded P c j 2 false ∗ sendSt c j 0 2 false)
      ∗ (agLanded c j 0 ∗ sendSt c j 2 0 false) ∗ (agSent c j 1 ∗ sendSt c j 2 1 false) ∗ agPending c j 2)
  | 7 => iprop(qt P c (Kreg c j 3) 3
      ∗ (qt P c (Treg c j 2) 0 ∗ qt P c (Treg c j 2) 3)
      ∗ (qt P c (Treg c j 1) 0 ∗ qt P c (Treg c j 1) 1 ∗ qt P c (Treg c j 1) 3)
      ∗ (rsLanded P c j 0 false ∗ sendSt c j 0 0 false) ∗ (rsLanded P c j 1 false ∗ sendSt c j 0 1 false) ∗ (rsLanded P c j 2 false ∗ sendSt c j 0 2 false)
      ∗ (agLanded c j 0 ∗ sendSt c j 2 0 false) ∗ (agLanded c j 1 ∗ sendSt c j 2 1 false) ∗ (agSent c j 2 ∗ sendSt c j 2 2 false))
  | n + 8 => iprop(qt P c (Kreg c j 3) 3
      ∗ (qt P c (Treg c j 2) 0 ∗ qt P c (Treg c j 2) 3)
      ∗ (qt P c (Treg c j 1) 0 ∗ qt P c (Treg c j 1) 1 ∗ qt P c (Treg c j 1) 3)
      ∗ (outLoc c ↦[Treg c j 0]{fullShare} finO P c)
      ∗ (rsLanded P c j 0 false ∗ sendSt c j 0 0 (decide (0 < n))) ∗ (rsLanded P c j 1 false ∗ sendSt c j 0 1 (decide (1 < n))) ∗ (rsLanded P c j 2 false ∗ sendSt c j 0 2 (decide (2 < n)))
      ∗ (agLanded c j 0 ∗ sendSt c j 2 0 (decide (3 < n)) ∗ (if 3 < n then qt P c (Kreg c j 3) 0 else iprop(emp)))
      ∗ (agLanded c j 1 ∗ sendSt c j 2 1 (decide (4 < n)) ∗ (if 4 < n then qt P c (Kreg c j 2) 1 else iprop(emp)))
      ∗ (agLanded c j 2 ∗ sendSt c j 2 2 (decide (5 < n)) ∗ (if 5 < n then qt P c (Kreg c j 1) 2 else iprop(emp))))

end Chunk

end Cert.KernelIdeal.Bfly

end
-- ==== Proof.DataIdeal.lean ====
import proofs.«900883_g7700000000000884_dist_matmul_k_i_m1024_n1024_k512_v7x_i8_f32_1_alg».proof.Proof.ChunkIdeal

noncomputable section

namespace Cert.KernelIdeal.Bfly

open Cert.KernelIdeal Cert.KernelIdeal.Gen Cert.Butterfly
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

def aS (c : Dev nD) : (cc0_stg0_0 : Ref sig .tc).ty.Contents (Elt F) :=
  (win0_0.blk (0 : Fin 1)).view.read (Elt F) (m ((c : Thread nD τ).loc main_arg0))
def bS (c : Dev nD) : (cc0_stg1_0 : Ref sig .tc).ty.Contents (Elt F) :=
  (win0_1.blk (0 : Fin 1)).view.read (Elt F) (m ((c : Thread nD τ).loc main_arg1))

def mm128 (x : Vec F S128x512 .f32) (y : Vec F S512x1024 .f32) : FVec F S128x1024 .f32 :=
  matmul dot_S128x512_S512x1024_S128x1024_1_0_0_1_n_n none (shapeCast S128x512 x shapeCasts_S128x512_S128x512)
    (shapeCast S512x1024 y shapeCasts_S512x1024_S512x1024) (constant S128x1024 .f32 0x00000000#32)
def mm64 (x : Vec F S64x512 .f32) (y : Vec F S512x1024 .f32) : FVec F S64x1024 .f32 :=
  matmul dot_S64x512_S512x1024_S64x1024_1_0_0_1_n_n none (shapeCast S64x512 x shapeCasts_S64x512_S64x512)
    (shapeCast S512x1024 y shapeCasts_S512x1024_S512x1024) (constant S64x1024 .f32 0x00000000#32)

def slabA (h o : Nat) (f : (cc0_stg0_0 : Ref sig .tc).ty.Contents (Elt F)) : Vec F ⟨2, ![h, 512]⟩ .f32 := fun y =>
  f (fun a => match a with
    | ⟨0, _⟩ => ⟨(o + (y 0).val) % 1024, Nat.mod_lt _ (by decide)⟩
    | ⟨1, _⟩ => ⟨(y 1).val % 512, Nat.mod_lt _ (by decide)⟩)

-- Device `c`'s own product, chunk by chunk: the chunk's rows of its block of A times its block of B.
def part (c : Dev nD) : Mat F := fun i =>
  let j := chunkOf (i 0).val
  if rows j = 128 then
    mm128 (slabA 128 (base j) (aS m c)) (bS m c) (fun a => match a with
      | ⟨0, _⟩ => ⟨((i 0).val - base j) % 128, Nat.mod_lt _ (by decide)⟩
      | ⟨1, _⟩ => ⟨(i 1).val, (i 1).isLt⟩)
  else
    mm64 (slabA 64 (base j) (aS m c)) (bS m c) (fun a => match a with
      | ⟨0, _⟩ => ⟨((i 0).val - base j) % 64, Nat.mod_lt _ (by decide)⟩
      | ⟨1, _⟩ => ⟨(i 1).val, (i 1).isLt⟩)

abbrev CK : Type := Option (Option (Fin 4 × Fin 9 × Fin 3))
def csem : CK → SemLoc sig
  | none => .reg barS
  | some none => .reg exitS
  | some (some (a, j, s)) => .dma (xsem a j s)
abbrev kcell (ck : Dev nD × CK) : GSem nD τ sig := ((ck.1 : Thread nD τ), csem ck.2)

def records (K : Dev nD × CK → ℕ) : sProp 𝕄 :=
  iprop((bigSep Finset.univ fun ck : Dev nD × CK => cellInv ER (Rd (part m)) (K ck) (kcell ck))
    ∗ bigSep Finset.univ fun ck : Dev nD × CK => reached ER (kcell ck) 0)

instance records_persistent (K : Dev nD × CK → ℕ) : BI.Persistent (records m K) := by unfold records; infer_instance

-- Program order of the steps; a receive cell's level is the moment of its wait, later than every start still owed.
def tm (j : Fin 9) (g : Nat) : ℕ :=
  if g = 0 ∧ j.val < 6 then j.val else (g + j.val / 3) * 9 + (2 - j.val / 3) * 3 + j.val % 3

def sPos (σ : Fin 6) (j : Fin 9) : ℕ := 2 * tm j σ.val + 1
def wPos (σ : Fin 6) (j : Fin 9) : ℕ := 2 * tm j (σ.val + 1)

theorem sPos_lt_wPos (σ : Fin 6) (j : Fin 9) : sPos σ j < wPos σ j := by revert σ j; decide

def L (g : GSem nD τ sig) : Finset Unit := if g.1.2 = .tc then {()} else ∅

def lv (g : GSem nD τ sig) (_ : Unit) : ℕ :=
  match g.2 with
  | .reg x => if x = barS then 1 else if x = exitS then 1000 else 0
  | .dma q =>
      if 3 ≤ q.val ∧ arrOf q = 1 then 2 + wPos ⟨(stepIx q).val, by have := (stepIx q).isLt; omega⟩ (chunkIx q)
      else if 3 ≤ q.val ∧ arrOf q = 3 then 2 + wPos ⟨3 + (stepIx q).val, by have := (stepIx q).isLt; omega⟩ (chunkIx q)
      else 0

def payCell (c : Dev nD) (σ : Fin 6) (j : Fin 9) : GSem nD τ sig :=
  if h : σ.val < 3 then xCell 1 j ⟨σ.val, h⟩ (pS c j ⟨σ.val, h⟩)
  else xCell 3 j ⟨σ.val - 3, by have := σ.isLt; omega⟩ (pT c j ⟨σ.val - 3, by have := σ.isLt; omega⟩)
def payAmt (σ : Fin 6) (j : Fin 9) : ℕ :=
  if h : σ.val < 3 then crd (half j ⟨σ.val, h⟩) else crd (rows j >>> (3 - (σ.val - 3)))

def owedP (c : Dev nD) (p : ℕ) : CellTallies nD τ sig Unit :=
  ∑ σj ∈ (Finset.univ : Finset (Fin 6 × Fin 9)).filter (fun σj => p < sPos σj.1 σj.2), tallyAt (payCell c σj.1 σj.2) () (payAmt σj.1 σj.2)
def exitDebt (c : Dev nD) (d : Fin 3) : CellTallies nD τ sig Unit := tallyAt (exitCell (par d c)) () 1
def barDebt (c : Dev nD) (d : Fin 3) : CellTallies nD τ sig Unit := tallyAt (barCell (par d c)) () 1

def owedX (c : Dev nD) (p : ℕ) : CellTallies nD τ sig Unit := ((owedP c p + exitDebt c 2) + exitDebt c 1) + exitDebt c 0

def O₀ (c : Dev nD) : CellTallies nD τ sig Unit := ((owedX c 0 + barDebt c 2) + barDebt c 1) + barDebt c 0

end Cert.KernelIdeal.Bfly

end
-- ==== Proof.ValueMath.lean ====
import proofs.«900883_g7700000000000884_dist_matmul_k_i_m1024_n1024_k512_v7x_i8_f32_1_alg».proof.Proof.Spec
import Idealize.ShloMosaic.PureOps.Ideal
import Mathlib.Algebra.BigOperators.Fin
import Mathlib.Algebra.BigOperators.Group.Finset.Defs
import Mathlib.Data.Fintype.BigOperators
import Mathlib.Data.Fintype.Defs
import Mathlib.Logic.Equiv.Fin.Basic
import Mathlib.Tactic.Abel

noncomputable section

open scoped BigOperators

namespace Cert.Butterfly

open Idealize.ShloMosaic

def dm (ρ l : Nat) : Fin 3 := ⟨(ρ + l) % 3, Nat.mod_lt _ (by decide)⟩

def reach (ρ : Nat) (c : Fin 8) : Fin 8 → Fin 8 :=
  ![c, par (dm ρ 0) c, par (dm ρ 1) c, par (dm ρ 0) (par (dm ρ 1) c),
    par (dm ρ 2) c, par (dm ρ 0) (par (dm ρ 2) c), par (dm ρ 1) (par (dm ρ 2) c),
    par (dm ρ 0) (par (dm ρ 1) (par (dm ρ 2) c))]

-- Flipping every subset of the three coordinates reaches each device exactly once.
theorem reach_bijective (ρ : Fin 3) (c : Fin 8) : Function.Bijective (reach ρ.val c) := by
  revert ρ c; decide

theorem acc_three_unfold (ρ : Nat) (P : Fin 8 → Mat Ideal) (c : Fin 8) (i : SO.Idx) :
    acc ρ P 3 c i =
      ((P (reach ρ c 0) i + P (reach ρ c 1) i) + (P (reach ρ c 2) i + P (reach ρ c 3) i)) +
      ((P (reach ρ c 4) i + P (reach ρ c 5) i) + (P (reach ρ c 6) i + P (reach ρ c 7) i)) := rfl

-- Addition of extended reals is commutative and associative, so three halvings add up all eight products.
theorem acc_three_ideal (ρ : Nat) (hρ : ρ < 3) (P : Fin 8 → Mat Ideal) (c : Fin 8) (i : SO.Idx) :
    acc ρ P 3 c i = ∑ c' : Fin 8, P c' i := by
  rw [acc_three_unfold, ← (reach_bijective ⟨ρ, hρ⟩ c).sum_comp (fun c' => P c' i), Fin.sum_univ_eight]
  show (_ : EReal) = _
  abel

theorem rot_lt (j : Fin 9) : rot j < 3 := by revert j; decide

theorem fin_ideal (P : Fin 8 → Mat Ideal) (i : SO.Idx) : fin P i = ∑ c' : Fin 8, P c' i :=
  acc_three_ideal _ (rot_lt _) P _ i

-- A sum over 4096 = 8 * 512 indices taken block by block.
theorem sum_blocks (x : Fin 4096 → EReal) :
    (∑ c : Fin 8, ∑ k : Fin 512, x ⟨512 * c.val + k.val, by omega⟩) = ∑ k : Fin 4096, x k := by
  rw [← Equiv.sum_comp (finProdFinEquiv : Fin 8 × Fin 512 ≃ Fin 4096) x, Fintype.sum_prod_type]
  refine Finset.sum_congr rfl fun c _ => Finset.sum_congr rfl fun k _ => congrArg x (Fin.ext ?_)
  show 512 * c.val + k.val = k.val + 512 * c.val
  exact Nat.add_comm _ _

end Cert.Butterfly

end
-- ==== Proof.ValsIdeal.lean ====
import proofs.«900883_g7700000000000884_dist_matmul_k_i_m1024_n1024_k512_v7x_i8_f32_1_alg».proof.Proof.DataIdeal
import proofs.«900883_g7700000000000884_dist_matmul_k_i_m1024_n1024_k512_v7x_i8_f32_1_alg».proof.Proof.ValueMath
import proofs.«900883_g7700000000000884_dist_matmul_k_i_m1024_n1024_k512_v7x_i8_f32_1_alg».proof.Proof.RefSide
import proofs.«900883_g7700000000000884_dist_matmul_k_i_m1024_n1024_k512_v7x_i8_f32_1_alg».proof.Proof.Gen.ReferenceIdeal
import Idealize.ShloMosaic.Lib.Layout
import Idealize.ShloMosaic.PureOps.Ideal.Laws
import Idealize.ShloMosaic.Lib.Pipeline.Value
import Idealize.ShloMosaic.Lib.ValueIdx
import Mathlib.Algebra.BigOperators.Group.Finset.Defs
import Mathlib.Tactic.FinCases

noncomputable section

open scoped BigOperators

namespace Cert.KernelIdeal.Bfly

open Cert.KernelIdeal Cert.KernelIdeal.Gen Cert.Butterfly
open Idealize.ShloMosaic Idealize.ShloMosaic.TcCoe

open Idealize.ShloMosaic.ValueIdx

theorem lhs128_0 (i : S128x1024.Idx) (q : dot_S128x512_S512x1024_S128x1024_1_0_0_1_n_n.contr.Idx) : (dot_S128x512_S512x1024_S128x1024_1_0_0_1_n_n.lhsIdx i q 0).val = (i 0).val := by
  unfold DotDims.lhsIdx
  rw [dif_neg (show ¬(0 : Fin S128x512.rank) ∈ dot_S128x512_S512x1024_S128x1024_1_0_0_1_n_n.lhsBatch by decide),
    dif_pos (show (0 : Fin S128x512.rank) ∈ dot_S128x512_S512x1024_S128x1024_1_0_0_1_n_n.lhsNonContracting by decide)]
  rfl
theorem lhs128_1 (i : S128x1024.Idx) (q : dot_S128x512_S512x1024_S128x1024_1_0_0_1_n_n.contr.Idx) : (dot_S128x512_S512x1024_S128x1024_1_0_0_1_n_n.lhsIdx i q 1).val = (q ⟨0, by decide⟩).val :=
  dot_S128x512_S512x1024_S128x1024_1_0_0_1_n_n.lhsIdx_val_of_single rfl i q
theorem rhs128_0 (i : S128x1024.Idx) (q : dot_S128x512_S512x1024_S128x1024_1_0_0_1_n_n.contr.Idx) : (dot_S128x512_S512x1024_S128x1024_1_0_0_1_n_n.rhsIdx i q 0).val = (q ⟨0, by decide⟩).val :=
  dot_S128x512_S512x1024_S128x1024_1_0_0_1_n_n.rhsIdx_val_of_single rfl i q
theorem rhs128_1 (i : S128x1024.Idx) (q : dot_S128x512_S512x1024_S128x1024_1_0_0_1_n_n.contr.Idx) : (dot_S128x512_S512x1024_S128x1024_1_0_0_1_n_n.rhsIdx i q 1).val = (i 1).val := by
  unfold DotDims.rhsIdx
  rw [dif_neg (show ¬(1 : Fin S512x1024.rank) ∈ dot_S128x512_S512x1024_S128x1024_1_0_0_1_n_n.rhsBatch by decide),
    dif_pos (show (1 : Fin S512x1024.rank) ∈ dot_S128x512_S512x1024_S128x1024_1_0_0_1_n_n.rhsNonContracting by decide)]
  rfl

theorem lhs64_0 (i : S64x1024.Idx) (q : dot_S64x512_S512x1024_S64x1024_1_0_0_1_n_n.contr.Idx) : (dot_S64x512_S512x1024_S64x1024_1_0_0_1_n_n.lhsIdx i q 0).val = (i 0).val := by
  unfold DotDims.lhsIdx
  rw [dif_neg (show ¬(0 : Fin S64x512.rank) ∈ dot_S64x512_S512x1024_S64x1024_1_0_0_1_n_n.lhsBatch by decide),
    dif_pos (show (0 : Fin S64x512.rank) ∈ dot_S64x512_S512x1024_S64x1024_1_0_0_1_n_n.lhsNonContracting by decide)]
  rfl
theorem lhs64_1 (i : S64x1024.Idx) (q : dot_S64x512_S512x1024_S64x1024_1_0_0_1_n_n.contr.Idx) : (dot_S64x512_S512x1024_S64x1024_1_0_0_1_n_n.lhsIdx i q 1).val = (q ⟨0, by decide⟩).val :=
  dot_S64x512_S512x1024_S64x1024_1_0_0_1_n_n.lhsIdx_val_of_single rfl i q
theorem rhs64_0 (i : S64x1024.Idx) (q : dot_S64x512_S512x1024_S64x1024_1_0_0_1_n_n.contr.Idx) : (dot_S64x512_S512x1024_S64x1024_1_0_0_1_n_n.rhsIdx i q 0).val = (q ⟨0, by decide⟩).val :=
  dot_S64x512_S512x1024_S64x1024_1_0_0_1_n_n.rhsIdx_val_of_single rfl i q
theorem rhs64_1 (i : S64x1024.Idx) (q : dot_S64x512_S512x1024_S64x1024_1_0_0_1_n_n.contr.Idx) : (dot_S64x512_S512x1024_S64x1024_1_0_0_1_n_n.rhsIdx i q 1).val = (i 1).val := by
  unfold DotDims.rhsIdx
  rw [dif_neg (show ¬(1 : Fin S512x1024.rank) ∈ dot_S64x512_S512x1024_S64x1024_1_0_0_1_n_n.rhsBatch by decide),
    dif_pos (show (1 : Fin S512x1024.rank) ∈ dot_S64x512_S512x1024_S64x1024_1_0_0_1_n_n.rhsNonContracting by decide)]
  rfl

theorem mm128_apply (x : Vec Ideal S128x512 .f32) (y : Vec Ideal S512x1024 .f32) (r : Fin 128) (l : Fin 1024) :
    mm128 x y (ix2 r l) = ∑ k : Fin 512, x (ix2 r k) * y (ix2 k l) := by
  unfold mm128
  rw [shapeCast_self, shapeCast_self]
  show FloatOps.matmul (F := Ideal) (φ₁ := .f32) (φ₂ := .f32) dot_S128x512_S512x1024_S128x1024_1_0_0_1_n_n none x y (constant S128x1024 .f32 0x00000000#32) (ix2 r l) = _
  rw [Ideal.matmul_constant_zero_apply, ← Equiv.sum_comp (contrEquiv1 dot_S128x512_S512x1024_S128x1024_1_0_0_1_n_n 512 rfl rfl).symm]
  refine Finset.sum_congr rfl fun k _ => ?_
  have hk := contrEquiv1_symm_val dot_S128x512_S512x1024_S128x1024_1_0_0_1_n_n 512 rfl rfl k
  have el : dot_S128x512_S512x1024_S128x1024_1_0_0_1_n_n.lhsIdx (ix2 r l) ((contrEquiv1 dot_S128x512_S512x1024_S128x1024_1_0_0_1_n_n 512 rfl rfl).symm k) = ix2 r k :=
    funext fun a => Fin.ext (by
      match a with
      | ⟨0, _⟩ => exact lhs128_0 _ _
      | ⟨1, _⟩ => exact (lhs128_1 _ _).trans hk)
  have er : dot_S128x512_S512x1024_S128x1024_1_0_0_1_n_n.rhsIdx (ix2 r l) ((contrEquiv1 dot_S128x512_S512x1024_S128x1024_1_0_0_1_n_n 512 rfl rfl).symm k) = ix2 k l :=
    funext fun a => Fin.ext (by
      match a with
      | ⟨0, _⟩ => exact (rhs128_0 _ _).trans hk
      | ⟨1, _⟩ => exact rhs128_1 _ _)
  rw [el, er]

theorem mm64_apply (x : Vec Ideal S64x512 .f32) (y : Vec Ideal S512x1024 .f32) (r : Fin 64) (l : Fin 1024) :
    mm64 x y (ix2 r l) = ∑ k : Fin 512, x (ix2 r k) * y (ix2 k l) := by
  unfold mm64
  rw [shapeCast_self, shapeCast_self]
  show FloatOps.matmul (F := Ideal) (φ₁ := .f32) (φ₂ := .f32) dot_S64x512_S512x1024_S64x1024_1_0_0_1_n_n none x y (constant S64x1024 .f32 0x00000000#32) (ix2 r l) = _
  rw [Ideal.matmul_constant_zero_apply, ← Equiv.sum_comp (contrEquiv1 dot_S64x512_S512x1024_S64x1024_1_0_0_1_n_n 512 rfl rfl).symm]
  refine Finset.sum_congr rfl fun k _ => ?_
  have hk := contrEquiv1_symm_val dot_S64x512_S512x1024_S64x1024_1_0_0_1_n_n 512 rfl rfl k
  have el : dot_S64x512_S512x1024_S64x1024_1_0_0_1_n_n.lhsIdx (ix2 r l) ((contrEquiv1 dot_S64x512_S512x1024_S64x1024_1_0_0_1_n_n 512 rfl rfl).symm k) = ix2 r k :=
    funext fun a => Fin.ext (by
      match a with
      | ⟨0, _⟩ => exact lhs64_0 _ _
      | ⟨1, _⟩ => exact (lhs64_1 _ _).trans hk)
  have er : dot_S64x512_S512x1024_S64x1024_1_0_0_1_n_n.rhsIdx (ix2 r l) ((contrEquiv1 dot_S64x512_S512x1024_S64x1024_1_0_0_1_n_n 512 rfl rfl).symm k) = ix2 k l :=
    funext fun a => Fin.ext (by
      match a with
      | ⟨0, _⟩ => exact (rhs64_0 _ _).trans hk
      | ⟨1, _⟩ => exact rhs64_1 _ _)
  rw [el, er]

theorem mm128_at (x : Vec Ideal S128x512 .f32) (y : Vec Ideal S512x1024 .f32) (i : S128x1024.Idx) :
    mm128 x y i = ∑ k : Fin 512, x (ix2 (n0 := 128) (n1 := 512) ⟨(i 0).val, (i 0).isLt⟩ k)
      * y (ix2 (n0 := 512) (n1 := 1024) k ⟨(i 1).val, (i 1).isLt⟩) :=
  (congrArg (mm128 x y) (eq_ix2 i)).trans (mm128_apply x y (i 0) (i 1))

theorem mm64_at (x : Vec Ideal S64x512 .f32) (y : Vec Ideal S512x1024 .f32) (i : S64x1024.Idx) :
    mm64 x y i = ∑ k : Fin 512, x (ix2 (n0 := 64) (n1 := 512) ⟨(i 0).val, (i 0).isLt⟩ k)
      * y (ix2 (n0 := 512) (n1 := 1024) k ⟨(i 1).val, (i 1).isLt⟩) :=
  (congrArg (mm64 x y) (eq_ix2 i)).trans (mm64_apply x y (i 0) (i 1))

theorem rows_cases (j : Fin 9) : rows j = 128 ∨ rows j = 64 := by revert j; decide

theorem chunk_bounds (r : Nat) (hr : r < 1024) :
    base (chunkOf r) ≤ r ∧ r < base (chunkOf r) + rows (chunkOf r) := by
  have key : ∀ q : Fin 16, base (chunkOf (64 * q.val)) ≤ 64 * q.val ∧
      64 * q.val + 64 ≤ base (chunkOf (64 * q.val)) + rows (chunkOf (64 * q.val)) := by decide
  have hc : chunkOf r = chunkOf (64 * (r / 64)) := by
    unfold chunkOf
    exact congrArg _ (Fin.ext (show r / 64 % 16 = 64 * (r / 64) / 64 % 16 by
      rw [Nat.mul_div_cancel_left _ (by decide : 0 < 64)]))
  have h := key ⟨r / 64, by omega⟩
  dsimp only at h
  rw [hc]
  omega

abbrev aIx (i : SO.Idx) (k : Fin 512) : S1024x512.Idx := ix2 (n0 := 1024) (n1 := 512) ⟨(i 0).val, (i 0).isLt⟩ k
abbrev bIx (i : SO.Idx) (k : Fin 512) : S512x1024.Idx := ix2 (n0 := 512) (n1 := 1024) k ⟨(i 1).val, (i 1).isLt⟩

-- At the ideal instance a device's product is the 512-term sum over its block of columns of A and rows of B.
theorem part_ideal (m : (ℓ : Loc nD τ sig) → Buf (Elt Ideal) ℓ) (c : Dev nD) (i : SO.Idx) :
    part m c i = ∑ k : Fin 512, @HMul.hMul EReal EReal EReal instHMul (aS m c (aIx i k)) (bS m c (bIx i k)) := by
  have h0 : (i 0).val < 1024 := (i 0).isLt
  obtain ⟨hlo, hhi⟩ := chunk_bounds (i 0).val h0
  unfold part
  show (if rows (chunkOf (i 0).val) = 128 then _ else _) = _
  rcases rows_cases (chunkOf (i 0).val) with h | h
  · rw [if_pos h]
    refine (mm128_at _ _ _).trans (Finset.sum_congr rfl fun k _ => ?_)
    have e2 : ∀ p : (i 1).val < 1024,
        bS m c (ix2 (n0 := 512) (n1 := 1024) k ⟨(i 1).val, p⟩) = bS m c (bIx i k) := fun _ => rfl
    have e1 : ∀ p : ((i 0).val - base (chunkOf (i 0).val)) % 128 < 128,
        slabA 128 (base (chunkOf (i 0).val)) (aS m c)
          (ix2 (n0 := 128) (n1 := 512) ⟨((i 0).val - base (chunkOf (i 0).val)) % 128, p⟩ k) = aS m c (aIx i k) := by
      intro p
      show aS m c _ = _
      refine congrArg (aS m c) (funext fun a => ?_)
      match a with
      | ⟨0, _⟩ =>
        exact Fin.ext (show (base (chunkOf (i 0).val) + ((i 0).val - base (chunkOf (i 0).val)) % 128) % 1024
          = (i 0).val by omega)
      | ⟨1, _⟩ => exact Fin.ext (show k.val % 512 = k.val from Nat.mod_eq_of_lt k.isLt)
    exact congrArg₂ (fun a b : EReal => a * b) (e1 _) (e2 _)
  · rw [if_neg (by rw [h]; decide)]
    refine (mm64_at _ _ _).trans (Finset.sum_congr rfl fun k _ => ?_)
    have e2 : ∀ p : (i 1).val < 1024,
        bS m c (ix2 (n0 := 512) (n1 := 1024) k ⟨(i 1).val, p⟩) = bS m c (bIx i k) := fun _ => rfl
    have e1 : ∀ p : ((i 0).val - base (chunkOf (i 0).val)) % 64 < 64,
        slabA 64 (base (chunkOf (i 0).val)) (aS m c)
          (ix2 (n0 := 64) (n1 := 512) ⟨((i 0).val - base (chunkOf (i 0).val)) % 64, p⟩ k) = aS m c (aIx i k) := by
      intro p
      show aS m c _ = _
      refine congrArg (aS m c) (funext fun a => ?_)
      match a with
      | ⟨0, _⟩ =>
        exact Fin.ext (show (base (chunkOf (i 0).val) + ((i 0).val - base (chunkOf (i 0).val)) % 64) % 1024
          = (i 0).val by omega)
      | ⟨1, _⟩ => exact Fin.ext (show k.val % 512 = k.val from Nat.mod_eq_of_lt k.isLt)
    exact congrArg₂ (fun a b : EReal => a * b) (e1 _) (e2 _)

theorem aS_eq (m : (ℓ : Loc nD τ sig) → Buf (Elt Ideal) ℓ) (c : Dev nD) :
    aS m c = m ((c : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _

theorem bS_eq (m : (ℓ : Loc nD τ sig) → Buf (Elt Ideal) ℓ) (c : Dev nD) :
    bS m c = m ((c : Thread nD τ).loc main_arg1) := by
  have hz : (fun a => (win0_1.index (0 : Fin 1)) a * main_arg1.ty.shape.size a) = fun _ => 0 :=
    funext fun a => by fin_cases a <;> decide
  exact Memref.read_access_unit_zero (Elt Ideal) main_arg1 hz (fun a => by fin_cases a <;> decide) _

theorem fin_eq_reference (m : (ℓ : Loc nD τ sig) → Buf (Elt Ideal) ℓ)
    (m' : (ℓ : Loc Cert.ReferenceIdeal.nD Cert.ReferenceIdeal.τ Cert.ReferenceIdeal.sig) → Buf (Elt Ideal) ℓ)
    (hagree : ∀ c : Dev nD,
      m ((c.tc : Thread nD τ).loc main_arg0) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg0))
      ∧ m ((c.tc : Thread nD τ).loc main_arg1) = Layout.block ⟨2, ![512, 1024]⟩ ⟨2, ![4096, 1024]⟩ 0 8 c (m' (((0 : Dev Cert.ReferenceIdeal.nD).tc : Thread Cert.ReferenceIdeal.nD Cert.ReferenceIdeal.τ).loc Cert.ReferenceIdeal.main_arg1))) :
    (fin (F := Ideal) (part m) : SO.Idx → EReal) = Cert.ReferenceIdeal.Read.val_main_v0 (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) := by
  funext i
  have hR := Cert.ReferenceIdeal.Read.val_main_v0_apply (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) i
  refine (fin_ideal (part m) i).trans (Eq.trans ?_ hR.symm)
  refine Eq.trans ?_ (sum_blocks (fun k => @HMul.hMul EReal EReal EReal instHMul ((m' (((0 : Dev Cert.ReferenceIdeal.nD).tc : Thread Cert.ReferenceIdeal.nD Cert.ReferenceIdeal.τ).loc Cert.ReferenceIdeal.main_arg0)) (Cert.ReferenceIdeal.Read.lidx_main_v0 i k))
    ((m' (((0 : Dev Cert.ReferenceIdeal.nD).tc : Thread Cert.ReferenceIdeal.nD Cert.ReferenceIdeal.τ).loc Cert.ReferenceIdeal.main_arg1)) (Cert.ReferenceIdeal.Read.ridx_main_v0 i k))))
  refine Finset.sum_congr rfl fun c _ => ?_
  refine (part_ideal m c i).trans (Finset.sum_congr rfl fun k _ => ?_)
  have hck : 512 * c.val + k.val < 4096 := by omega
  have ha : (aS m c (aIx i k) : EReal) = (m' (((0 : Dev Cert.ReferenceIdeal.nD).tc : Thread Cert.ReferenceIdeal.nD Cert.ReferenceIdeal.τ).loc Cert.ReferenceIdeal.main_arg0)) (Cert.ReferenceIdeal.Read.lidx_main_v0 i ⟨512 * c.val + k.val, hck⟩) := by
    refine (congrFun (aS_eq m c) (aIx i k)).trans ((congrFun (hagree c).1 (aIx i k)).trans ?_)
    refine congrArg (m' (((0 : Dev Cert.ReferenceIdeal.nD).tc : Thread Cert.ReferenceIdeal.nD Cert.ReferenceIdeal.τ).loc Cert.ReferenceIdeal.main_arg0)) (funext fun a => ?_)
    match a with
    | ⟨0, _⟩ => exact Fin.ext rfl
    | ⟨1, _⟩ => exact Fin.ext (show c.val * 512 + k.val = 512 * c.val + k.val by omega)
  have hb : (bS m c (bIx i k) : EReal) = (m' (((0 : Dev Cert.ReferenceIdeal.nD).tc : Thread Cert.ReferenceIdeal.nD Cert.ReferenceIdeal.τ).loc Cert.ReferenceIdeal.main_arg1)) (Cert.ReferenceIdeal.Read.ridx_main_v0 i ⟨512 * c.val + k.val, hck⟩) := by
    refine (congrFun (bS_eq m c) (bIx i k)).trans ((congrFun (hagree c).2 (bIx i k)).trans ?_)
    refine congrArg (m' (((0 : Dev Cert.ReferenceIdeal.nD).tc : Thread Cert.ReferenceIdeal.nD Cert.ReferenceIdeal.τ).loc Cert.ReferenceIdeal.main_arg1)) (funext fun a => ?_)
    match a with
    | ⟨0, _⟩ => exact Fin.ext (show c.val * 512 + k.val = 512 * c.val + k.val by omega)
    | ⟨1, _⟩ => exact Fin.ext rfl
  exact congrArg₂ (fun a b : EReal => a * b) ha hb

end Cert.KernelIdeal.Bfly

end
-- ==== Proof.BodyDefsIdeal.lean ====
import proofs.«900883_g7700000000000884_dist_matmul_k_i_m1024_n1024_k512_v7x_i8_f32_1_alg».proof.Proof.DataIdeal

noncomputable section

namespace Cert.KernelIdeal.Bfly

open Cert.KernelIdeal Cert.KernelIdeal.Gen Cert.Butterfly
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg)

def rsGhost (c : Dev nD) (j : Fin 9) (s : Fin 3) : sProp 𝕄 :=
  iprop(tokRS c j s ∗ posOf c j 0 s ∗ posOf c j 1 s ∗ credOf c j 1 s)
def chunkGhost (c : Dev nD) (j : Fin 9) : sProp 𝕄 :=
  iprop((rsGhost c j 0 ∗ rsGhost c j 1 ∗ rsGhost c j 2) ∗ agPending c j 0 ∗ agPending c j 1 ∗ agPending c j 2)

def barGhost (b : Sem sig) (c : Dev nD) : sProp 𝕄 :=
  iprop(atPos ER (((c : Thread nD τ), .reg b) : GSem nD τ sig) 0 ∅ 0 ∗ cred (tallyAt (((c : Thread nD τ), .reg b) : GSem nD τ sig) () 3)
    ∗ dutyTok ER (((par 0 c : Dev nD) : Thread nD τ), .reg b) 0 0 ∗ dutyTok ER (((par 1 c : Dev nD) : Thread nD τ), .reg b) 0 1
    ∗ dutyTok ER (((par 2 c : Dev nD) : Thread nD τ), .reg b) 0 2)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def linear (c : Dev nD) : sProp 𝕄 :=
  iprop((bigSep (Finset.univ : Finset (Fin 9)) fun j => chunkGhost c j) ∗ barGhost barS c ∗ barGhost exitS c)

def bodyPre (K : Dev nD × CK → ℕ) (c : Dev nD) : sProp 𝕄 :=
  iprop(records m K ∗ levAts L lv ∗ linear c
    ∗ (∃ W, owes (c : Thread nD τ) (O₀ c) W)
    ∗ (∃ f : Buf (Elt F) (commLoc c), (commLoc c ↦{fullShare} f))
    ∗ stg c cc0_stg0_0 (aS m c) ∗ stg c cc0_stg1_0 (bS m c)
    ∗ (∃ f : Buf (Elt F) (outLoc c), (outLoc c ↦{fullShare} f)))

def ownZero (c : Dev nD) : sProp 𝕄 :=
  iprop((bigSep (Finset.univ : Finset (Fin 4 × Fin 9 × Fin 3)) fun ajs => semVal (xCell ajs.1 ajs.2.1 ajs.2.2 c) 0) ∗ semVal (exitCell c) 0)

def bodyPost (c : Dev nD) : sProp 𝕄 :=
  iprop((∃ f : Buf (Elt F) (commLoc c), (commLoc c ↦{fullShare} f)) ∗ ownZero c
    ∗ (∃ W, owes (c : Thread nD τ) 0 W)
    ∗ stg c cc0_stg0_0 (aS m c) ∗ stg c cc0_stg1_0 (bS m c) ∗ stg c cc0_stg2_0 (fin (part m)))

abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    cc0_scratch1 cc0_scratch2 cc0_scratch3 cc0_scratch4 cc0_scoped0

def SoundBody : Prop :=
  ∀ (K : Dev nD × CK → ℕ) (c : Dev nD) (Kt : PUnit → sProp 𝕄),
    iprop(bodyPre m K c ∗ (bodyPost m c -∗ Kt ⟨⟩))
      ⊢ wp frame (wpE (defs₀ (F := F)) 𝒱₀ c none) Set.univ (theBody (F := F)) Kt

end Cert.KernelIdeal.Bfly

end
-- ==== Proof.TablesIdeal.lean ====
import proofs.«900883_g7700000000000884_dist_matmul_k_i_m1024_n1024_k512_v7x_i8_f32_1_alg».proof.Proof.ChunkIdeal

noncomputable section

namespace Cert.KernelIdeal.Bfly

open Cert.KernelIdeal Cert.KernelIdeal.Gen Cert.Butterfly
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Mat F)

theorem barS_ne_exitS : (barS : Sem sig) ≠ exitS := by decide

theorem not_unitless (g : GSem nD τ sig) : ¬ (Rd P).unitless g := fun h => h

theorem duties_x (a : Fin 4) (j : Fin 9) (s : Fin 3) (c : Dev nD) : (Rd P).duties (xCell a j s c) 0 = {0} := by
  dsimp only [Rd]
  rw [if_pos ⟨rfl, rfl⟩, if_pos (xsem_ge a j s)]

theorem duties_bar (c : Dev nD) : (Rd P).duties (barCell c) 0 = Finset.univ := by
  dsimp only [Rd]
  rw [if_pos ⟨rfl, rfl⟩, if_pos (Or.inl rfl)]

theorem duties_exit (c : Dev nD) : (Rd P).duties (exitCell c) 0 = Finset.univ := by
  dsimp only [Rd]
  rw [if_pos ⟨rfl, rfl⟩, if_pos (Or.inr rfl)]

theorem duties_later (g : GSem nD τ sig) : ∀ r, 1 ≤ r → (Rd P).duties g r = ∅ := by
  intro r hr
  dsimp only [Rd]
  rw [if_neg]
  intro h
  have := h.1
  omega

theorem amount_x (a : Fin 4) (j : Fin 9) (s : Fin 3) (c : Dev nD) (r : ℕ) (d : Fin 3) : (Rd P).amount (xCell a j s c) r d = amt j a s := by
  dsimp only [Rd]
  rw [arrOf_xsem, chunkIx_xsem, stepIx_xsem]
  rfl

theorem amount_bar (c : Dev nD) (r : ℕ) (d : Fin 3) : (Rd P).amount (barCell c) r d = 1 := rfl

theorem amount_exit (c : Dev nD) (r : ℕ) (d : Fin 3) : (Rd P).amount (exitCell c) r d = 1 := rfl

theorem expect_x (a : Fin 4) (j : Fin 9) (s : Fin 3) (c : Dev nD) : (Rd P).expect (xCell a j s c) 0 = amt j a s := by
  show ∑ d ∈ (Rd P).duties (xCell a j s c) 0, (Rd P).amount (xCell a j s c) 0 d = amt j a s
  rw [duties_x, Finset.sum_singleton, amount_x]

theorem expect_bar (c : Dev nD) : (Rd P).expect (barCell c) 0 = 3 := by
  show ∑ d ∈ (Rd P).duties (barCell c) 0, (Rd P).amount (barCell c) 0 d = 3
  rw [duties_bar, Fin.sum_univ_three, amount_bar, amount_bar, amount_bar]

theorem expect_exit (c : Dev nD) : (Rd P).expect (exitCell c) 0 = 3 := by
  show ∑ d ∈ (Rd P).duties (exitCell c) 0, (Rd P).amount (exitCell c) 0 d = 3
  rw [duties_exit, Fin.sum_univ_three, amount_exit, amount_exit, amount_exit]

theorem payload_x (a : Fin 4) (j : Fin 9) (s : Fin 3) (c : Dev nD) (r : ℕ) (d : Fin 3) :
    (Rd P).payload (xCell a j s c) r d =
      if a = 1 then rsRecvPay P c j s else if a = 2 then agSendPay P c j s else if a = 3 then agRecvPay P c j s else iprop(emp) := by
  dsimp only [Rd]
  rw [arrOf_xsem, chunkIx_xsem, stepIx_xsem]

theorem payload_rsSend (j : Fin 9) (s : Fin 3) (c : Dev nD) (r : ℕ) (d : Fin 3) : (Rd P).payload (xCell 0 j s c) r d = iprop(emp) := by
  rw [payload_x, if_neg (by decide), if_neg (by decide), if_neg (by decide)]

theorem payload_rsRecv (j : Fin 9) (s : Fin 3) (c : Dev nD) (r : ℕ) (d : Fin 3) : (Rd P).payload (xCell 1 j s c) r d = rsRecvPay P c j s := by
  rw [payload_x, if_pos rfl]

theorem payload_agSend (j : Fin 9) (t : Fin 3) (c : Dev nD) (r : ℕ) (d : Fin 3) : (Rd P).payload (xCell 2 j t c) r d = agSendPay P c j t := by
  rw [payload_x, if_neg (by decide), if_pos rfl]

theorem payload_agRecv (j : Fin 9) (t : Fin 3) (c : Dev nD) (r : ℕ) (d : Fin 3) : (Rd P).payload (xCell 3 j t c) r d = agRecvPay P c j t := by
  rw [payload_x, if_neg (by decide), if_neg (by decide), if_pos rfl]

theorem payload_bar (c : Dev nD) (r : ℕ) (d : Fin 3) : (Rd P).payload (barCell c) r d = barPay c d := by
  dsimp only [Rd]
  rw [if_pos rfl]

theorem payload_exit (c : Dev nD) (r : ℕ) (d : Fin 3) : (Rd P).payload (exitCell c) r d = iprop(emp) := by
  dsimp only [Rd]
  rw [if_neg (Ne.symm barS_ne_exitS)]

theorem rest_x (a : Fin 4) (j : Fin 9) (s : Fin 3) (c : Dev nD) : bigSep ((Rd P).duties (xCell a j s c) 0 \ ∅) (fun d => (Rd P).payload (xCell a j s c) 0 d) = (Rd P).payload (xCell a j s c) 0 0 := by
  rw [Finset.sdiff_empty, duties_x, bigSep_singleton]

theorem rest_bar (c : Dev nD) : bigSep ((Rd P).duties (barCell c) 0 \ ∅) (fun d => (Rd P).payload (barCell c) 0 d) = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl

end Cert.KernelIdeal.Bfly

end
-- ==== Proof.StepBarIdeal.lean ====
import proofs.«900883_g7700000000000884_dist_matmul_k_i_m1024_n1024_k512_v7x_i8_f32_1_alg».proof.Proof.BodyDefsIdeal
import proofs.«900883_g7700000000000884_dist_matmul_k_i_m1024_n1024_k512_v7x_i8_f32_1_alg».proof.Proof.TablesIdeal
import Idealize.ShloMosaic.Rules.PointsTo

noncomputable section

namespace Cert.KernelIdeal.Bfly

open Cert.KernelIdeal Cert.KernelIdeal.Gen Cert.Butterfly
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem bigSep_fin3 (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]
  rfl

def dimEquiv (j : Fin 9) : Fin 3 ≃ Fin 3 := ⟨dim j, stepOf j, stepOf_dim j, dim_stepOf j⟩

theorem sep3_dim (j : Fin 9) (Φ : Fin 3 → sProp 𝕄) :
    iprop(Φ 0 ∗ Φ 1 ∗ Φ 2) = iprop(Φ (dim j 0) ∗ Φ (dim j 1) ∗ Φ (dim j 2)) := by
  rw [← bigSep_fin3 Φ, bigSep_univ_equiv (dimEquiv j) Φ, bigSep_fin3]
  rfl

theorem sep3_stepOf (j : Fin 9) (Φ : Fin 3 → sProp 𝕄) :
    iprop(Φ 0 ∗ Φ 1 ∗ Φ 2) = iprop(Φ (stepOf j 0) ∗ Φ (stepOf j 1) ∗ Φ (stepOf j 2)) := by
  rw [← bigSep_fin3 Φ, bigSep_univ_equiv (dimEquiv j).symm Φ, bigSep_fin3]
  rfl

abbrev ownSlab (c : Dev nD) (j : Fin 9) (s : Fin 3) : sProp 𝕄 :=
  iprop(∃ f : Buf (Elt F) (commLoc c), (commLoc c ↦[Creg c j s]{fullShare} f))

abbrev parSlab (c : Dev nD) (j : Fin 9) (s : Fin 3) : sProp 𝕄 :=
  iprop(∃ f : Buf (Elt F) (commLoc (pS c j s)), (commLoc (pS c j s) ↦[PCreg c j s]{fullShare} f))

theorem slabs_weaken (c : Dev nD) (f : Buf (Elt F) (commLoc c)) (j : Fin 9) :
    iprop((commLoc c ↦[Creg c j 0]{fullShare} f) ∗ (commLoc c ↦[Creg c j 1]{fullShare} f) ∗ (commLoc c ↦[Creg c j 2]{fullShare} f))
      ⊢ (iprop(ownSlab (F := F) c j 0 ∗ ownSlab c j 1 ∗ ownSlab c j 2) : sProp 𝕄) := by
  iintro ⟨H0, H1, H2⟩
  isplitl [H0]; · iexists f; iexact H0
  isplitl [H1]; · iexists f; iexact H1
  iexists f; iexact H2

theorem comm_split (c : Dev nD) (f : Buf (Elt F) (commLoc c)) :
    ((commLoc c ↦{fullShare} f : sProp 𝕄))
      ⊢ bigSep Finset.univ fun j : Fin 9 => iprop(ownSlab (F := F) c j 0 ∗ ownSlab c j 1 ∗ ownSlab c j 2) := by
  have h : ((commLoc c ↦[Finset.univ.biUnion fun js : Fin 9 × Fin 3 => rowsC c (commOff js.1 js.2) (half js.1 js.2)]{fullShare} f : sProp 𝕄))
      = bigSep (Finset.univ : Finset (Fin 9 × Fin 3)) fun js => (commLoc c ↦[rowsC c (commOff js.1 js.2) (half js.1 js.2)]{fullShare} f) :=
    pointsTo_biUnion (Finset.univ : Finset (Fin 9 × Fin 3))
      (fun js => rowsC c (commOff js.1 js.2) (half js.1 js.2)) (fun a _ b _ hab => slabs_disjoint c a b hab)
  rw [← comm_univ_eq c] at h
  rw [h, bigSep_univ_prod]
  refine bigSep_mono fun j _ => ?_
  rw [bigSep_fin3]
  exact slabs_weaken c f j

theorem comm_join (c : Dev nD) :
    (bigSep Finset.univ fun j : Fin 9 => iprop(ownSlab (F := F) c j 0 ∗ ownSlab c j 1 ∗ ownSlab c j 2))
      ⊢ (iprop(∃ f : Buf (Elt F) (commLoc c), (commLoc c ↦{fullShare} f)) : sProp 𝕄) := by
  have e : (bigSep Finset.univ fun j : Fin 9 => iprop(ownSlab (F := F) c j 0 ∗ ownSlab c j 1 ∗ ownSlab c j 2))
      = bigSep (Finset.univ : Finset (Fin 9 × Fin 3)) fun js => ownSlab (F := F) c js.1 js.2 := by
    rw [bigSep_univ_prod]
    refine bigSep_congr fun j _ => ?_
    rw [bigSep_fin3]
  rw [e]
  iintro H
  ihave H := (bigSep_exists_pi (Finset.univ : Finset (Fin 9 × Fin 3))
    (fun js (f : Buf (Elt F) (commLoc c)) => (commLoc c ↦[Creg c js.1 js.2]{fullShare} f : sProp 𝕄))) $$ H
  icases H with ⟨%fs, H⟩
  ihave H := (pointsTo_biUnion_join (Finset.univ : Finset (Fin 9 × Fin 3)) (fun js => rowsC c (commOff js.1 js.2) (half js.1 js.2))
    fs (fs (0, 0)) (fun a _ b _ hab => slabs_disjoint c a b hab)) $$ H
  icases H with ⟨%g, -, H⟩
  iexists g
  rw [comm_univ_eq c]
  iexact H

theorem out_split_eq (c : Dev nD) (q : PosShare TreeShare) (f : Buf (Elt F) (outLoc c)) :
    ((outLoc c ↦{q} f : sProp 𝕄)) = bigSep Finset.univ fun j : Fin 9 => (outLoc c ↦[Kreg c j 0]{q} f) := by
  have h : ((outLoc c ↦[Finset.univ.biUnion fun j : Fin 9 => rowsO c (base j) (rows j)]{q} f : sProp 𝕄))
      = bigSep (Finset.univ : Finset (Fin 9)) fun j => (outLoc c ↦[rowsO c (base j) (rows j)]{q} f) :=
    pointsTo_biUnion (Finset.univ : Finset (Fin 9))
      (fun j => rowsO c (base j) (rows j)) (fun a _ b _ hab => chunks_disjoint c a b hab)
  rw [← out_univ_eq c] at h
  exact h

theorem out_join (P : Dev nD → Mat F) (c : Dev nD) :
    (bigSep Finset.univ fun j : Fin 9 => (outLoc c ↦[Kreg c j 0]{fullShare} finO P c : sProp 𝕄)) ⊢ (outLoc c ↦{fullShare} finO P c) :=
  Entails.of_eq (out_split_eq c fullShare (finO P c)).symm

theorem chunk_init (P : Dev nD → Mat F) (c : Dev nD) (j : Fin 9) (f : Buf (Elt F) (outLoc c)) :
    iprop((outLoc c ↦[Kreg c j 0]{fullShare} f) ∗ chunkGhost (F := F) c j ∗ parSlab c j 0 ∗ parSlab c j 1 ∗ parSlab c j 2)
      ⊢ chunkSt P c j 0 := by
  unfold chunkGhost rsGhost chunkSt rsPending
  iintro ⟨Hf, ⟨⟨⟨Ht0, Ha0, Hb0, Hc0⟩, ⟨Ht1, Ha1, Hb1, Hc1⟩, ⟨Ht2, Ha2, Hb2, Hc2⟩⟩, Hg0, Hg1, Hg2⟩, Hs0, Hs1, Hs2⟩
  isplitl [Hf]; · iexists f; iexact Hf
  isplitl [Ht0 Ha0 Hb0 Hc0 Hs0]
  · isplitl [Ht0]; · iexact Ht0
    isplitl [Ha0]; · iexact Ha0
    isplitl [Hb0]; · iexact Hb0
    isplitl [Hc0]; · iexact Hc0
    iexact Hs0
  isplitl [Ht1 Ha1 Hb1 Hc1 Hs1]
  · isplitl [Ht1]; · iexact Ht1
    isplitl [Ha1]; · iexact Ha1
    isplitl [Hb1]; · iexact Hb1
    isplitl [Hc1]; · iexact Hc1
    iexact Hs1
  isplitl [Ht2 Ha2 Hb2 Hc2 Hs2]
  · isplitl [Ht2]; · iexact Ht2
    isplitl [Ha2]; · iexact Ha2
    isplitl [Hb2]; · iexact Hb2
    isplitl [Hc2]; · iexact Hc2
    iexact Hs2
  isplitl [Hg0]; · iexact Hg0
  isplitl [Hg1]; · iexact Hg1
  iexact Hg2

theorem chunks_init (P : Dev nD → Mat F) (c : Dev nD) (f : Buf (Elt F) (outLoc c)) :
    iprop((outLoc c ↦{fullShare} f) ∗ (bigSep Finset.univ fun j : Fin 9 => chunkGhost (F := F) c j)
        ∗ bigSep Finset.univ fun j : Fin 9 => iprop(parSlab (F := F) c j 0 ∗ parSlab c j 1 ∗ parSlab c j 2))
      ⊢ bigSep Finset.univ fun j : Fin 9 => chunkSt P c j 0 := by
  rw [out_split_eq c fullShare f, ← bigSep_sep', ← bigSep_sep']
  exact bigSep_mono fun j _ => chunk_init P c j f

variable (m : (ℓ : Loc nD τ sig) → Buf (Elt F) ℓ)

theorem records_inv (K : Dev nD × CK → ℕ) (ck : Dev nD × CK) :
    records m K ⊢ cellInv ER (Rd (part m)) (K ck) (kcell ck) := by
  unfold records
  exact BI.Entails.trans (BI.Entails.trans BI.sep_and BI.and_elimL)
    (bigSep_elim (Φ := fun ck : Dev nD × CK => cellInv ER (Rd (part m)) (K ck) (kcell ck)) (Finset.mem_univ ck))

theorem records_reached (K : Dev nD × CK → ℕ) (ck : Dev nD × CK) :
    records m K ⊢ (reached ER (kcell ck) 0 : sProp 𝕄) := by
  unfold records
  exact BI.Entails.trans (BI.Entails.trans BI.sep_and BI.and_elimR)
    (bigSep_elim (Φ := fun ck : Dev nD × CK => (reached ER (kcell ck) 0 : sProp 𝕄)) (Finset.mem_univ ck))

theorem barPay_par (c : Dev nD) (d : Fin 3) :
    (barPay (par d c) d : sProp 𝕄) = bigSep Finset.univ fun j : Fin 9 => ownSlab (F := F) c j (stepOf j d) := by
  unfold barPay
  rw [par_par d c]

theorem deal_slabs (c : Dev nD) (f : Buf (Elt F) (commLoc c)) :
    ((commLoc c ↦{fullShare} f : sProp 𝕄)) ⊢ iprop(barPay (par 0 c) 0 ∗ barPay (par 1 c) 1 ∗ barPay (par 2 c) 2) := by
  rw [barPay_par, barPay_par, barPay_par, ← bigSep_sep', ← bigSep_sep']
  refine (comm_split c f).trans (Entails.of_eq (bigSep_congr fun j _ => ?_))
  exact sep3_stepOf j fun s => ownSlab (F := F) c j s

theorem parSlab_eq (c : Dev nD) (j : Fin 9) (s : Fin 3) :
    (iprop(∃ f : Buf (Elt F) (commLoc (par (dim j s) c)),
        (commLoc (par (dim j s) c) ↦[rowsC (par (dim j s) c) (commOff j (stepOf j (dim j s))) (half j (stepOf j (dim j s)))]{fullShare} f)) : sProp 𝕄)
      = parSlab c j s := by
  rw [stepOf_dim]

theorem regroup_slabs (c : Dev nD) :
    (iprop(barPay c 0 ∗ barPay c 1 ∗ barPay c 2) : sProp 𝕄)
      ⊢ bigSep Finset.univ fun j : Fin 9 => iprop(parSlab (F := F) c j 0 ∗ parSlab c j 1 ∗ parSlab c j 2) := by
  unfold barPay
  rw [← bigSep_sep', ← bigSep_sep']
  refine Entails.of_eq (bigSep_congr fun j _ => ?_)
  rw [sep3_dim j fun d => iprop(∃ f : Buf (Elt F) (commLoc (par d c)),
    (commLoc (par d c) ↦[rowsC (par d c) (commOff j (stepOf j d)) (half j (stepOf j d))]{fullShare} f)),
    parSlab_eq, parSlab_eq, parSlab_eq]

theorem step_entry (K : Dev nD × CK → ℕ) (c : Dev nD)
    (dev1 dev2 dev3 : Dev nD) (hd1 : dev1 = par 0 c) (hd2 : dev2 = par 1 c) (hd3 : dev3 = par 2 c)
    (sem : Sem sig) (hsem : sem = barS) (n1 n2 n3 nw : ℕ) (hn1 : n1 = 1) (hn2 : n2 = 1) (hn3 : n3 = 1) (hnw : nw = 3)
    {α : Type} {Q : α → sProp 𝕄} {k : PUnit → Prog (TpuEff nD τ sig (Elt F) Λ₀ .tc) α}
    (hmw : (levAts L lv : sProp 𝕄) ⊢ MayWait (c : Thread nD τ) (.reg barS) () (owedX c 0)) :
    iprop(records m K ∗ levAts L lv ∗ barGhost barS c ∗ (∃ W, owes (c : Thread nD τ) (O₀ c) W)
        ∗ (∃ f : Buf (Elt F) (commLoc c), (commLoc c ↦{fullShare} f)))
      ⊢ iprop((((∃ W, owes (c : Thread nD τ) (owedX c 0) W)
            ∗ bigSep Finset.univ fun j : Fin 9 => iprop(parSlab (F := F) c j 0 ∗ parSlab c j 1 ∗ parSlab c j 2))
          -∗ wp frame (wpE (defs₀ (F := F)) 𝒱₀ c none) Set.univ (k ⟨⟩) Q)
        -∗ wp frame (wpE (defs₀ (F := F)) 𝒱₀ c none) Set.univ
            (Prog.op (.semSignal (dev1 : Thread nD τ) sem n1) fun _ =>
              Prog.op (.semSignal (dev2 : Thread nD τ) sem n2) fun _ =>
                Prog.op (.semSignal (dev3 : Thread nD τ) sem n3) fun _ =>
                  Prog.op (.semWait sem nw) k) Q) := by
  subst hd1 hd2 hd3 hsem hn1 hn2 hn3 hnw
  unfold barGhost
  iintro ⟨#Hrec, #Hlev, ⟨Hat, Hcr, Ht0, Ht1, Ht2⟩, ⟨%W, HO⟩, ⟨%f, Hcomm⟩⟩ Hk
  ihave Hpay := (deal_slabs c f) $$ Hcomm
  icases Hpay with ⟨Hp0, Hp1, Hp2⟩

  iapply (Rounds.wp_signal 𝒱₀ ER (Rd (part m)) (c : Thread nD τ) none (dst := ((par 0 c : Dev nD) : Thread nD τ)) (sem := barS)
      (κ := K (par 0 c, none)) (r := 0) (d := (0 : Fin 3)) (by rw [duties_bar]; exact Finset.mem_univ _)
      (amount_bar (part m) (par 0 c) 0 0) () (O₀ := O₀ c) ((owedX c 0 + barDebt c 2) + barDebt c 1) rfl (W := W)
      (Topo.routes_tc c (par 0 c))) $$ [HO Ht0 Hp0]
  · isplitr; · iapply (records_inv m K (par 0 c, none)); iexact Hrec
    isplitl [HO]; · iexact HO
    isplitl [Ht0]; · iexact Ht0
    isplitl [Hp0]; · rw [payload_bar]; iexact Hp0
    iapply (records_reached m K (par 0 c, none)); iexact Hrec
  iintro HO

  iapply (Rounds.wp_signal 𝒱₀ ER (Rd (part m)) (c : Thread nD τ) none (dst := ((par 1 c : Dev nD) : Thread nD τ)) (sem := barS)
      (κ := K (par 1 c, none)) (r := 0) (d := (1 : Fin 3)) (by rw [duties_bar]; exact Finset.mem_univ _)
      (amount_bar (part m) (par 1 c) 0 1) () (O₀ := (owedX c 0 + barDebt c 2) + barDebt c 1) (owedX c 0 + barDebt c 2) rfl (W := W)
      (Topo.routes_tc c (par 1 c))) $$ [HO Ht1 Hp1]
  · isplitr; · iapply (records_inv m K (par 1 c, none)); iexact Hrec
    isplitl [HO]; · iexact HO
    isplitl [Ht1]; · iexact Ht1
    isplitl [Hp1]; · rw [payload_bar]; iexact Hp1
    iapply (records_reached m K (par 1 c, none)); iexact Hrec
  iintro HO

  iapply (Rounds.wp_signal 𝒱₀ ER (Rd (part m)) (c : Thread nD τ) none (dst := ((par 2 c : Dev nD) : Thread nD τ)) (sem := barS)
      (κ := K (par 2 c, none)) (r := 0) (d := (2 : Fin 3)) (by rw [duties_bar]; exact Finset.mem_univ _)
      (amount_bar (part m) (par 2 c) 0 2) () (O₀ := owedX c 0 + barDebt c 2) (owedX c 0) rfl (W := W)
      (Topo.routes_tc c (par 2 c))) $$ [HO Ht2 Hp2]
  · isplitr; · iapply (records_inv m K (par 2 c, none)); iexact Hrec
    isplitl [HO]; · iexact HO
    isplitl [Ht2]; · iexact Ht2
    isplitl [Hp2]; · rw [payload_bar]; iexact Hp2
    iapply (records_reached m K (par 2 c, none)); iexact Hrec
  iintro HO

  iapply (Rounds.wp_wait_rest_token 𝒱₀ ER (Rd (part m)) (c : Thread nD τ) none (κ := K (c, none))
      (wpE_semWait_eq 𝒱₀ (c : Thread nD τ) none Set.univ) (Set.mem_univ _) () (O := owedX c 0) (W := W) (R := 0) (m := 0) (T := ∅)
      (by rw [expect_bar])) $$ [Hcr HO Hat]
  · isplitr; · iapply (records_inv m K (c, none)); iexact Hrec
    isplitl [Hcr]; · iexact Hcr
    isplitl [HO]; · iexact HO
    isplitr; · iapply hmw; iexact Hlev
    iexact Hat
  iintro ⟨HO, -, -, Hrest⟩
  iapply Hk
  isplitl [HO]; · iexists _; iexact HO
  iapply (regroup_slabs c)
  iapply (Entails.of_eq (rest_bar (part m) c)) $$ Hrest

theorem step_exit (K : Dev nD × CK → ℕ) (c : Dev nD)
    (dev1 dev2 dev3 : Dev nD) (hd1 : dev1 = par 0 c) (hd2 : dev2 = par 1 c) (hd3 : dev3 = par 2 c)
    (sem : Sem sig) (hsem : sem = exitS) (n1 n2 n3 nw : ℕ) (hn1 : n1 = 1) (hn2 : n2 = 1) (hn3 : n3 = 1) (hnw : nw = 3)
    (p : ℕ) (hO : owedP c p = 0)
    {α : Type} {Q : α → sProp 𝕄} {k : PUnit → Prog (TpuEff nD τ sig (Elt F) Λ₀ .tc) α} :
    iprop(records m K ∗ levAts L lv ∗ barGhost exitS c ∗ (∃ W, owes (c : Thread nD τ) (owedX c p) W))
      ⊢ iprop(((semVal (exitCell c) 0 ∗ (∃ W, owes (c : Thread nD τ) 0 W))
          -∗ wp frame (wpE (defs₀ (F := F)) 𝒱₀ c none) Set.univ (k ⟨⟩) Q)
        -∗ wp frame (wpE (defs₀ (F := F)) 𝒱₀ c none) Set.univ
            (Prog.op (.semSignal (dev1 : Thread nD τ) sem n1) fun _ =>
              Prog.op (.semSignal (dev2 : Thread nD τ) sem n2) fun _ =>
                Prog.op (.semSignal (dev3 : Thread nD τ) sem n3) fun _ =>
                  Prog.op (.semWait sem nw) k) Q) := by
  subst hd1 hd2 hd3 hsem hn1 hn2 hn3 hnw
  have hX : owedX c p = ((0 + exitDebt c 2) + exitDebt c 1) + exitDebt c 0 := by unfold owedX; rw [hO]
  rw [hX]
  unfold barGhost
  iintro ⟨#Hrec, #Hlev, ⟨Hat, Hcr, Ht0, Ht1, Ht2⟩, ⟨%W, HO⟩⟩ Hk
  iapply (Rounds.wp_signal 𝒱₀ ER (Rd (part m)) (c : Thread nD τ) none (dst := ((par 0 c : Dev nD) : Thread nD τ)) (sem := exitS)
      (κ := K (par 0 c, some none)) (r := 0) (d := (0 : Fin 3)) (by rw [duties_exit]; exact Finset.mem_univ _)
      (amount_exit (part m) (par 0 c) 0 0) () (O₀ := ((0 + exitDebt c 2) + exitDebt c 1) + exitDebt c 0) ((0 + exitDebt c 2) + exitDebt c 1) rfl (W := W)
      (Topo.routes_tc c (par 0 c))) $$ [HO Ht0]
  · isplitr; · iapply (records_inv m K (par 0 c, some none)); iexact Hrec
    isplitl [HO]; · iexact HO
    isplitl [Ht0]; · iexact Ht0
    isplitr; · rw [payload_exit]; iempintro
    iapply (records_reached m K (par 0 c, some none)); iexact Hrec
  iintro HO
  iapply (Rounds.wp_signal 𝒱₀ ER (Rd (part m)) (c : Thread nD τ) none (dst := ((par 1 c : Dev nD) : Thread nD τ)) (sem := exitS)
      (κ := K (par 1 c, some none)) (r := 0) (d := (1 : Fin 3)) (by rw [duties_exit]; exact Finset.mem_univ _)
      (amount_exit (part m) (par 1 c) 0 1) () (O₀ := (0 + exitDebt c 2) + exitDebt c 1) (0 + exitDebt c 2) rfl (W := W)
      (Topo.routes_tc c (par 1 c))) $$ [HO Ht1]
  · isplitr; · iapply (records_inv m K (par 1 c, some none)); iexact Hrec
    isplitl [HO]; · iexact HO
    isplitl [Ht1]; · iexact Ht1
    isplitr; · rw [payload_exit]; iempintro
    iapply (records_reached m K (par 1 c, some none)); iexact Hrec
  iintro HO
  iapply (Rounds.wp_signal 𝒱₀ ER (Rd (part m)) (c : Thread nD τ) none (dst := ((par 2 c : Dev nD) : Thread nD τ)) (sem := exitS)
      (κ := K (par 2 c, some none)) (r := 0) (d := (2 : Fin 3)) (by rw [duties_exit]; exact Finset.mem_univ _)
      (amount_exit (part m) (par 2 c) 0 2) () (O₀ := 0 + exitDebt c 2) 0 rfl (W := W)
      (Topo.routes_tc c (par 2 c))) $$ [HO Ht2]
  · isplitr; · iapply (records_inv m K (par 2 c, some none)); iexact Hrec
    isplitl [HO]; · iexact HO
    isplitl [Ht2]; · iexact Ht2
    isplitr; · rw [payload_exit]; iempintro
    iapply (records_reached m K (par 2 c, some none)); iexact Hrec
  iintro HO
  iapply (Rounds.wp_wait_rest_token 𝒱₀ ER (Rd (part m)) (c : Thread nD τ) none (κ := K (c, some none))
      (wpE_semWait_eq 𝒱₀ (c : Thread nD τ) none Set.univ) (Set.mem_univ _) () (O := 0) (W := W) (R := 0) (m := 0) (T := ∅)
      (by rw [expect_exit])) $$ [Hcr HO Hat]
  · isplitr; · iapply (records_inv m K (c, some none)); iexact Hrec
    isplitl [Hcr]; · iexact Hcr
    isplitl [HO]; · iexact HO
    isplitr; · rw [MayWait_zero]; iempintro
    iexact Hat
  iintro ⟨HO, Hat, -, -⟩

  imod (Rounds.cell_close ER (Rd (part m)) (Set.mem_univ (K (c, some none))) (not_unitless (part m) (exitCell c)) (R := 0 + 1)
    (duties_later (part m) (exitCell c))) $$ [Hat] with Hz
  · isplitr; · iapply (records_inv m K (c, some none)); iexact Hrec
    iexact Hat
  iapply Hk
  isplitl [Hz]; · iexact Hz
  iexists _; iexact HO

end Cert.KernelIdeal.Bfly

end
-- ==== Proof.StepMMIdeal.lean ====
import proofs.«900883_g7700000000000884_dist_matmul_k_i_m1024_n1024_k512_v7x_i8_f32_1_alg».proof.Proof.BodyDefsIdeal

noncomputable section

namespace Cert.KernelIdeal.Bfly

open Cert.KernelIdeal Cert.KernelIdeal.Gen Cert.Butterfly
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem read_slabA (h o : Nat) (inb : ∀ a, (![o, 0] : Fin 2 → Nat) a + (![h, 512] : Fin 2 → Nat) a ≤ S1024x512.size a)
    (f : (cc0_stg0_0 : Ref sig .tc).ty.Contents (Elt F)) :
    ((Memref.whole cc0_stg0_0 : Memref sig .tc .vmem S1024x512 .f32).access (Rect.unit (s := S1024x512) ![o, 0] ![h, 512] inb)).read (Elt F) f
      = slabA h o f := by
  funext y
  rw [View.read_apply, cast_eq]
  unfold slabA
  congr 1
  funext a
  have h0 : o + h ≤ 1024 := inb 0
  have hy0 : (y 0).val < h := (y 0).isLt
  have hy1 : (y 1).val < 512 := (y 1).isLt
  match a with
  | ⟨0, _⟩ =>
    apply Fin.ext
    show o + 1 * (y 0).val = (o + (y 0).val) % 1024
    rw [Nat.one_mul, Nat.mod_eq_of_lt (by omega)]
  | ⟨1, _⟩ =>
    apply Fin.ext
    show 0 + 1 * (y 1).val = (y 1).val % 512
    rw [Nat.one_mul, Nat.zero_add, Nat.mod_eq_of_lt hy1]

theorem write_mm128 (c : Dev nD) (j : Fin 9) (hr : 128 = rows j)
    (inbO : ∀ a, (![base j, 0] : Fin 2 → Nat) a + S128x1024.size a ≤ S1024x1024.size a)
    (f : Buf (Elt F) (outLoc c)) (i : Idx (outLoc c)) (hi : i ∈ rowsO c (base j) 128) :
    ((Memref.whole cc0_stg2_0 : Memref sig .tc .vmem S1024x1024 .f32).access (Rect.unit (s := S1024x1024) ![base j, 0] S128x1024.size inbO)).write (Elt F) f
        (mm128 (slabA 128 (base j) (aS m c)) (bS m c)) Finset.univ i = part m c i := by
  rw [← set_outSl c ![base j, 0] (base j) 128 rfl inbO] at hi
  obtain ⟨x, -, rfl⟩ := Finset.mem_map.mp hi
  have hw := View.write_emb_of_mem (v := (Memref.whole cc0_stg2_0 : Memref sig .tc .vmem S1024x1024 .f32).access (Rect.unit (s := S1024x1024) ![base j, 0] S128x1024.size inbO))
    (Val := Elt F) f (mm128 (slabA 128 (base j) (aS m c)) (bS m c)) (M := Finset.univ) (x := x) (Finset.mem_univ x)
  rw [cast_eq] at hw
  refine hw.trans ?_
  have hx0 : (x 0).val < 128 := (x 0).isLt
  have h0 : (((outSl ![base j, 0] 128 inbO).view.emb x : S1024x1024.Idx) 0).val = base j + (x 0).val := by
    show base j + 1 * (x 0).val = _
    rw [Nat.one_mul]
  have h1 : (((outSl ![base j, 0] 128 inbO).view.emb x : S1024x1024.Idx) 1).val = (x 1).val := by
    show 0 + 1 * (x 1).val = _
    rw [Nat.one_mul, Nat.zero_add]
  have hc : chunkOf (((outSl ![base j, 0] 128 inbO).view.emb x : S1024x1024.Idx) 0).val = j := by
    rw [h0]; exact chunkOf_in j _ (hr ▸ hx0)
  unfold part
  simp only [hc]
  rw [if_pos hr.symm]
  congr 1
  funext a
  match a with
  | ⟨0, _⟩ =>
    apply Fin.ext
    show (x 0).val = ((((outSl ![base j, 0] 128 inbO).view.emb x : S1024x1024.Idx) 0).val - base j) % 128
    rw [h0, Nat.add_sub_cancel_left, Nat.mod_eq_of_lt hx0]
  | ⟨1, _⟩ =>
    apply Fin.ext
    exact h1.symm

theorem write_mm64 (c : Dev nD) (j : Fin 9) (hr : 64 = rows j)
    (inbO : ∀ a, (![base j, 0] : Fin 2 → Nat) a + S64x1024.size a ≤ S1024x1024.size a)
    (f : Buf (Elt F) (outLoc c)) (i : Idx (outLoc c)) (hi : i ∈ rowsO c (base j) 64) :
    ((Memref.whole cc0_stg2_0 : Memref sig .tc .vmem S1024x1024 .f32).access (Rect.unit (s := S1024x1024) ![base j, 0] S64x1024.size inbO)).write (Elt F) f
        (mm64 (slabA 64 (base j) (aS m c)) (bS m c)) Finset.univ i = part m c i := by
  rw [← set_outSl c ![base j, 0] (base j) 64 rfl inbO] at hi
  obtain ⟨x, -, rfl⟩ := Finset.mem_map.mp hi
  have hw := View.write_emb_of_mem (v := (Memref.whole cc0_stg2_0 : Memref sig .tc .vmem S1024x1024 .f32).access (Rect.unit (s := S1024x1024) ![base j, 0] S64x1024.size inbO))
    (Val := Elt F) f (mm64 (slabA 64 (base j) (aS m c)) (bS m c)) (M := Finset.univ) (x := x) (Finset.mem_univ x)
  rw [cast_eq] at hw
  refine hw.trans ?_
  have hx0 : (x 0).val < 64 := (x 0).isLt
  have h0 : (((outSl ![base j, 0] 64 inbO).view.emb x : S1024x1024.Idx) 0).val = base j + (x 0).val := by
    show base j + 1 * (x 0).val = _
    rw [Nat.one_mul]
  have h1 : (((outSl ![base j, 0] 64 inbO).view.emb x : S1024x1024.Idx) 1).val = (x 1).val := by
    show 0 + 1 * (x 1).val = _
    rw [Nat.one_mul, Nat.zero_add]
  have hc : chunkOf (((outSl ![base j, 0] 64 inbO).view.emb x : S1024x1024.Idx) 0).val = j := by
    rw [h0]; exact chunkOf_in j _ (hr ▸ hx0)
  unfold part
  simp only [hc]
  rw [if_neg (by rw [← hr]; decide)]
  congr 1
  funext a
  match a with
  | ⟨0, _⟩ =>
    apply Fin.ext
    show (x 0).val = ((((outSl ![base j, 0] 64 inbO).view.emb x : S1024x1024.Idx) 0).val - base j) % 64
    rw [h0, Nat.add_sub_cancel_left, Nat.mod_eq_of_lt hx0]
  | ⟨1, _⟩ =>
    apply Fin.ext
    exact h1.symm

theorem step_mm128 (K : Dev nD × CK → ℕ) (c : Dev nD) (j : Fin 9)
    (o : Nat) (ho : o = base j) (hr : 128 = rows j)
    (inbA : ∀ a, (![o, 0] : Fin 2 → Nat) a + S128x512.size a ≤ S1024x512.size a)
    (inbB : ∀ a, (![0, 0] : Fin 2 → Nat) a + S512x1024.size a ≤ S512x1024.size a)
    (inbO : ∀ a, (![o, 0] : Fin 2 → Nat) a + S128x1024.size a ≤ S1024x1024.size a)
    {hlA : (Memref.whole cc0_stg0_0 : Memref sig .tc .vmem S1024x512 .f32).view.LoadsAt (Rect.unit (s := S1024x512) ![o, 0] S128x512.size inbA).toLoadRect}
    {hlB : (Memref.whole cc0_stg1_0 : Memref sig .tc .vmem S512x1024 .f32).view.LoadsAt (Rect.unit (s := S512x1024) ![0, 0] S512x1024.size inbB).toLoadRect}
    {hlO : (Memref.whole cc0_stg2_0 : Memref sig .tc .vmem S1024x1024 .f32).view.LoadsAt (Rect.unit (s := S1024x1024) ![o, 0] S128x1024.size inbO).toLoadRect}
    {hx : ((Memref.whole cc0_stg2_0 : Memref sig .tc .vmem S1024x1024 .f32).access (Rect.unit (s := S1024x1024) ![o, 0] S128x1024.size inbO)).Stores Finset.univ}
    {hm : (Finset.univ : Finset (Rect.unit (s := S1024x1024) ![o, 0] S128x1024.size inbO).shape.Idx) = Finset.univ ∨ ∀ a, (Rect.unit (s := S1024x1024) ![o, 0] S128x1024.size inbO).stride a = 1}
    {hcA : S128x512.ShapeCasts S128x512} {hcB : S512x1024.ShapeCasts S512x1024}
    {α : Type} {Q : α → sProp 𝕄}
    {k : Vec F S128x512 .f32 → Vec F S512x1024 .f32 → Vec F S128x1024 .f32 → PUnit → Prog (TpuEff nD τ sig (Elt F) Λ₀ .tc) α}
    (O : CellTallies nD τ sig Unit) :
    iprop(records m K ∗ levAts L lv ∗ chunkSt (part m) c j 0 ∗ (∃ W, owes (c : Thread nD τ) O W)
        ∗ stg c cc0_stg0_0 (aS m c) ∗ stg c cc0_stg1_0 (bS m c))
      ⊢ iprop((∀ x y z, (chunkSt (part m) c j (0 + 1) ∗ (∃ W, owes (c : Thread nD τ) O W) ∗ stg c cc0_stg0_0 (aS m c) ∗ stg c cc0_stg1_0 (bS m c))
            -∗ wp frame (wpE (defs₀ (F := F)) 𝒱₀ c none) Set.univ (k x y z ⟨⟩) Q)
          -∗ wp frame (wpE (defs₀ (F := F)) 𝒱₀ c none) Set.univ
            (Prog.op (TpuEff.load (cs := .vmem) (s := S1024x512) (e := .f32) (Memref.whole cc0_stg0_0) (Rect.unit (s := S1024x512) ![o, 0] S128x512.size inbA).toLoadRect hlA) fun x =>
              Prog.op (TpuEff.load (cs := .vmem) (s := S512x1024) (e := .f32) (Memref.whole cc0_stg1_0) (Rect.unit (s := S512x1024) ![0, 0] S512x1024.size inbB).toLoadRect hlB) fun y =>
                Prog.op (TpuEff.load (cs := .vmem) (s := S1024x1024) (e := .f32) (Memref.whole cc0_stg2_0) (Rect.unit (s := S1024x1024) ![o, 0] S128x1024.size inbO).toLoadRect hlO) fun z =>
                  Prog.op (TpuEff.store (cs := .vmem) (s := S1024x1024) (e := .f32) (Memref.whole cc0_stg2_0) (Rect.unit (s := S1024x1024) ![o, 0] S128x1024.size inbO)
                    (matmul dot_S128x512_S512x1024_S128x1024_1_0_0_1_n_n none (shapeCast S128x512 x hcA)
                      (shapeCast S512x1024 y hcB) (constant S128x1024 .f32 0x00000000#32))
                    Finset.univ hx hm) (k x y z)) Q) := by
  subst ho
  have hK : Kreg c j 0 = rowsO c (base j) 128 := by
    show rowsO c (base j) (rows j) = _
    rw [← hr]
  have hsetO : ((Memref.whole cc0_stg2_0 : Memref sig .tc .vmem S1024x1024 .f32).access (Rect.unit (s := S1024x1024) ![base j, 0] S128x1024.size inbO)).set ⊆ Kreg c j 0 := by
    rw [hK]; exact (set_outSl c ![base j, 0] (base j) 128 rfl inbO).le
  simp only [chunkSt, Nat.zero_add]
  iintro ⟨-, -, ⟨⟨%f, HO⟩, Hrest⟩, Howes, ⟨%fa, %hfa, HA⟩, ⟨%fb, %hfb, HB⟩⟩ Hk
  iapply (wp_load_rect 𝒱₀ (c : Thread nD τ) none Set.univ (m := Memref.whole cc0_stg0_0) (r := Rect.unit (s := S1024x512) ![base j, 0] S128x512.size inbA) (Finset.subset_univ _)) $$ HA
  iintro HA
  iapply (wp_load_rect 𝒱₀ (c : Thread nD τ) none Set.univ (m := Memref.whole cc0_stg1_0) (r := Rect.unit (s := S512x1024) ![0, 0] S512x1024.size inbB) (Finset.subset_univ _)) $$ HB
  iintro HB
  iapply (wp_load_rect 𝒱₀ (c : Thread nD τ) none Set.univ (m := Memref.whole cc0_stg2_0) (r := Rect.unit (s := S1024x1024) ![base j, 0] S128x1024.size inbO) hsetO) $$ HO
  iintro HO
  iapply (wp_store 𝒱₀ (c : Thread nD τ) none Set.univ (m := Memref.whole cc0_stg2_0) (r := Rect.unit (s := S1024x1024) ![base j, 0] S128x1024.size inbO) (Mk := Finset.univ) hsetO) $$ HO
  iintro HO
  subst hfa hfb
  have hA := read_slabA (F := F) 128 (base j) inbA (aS m c)
  have hB : View.read (Elt F) ((Memref.whole cc0_stg1_0 : Memref sig .tc .vmem S512x1024 .f32).access (Rect.unit (s := S512x1024) ![0, 0] S512x1024.size inbB)) (bS m c)
      = bS m c :=
    Memref.read_access_unit_zero (Elt F) cc0_stg1_0 (off := ![0, 0]) (by funext a; fin_cases a <;> rfl) inbB (bS m c)
  have hcg := pointsTo_congr (F := F) (outLoc c) (Kreg c j 0) fullShare _ (accO (part m) c j 0) (fun i hi => write_mm128 m c j hr inbO f i (hK ▸ hi))
  have hent : (View.loc c.tc ((Memref.whole cc0_stg2_0 : Memref sig .tc .vmem S1024x1024 .f32).access (Rect.unit (s := S1024x1024) ![base j, 0] S128x1024.size inbO)) ↦[Kreg c j 0]{fullShare}
        View.write (Elt F) ((Memref.whole cc0_stg2_0 : Memref sig .tc .vmem S1024x1024 .f32).access (Rect.unit (s := S1024x1024) ![base j, 0] S128x1024.size inbO)) f
          (matmul dot_S128x512_S512x1024_S128x1024_1_0_0_1_n_n none (shapeCast S128x512 (slabA 128 (base j) (aS m c)) hcA)
            (shapeCast S512x1024 (bS m c) hcB) (constant S128x1024 .f32 0x00000000#32)) Finset.univ : sProp 𝕄)
      ⊢ (outLoc c ↦[Kreg c j 0]{fullShare} accO (part m) c j 0) := by
    rw [← hcg]
    exact .rfl
  rw [hA, hB]
  iapply Hk $$ %_ %_ %_
  isplitl [HO Hrest]
  · isplitl [HO]
    · iapply hent $$ HO
    · iexact Hrest
  isplitl [Howes]
  · iexact Howes
  isplitl [HA]
  · iexists _; isplitr
    swap; · iexact HA
    ipureintro; rfl
  · iexists _; isplitr
    swap; · iexact HB
    ipureintro; rfl

theorem step_mm64 (K : Dev nD × CK → ℕ) (c : Dev nD) (j : Fin 9)
    (o : Nat) (ho : o = base j) (hr : 64 = rows j)
    (inbA : ∀ a, (![o, 0] : Fin 2 → Nat) a + S64x512.size a ≤ S1024x512.size a)
    (inbB : ∀ a, (![0, 0] : Fin 2 → Nat) a + S512x1024.size a ≤ S512x1024.size a)
    (inbO : ∀ a, (![o, 0] : Fin 2 → Nat) a + S64x1024.size a ≤ S1024x1024.size a)
    {hlA : (Memref.whole cc0_stg0_0 : Memref sig .tc .vmem S1024x512 .f32).view.LoadsAt (Rect.unit (s := S1024x512) ![o, 0] S64x512.size inbA).toLoadRect}
    {hlB : (Memref.whole cc0_stg1_0 : Memref sig .tc .vmem S512x1024 .f32).view.LoadsAt (Rect.unit (s := S512x1024) ![0, 0] S512x1024.size inbB).toLoadRect}
    {hlO : (Memref.whole cc0_stg2_0 : Memref sig .tc .vmem S1024x1024 .f32).view.LoadsAt (Rect.unit (s := S1024x1024) ![o, 0] S64x1024.size inbO).toLoadRect}
    {hx : ((Memref.whole cc0_stg2_0 : Memref sig .tc .vmem S1024x1024 .f32).access (Rect.unit (s := S1024x1024) ![o, 0] S64x1024.size inbO)).Stores Finset.univ}
    {hm : (Finset.univ : Finset (Rect.unit (s := S1024x1024) ![o, 0] S64x1024.size inbO).shape.Idx) = Finset.univ ∨ ∀ a, (Rect.unit (s := S1024x1024) ![o, 0] S64x1024.size inbO).stride a = 1}
    {hcA : S64x512.ShapeCasts S64x512} {hcB : S512x1024.ShapeCasts S512x1024}
    {α : Type} {Q : α → sProp 𝕄}
    {k : Vec F S64x512 .f32 → Vec F S512x1024 .f32 → Vec F S64x1024 .f32 → PUnit → Prog (TpuEff nD τ sig (Elt F) Λ₀ .tc) α}
    (O : CellTallies nD τ sig Unit) :
    iprop(records m K ∗ levAts L lv ∗ chunkSt (part m) c j 0 ∗ (∃ W, owes (c : Thread nD τ) O W)
        ∗ stg c cc0_stg0_0 (aS m c) ∗ stg c cc0_stg1_0 (bS m c))
      ⊢ iprop((∀ x y z, (chunkSt (part m) c j (0 + 1) ∗ (∃ W, owes (c : Thread nD τ) O W) ∗ stg c cc0_stg0_0 (aS m c) ∗ stg c cc0_stg1_0 (bS m c))
            -∗ wp frame (wpE (defs₀ (F := F)) 𝒱₀ c none) Set.univ (k x y z ⟨⟩) Q)
          -∗ wp frame (wpE (defs₀ (F := F)) 𝒱₀ c none) Set.univ
            (Prog.op (TpuEff.load (cs := .vmem) (s := S1024x512) (e := .f32) (Memref.whole cc0_stg0_0) (Rect.unit (s := S1024x512) ![o, 0] S64x512.size inbA).toLoadRect hlA) fun x =>
              Prog.op (TpuEff.load (cs := .vmem) (s := S512x1024) (e := .f32) (Memref.whole cc0_stg1_0) (Rect.unit (s := S512x1024) ![0, 0] S512x1024.size inbB).toLoadRect hlB) fun y =>
                Prog.op (TpuEff.load (cs := .vmem) (s := S1024x1024) (e := .f32) (Memref.whole cc0_stg2_0) (Rect.unit (s := S1024x1024) ![o, 0] S64x1024.size inbO).toLoadRect hlO) fun z =>
                  Prog.op (TpuEff.store (cs := .vmem) (s := S1024x1024) (e := .f32) (Memref.whole cc0_stg2_0) (Rect.unit (s := S1024x1024) ![o, 0] S64x1024.size inbO)
                    (matmul dot_S64x512_S512x1024_S64x1024_1_0_0_1_n_n none (shapeCast S64x512 x hcA)
                      (shapeCast S512x1024 y hcB) (constant S64x1024 .f32 0x00000000#32))
                    Finset.univ hx hm) (k x y z)) Q) := by
  subst ho
  have hK : Kreg c j 0 = rowsO c (base j) 64 := by
    show rowsO c (base j) (rows j) = _
    rw [← hr]
  have hsetO : ((Memref.whole cc0_stg2_0 : Memref sig .tc .vmem S1024x1024 .f32).access (Rect.unit (s := S1024x1024) ![base j, 0] S64x1024.size inbO)).set ⊆ Kreg c j 0 := by
    rw [hK]; exact (set_outSl c ![base j, 0] (base j) 64 rfl inbO).le
  simp only [chunkSt, Nat.zero_add]
  iintro ⟨-, -, ⟨⟨%f, HO⟩, Hrest⟩, Howes, ⟨%fa, %hfa, HA⟩, ⟨%fb, %hfb, HB⟩⟩ Hk
  iapply (wp_load_rect 𝒱₀ (c : Thread nD τ) none Set.univ (m := Memref.whole cc0_stg0_0) (r := Rect.unit (s := S1024x512) ![base j, 0] S64x512.size inbA) (Finset.subset_univ _)) $$ HA
  iintro HA
  iapply (wp_load_rect 𝒱₀ (c : Thread nD τ) none Set.univ (m := Memref.whole cc0_stg1_0) (r := Rect.unit (s := S512x1024) ![0, 0] S512x1024.size inbB) (Finset.subset_univ _)) $$ HB
  iintro HB
  iapply (wp_load_rect 𝒱₀ (c : Thread nD τ) none Set.univ (m := Memref.whole cc0_stg2_0) (r := Rect.unit (s := S1024x1024) ![base j, 0] S64x1024.size inbO) hsetO) $$ HO
  iintro HO
  iapply (wp_store 𝒱₀ (c : Thread nD τ) none Set.univ (m := Memref.whole cc0_stg2_0) (r := Rect.unit (s := S1024x1024) ![base j, 0] S64x1024.size inbO) (Mk := Finset.univ) hsetO) $$ HO
  iintro HO
  subst hfa hfb
  have hA := read_slabA (F := F) 64 (base j) inbA (aS m c)
  have hB : View.read (Elt F) ((Memref.whole cc0_stg1_0 : Memref sig .tc .vmem S512x1024 .f32).access (Rect.unit (s := S512x1024) ![0, 0] S512x1024.size inbB)) (bS m c)
      = bS m c :=
    Memref.read_access_unit_zero (Elt F) cc0_stg1_0 (off := ![0, 0]) (by funext a; fin_cases a <;> rfl) inbB (bS m c)
  have hcg := pointsTo_congr (F := F) (outLoc c) (Kreg c j 0) fullShare _ (accO (part m) c j 0) (fun i hi => write_mm64 m c j hr inbO f i (hK ▸ hi))
  have hent : (View.loc c.tc ((Memref.whole cc0_stg2_0 : Memref sig .tc .vmem S1024x1024 .f32).access (Rect.unit (s := S1024x1024) ![base j, 0] S64x1024.size inbO)) ↦[Kreg c j 0]{fullShare}
        View.write (Elt F) ((Memref.whole cc0_stg2_0 : Memref sig .tc .vmem S1024x1024 .f32).access (Rect.unit (s := S1024x1024) ![base j, 0] S64x1024.size inbO)) f
          (matmul dot_S64x512_S512x1024_S64x1024_1_0_0_1_n_n none (shapeCast S64x512 (slabA 64 (base j) (aS m c)) hcA)
            (shapeCast S512x1024 (bS m c) hcB) (constant S64x1024 .f32 0x00000000#32)) Finset.univ : sProp 𝕄)
      ⊢ (outLoc c ↦[Kreg c j 0]{fullShare} accO (part m) c j 0) := by
    rw [← hcg]
    exact .rfl
  rw [hA, hB]
  iapply Hk $$ %_ %_ %_
  isplitl [HO Hrest]
  · isplitl [HO]
    · iapply hent $$ HO
    · iexact Hrest
  isplitl [Howes]
  · iexact Howes
  isplitl [HA]
  · iexists _; isplitr
    swap; · iexact HA
    ipureintro; rfl
  · iexists _; isplitr
    swap; · iexact HB
    ipureintro; rfl

end Cert.KernelIdeal.Bfly

end
-- ==== Proof.StepRSIdeal.lean ====
import proofs.«900883_g7700000000000884_dist_matmul_k_i_m1024_n1024_k512_v7x_i8_f32_1_alg».proof.Proof.TablesIdeal
import proofs.«900883_g7700000000000884_dist_matmul_k_i_m1024_n1024_k512_v7x_i8_f32_1_alg».proof.Proof.BodyDefsIdeal

noncomputable section

namespace Cert.KernelIdeal.Bfly

open Cert.KernelIdeal Cert.KernelIdeal.Gen Cert.Butterfly
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem records_cell (K : Dev nD × CK → ℕ) (ck : Dev nD × CK) :
    records m K ⊢ iprop(cellInv ER (Rd (part m)) (K ck) (kcell ck) ∗ reached ER (kcell ck) 0) := by
  unfold records
  iintro ⟨H1, H2⟩
  ihave A := (bigSep_pick (Finset.mem_univ ck)) $$ H1
  ihave B := (bigSep_pick (Finset.mem_univ ck)) $$ H2
  icases A with ⟨A, -⟩
  icases B with ⟨B, -⟩
  isplitl [A] <;> iassumption

variable (P : Dev nD → Mat F)

theorem rs_send_pay (c : Dev nD) (j : Fin 9) (s : Fin 3)
    (inb : ∀ a, (![sentOff j s c, 0] : Fin 2 → Nat) a + (Sh (half j s)).size a ≤ S1024x1024.size a)
    (inbD : ∀ a, (![commOff j s, 0] : Fin 2 → Nat) a + (Sh (half j s)).size a ≤ S896x1024.size a)
    (f : Buf (Elt F) (commLoc (pS c j s))) :
    iprop((commLoc (pS c j s) ↦[PCreg c j s]{fullShare}
            ((commSl ![commOff j s, 0] (half j s) inbD).view.write (Elt F) f
              ((outSl ![sentOff j s c, 0] (half j s) inb).view.read (Elt F) (accO P c j s.val)) Finset.univ))
        ∗ (outLoc c ↦[Treg c j s]{fullShare} accO P c j s.val))
      ⊢ (rsRecvPay P (pS c j s) j s : sProp 𝕄) := by
  unfold rsRecvPay landed
  rw [par_par]
  simp only [← sentOff_eq_keptOff_par]
  refine sep_mono_left (Entails.of_eq (pointsTo_congr _ _ _ _ _ ?_))
  intro i hi
  have hi' : i ∈ (commSl ![commOff j s, 0] (half j s) inbD).view.set := by
    rw [set_commSl (pS c j s) _ (commOff j s) (half j s) rfl inbD]; exact hi
  obtain ⟨y, rfl⟩ := View.exists_emb_of_mem_set _ hi'
  rw [View.write_emb_of_mem _ _ (Finset.mem_univ y), View.read_apply]
  show acc (rot j) P s.val c (((View.whole cc0_stg2_0).slice (Rect.unit ![sentOff j s c, 0] ![half j s, 1024] inb)).emb y) = _
  congr 1
  funext a
  apply Fin.ext
  have hy0 : (y 0).val < half j s := (y 0).isLt
  have hb : sentOff j s c + half j s ≤ 1024 := inb 0
  match a with
  | ⟨0, _⟩ =>
    show sentOff j s c + 1 * (y 0).val = (sentOff j s c + ((commOff j s + 1 * (y 0).val) - commOff j s)) % 1024
    rw [Nat.add_sub_cancel_left, Nat.one_mul, Nat.mod_eq_of_lt (by omega)]
  | ⟨1, _⟩ => rfl

theorem kept_split (c : Dev nD) (j : Fin 9) (s : Fin 3) (f : Buf (Elt F) (outLoc c)) :
    ((outLoc c ↦[Kreg c j s.val]{fullShare} f : sProp 𝕄))
      ⊣⊢ iprop((outLoc c ↦[Kreg c j (s.val + 1)]{fullShare} f) ∗ (outLoc c ↦[Treg c j s]{fullShare} f)) := by
  have e : Kreg c j s.val = Kreg c j (s.val + 1) ∪ Treg c j s := kept_eq_union c j s
  rw [e]
  exact pointsTo_union (outLoc c) _ _ (kept_sent_disjoint c j s) fullShare f

theorem rs_send_core (K : Dev nD × CK → ℕ) (c : Dev nD) (j : Fin 9) (s : Fin 3)
    (off : Fin 2 → Nat) (hoff : off = ![sentOff j s c, 0]) (h : Nat) (hh : h = half j s)
    (inb : ∀ a, off a + (Sh h).size a ≤ S1024x1024.size a)
    (offD : Fin 2 → Nat) (hoffD : offD = ![commOff j s, 0]) (inbD : ∀ a, offD a + (Sh h).size a ≤ S896x1024.size a)
    (dev : Dev nD) (hdev : dev = pS c j s)
    (sS : DmaSem sig) (hsS : sS = xsem 0 j s) (sR : DmaSem sig) (hsR : sR = xsem 1 j s)
    {hsc : (commSl offD h inbD : Memref sig (Dev.tc dev : Thread nD τ).2.kind .vmem (Sh h) .f32).view.ref.isScScratch = false}
    {hsrc : (outSl off h inb).view.WordExact} {hdst : (commSl offD h inbD).view.WordExact}
    {hsem : DmaTarget.Typed .vmem (.dma sR) (.remote (Dev.tc dev : Thread nD τ) (commSl offD h inbD) (.dma sS) hsc)}
    {α : Type} {Q : α → sProp 𝕄} {k : PUnit → Prog (TpuEff nD τ sig (Elt F) Λ₀ .tc) α}
    (O : CellTallies nD τ sig Unit) :
    iprop(records m K ∗ (outLoc c ↦[Treg c j s]{fullShare} accO (part m) c j s.val)
        ∗ tokRS c j s ∗ (∃ f : Buf (Elt F) (commLoc (pS c j s)), (commLoc (pS c j s) ↦[PCreg c j s]{fullShare} f))
        ∗ (∃ W, owes (c : Thread nD τ) (O + tallyAt (xCell 1 j s (pS c j s)) () (crd (half j s))) W))
      ⊢ iprop(((credOf c j 0 s ∗ (∃ W, owes (c : Thread nD τ) O W)) -∗ wp frame (wpE (defs₀ (F := F)) 𝒱₀ c none) Set.univ (k ⟨⟩) Q)
          -∗ wp frame (wpE (defs₀ (F := F)) 𝒱₀ c none) Set.univ
              (.op (.enqueueDma (outSl off h inb) (.remote (Dev.tc dev : Thread nD τ) (commSl offD h inbD) (.dma sS) hsc) (.dma sR) hsrc hdst hsem) k) Q) := by
  subst hoff hh hoffD hdev hsS hsR
  iintro ⟨#Hrec, Hsrc, Htok, ⟨%f, Hslab⟩, ⟨%W, HO⟩⟩ Hk
  ihave #H0 := (records_cell m K (c, some (some (0, j, s)))) $$ Hrec
  ihave #H1 := (records_cell m K (pS c j s, some (some (1, j, s)))) $$ Hrec
  icases H0 with ⟨#HI0, #Hr0⟩
  icases H1 with ⟨#HI1, #Hr1⟩
  unfold tokRS
  icases Htok with ⟨Ht0, Ht1⟩
  have key := Rounds.wp_send_landing_pointsTo 𝒱₀ ER (Rd (part m)) (c : Thread nD τ) none (defs := defs₀ (F := F)) (Γ := PendingWaitsCtx.empty)
    (α := α) (Q := Q)
    (c' := (pS c j s : Thread nD τ)) (src := outSl ![sentOff j s c, 0] (half j s) inb) (dst := commSl ![commOff j s, 0] (half j s) inbD)
    (hsc := hsc) (sS := .dma (xsem 0 j s)) (sem := .dma (xsem 1 j s)) (hsrc := hsrc) (hdst := hdst) (hsem := hsem) (k := k)
    (q := fullShare) (fs := accO (part m) c j s.val) (fd := f) (r₁ := 0) (r₂ := 0) (d₁ := 0) (d₂ := 0)
    (κ₁ := K (c, some (some (0, j, s)))) (κ₂ := K (pS c j s, some (some (1, j, s))))
    (by rw [duties_x]; exact Finset.mem_singleton_self _) (by rw [duties_x]; exact Finset.mem_singleton_self _)
    () () (crd (half j s)) rfl
    ((amount_x (part m) 0 j s c 0 0).trans (if_pos (Or.inl rfl))) ((amount_x (part m) 1 j s (pS c j s) 0 0).trans (if_pos (Or.inr rfl)))
    (O₀ := O + tallyAt (xCell 1 j s (pS c j s)) () (crd (half j s))) O rfl (W := W)
    (by rw [payload_rsSend])
    (by
      rw [payload_rsRecv, set_commSl (pS c j s) _ (commOff j s) (half j s) rfl inbD, set_outSl c _ (sentOff j s c) (half j s) rfl inb]
      exact rs_send_pay (part m) c j s inb inbD f)
    (Es := Set.univ)
  rw [set_commSl (pS c j s) _ (commOff j s) (half j s) rfl inbD, set_outSl c _ (sentOff j s c) (half j s) rfl inb] at key
  iapply key $$ [Hsrc Hslab HO Ht0 Ht1]
  · isplitr; · iexact HI0
    isplitr; · iexact HI1
    isplitl [Hsrc]; · iexact Hsrc
    isplitl [Hslab]; · iexact Hslab
    isplitl [HO]; · iexact HO
    isplitl [Ht0]; · iexact Ht0
    isplitr; · iexact Hr0
    isplitl [Ht1]; · iexact Ht1
    iexact Hr1
  iintro ⟨Hc, HO⟩
  iapply Hk
  isplitl [Hc]
  · unfold credOf amt
    rw [if_pos (Or.inl rfl)]
    iexact Hc
  iexists W
  iexact HO

theorem step_rs_send0 (K : Dev nD × CK → ℕ) (c : Dev nD) (j : Fin 9)
    (off : Fin 2 → Nat) (hoff : off = ![sentOff j 0 c, 0]) (h : Nat) (hh : h = half j 0)
    (inb : ∀ a, off a + (Sh h).size a ≤ S1024x1024.size a)
    (offD : Fin 2 → Nat) (hoffD : offD = ![commOff j 0, 0]) (inbD : ∀ a, offD a + (Sh h).size a ≤ S896x1024.size a)
    (dev : Dev nD) (hdev : dev = pS c j 0)
    (sS : DmaSem sig) (hsS : sS = xsem 0 j 0) (sR : DmaSem sig) (hsR : sR = xsem 1 j 0)
    {hsc : (commSl offD h inbD : Memref sig (Dev.tc dev : Thread nD τ).2.kind .vmem (Sh h) .f32).view.ref.isScScratch = false}
    {hsrc : (outSl off h inb).view.WordExact} {hdst : (commSl offD h inbD).view.WordExact}
    {hsem : DmaTarget.Typed .vmem (.dma sR) (.remote (Dev.tc dev : Thread nD τ) (commSl offD h inbD) (.dma sS) hsc)}
    {α : Type} {Q : α → sProp 𝕄} {k : PUnit → Prog (TpuEff nD τ sig (Elt F) Λ₀ .tc) α}
    (O : CellTallies nD τ sig Unit) :
    iprop(records m K ∗ levAts L lv ∗ chunkSt (part m) c j 1
        ∗ (∃ W, owes (c : Thread nD τ) (O + tallyAt (payCell c 0 j) () (payAmt 0 j)) W))
      ⊢ iprop(((chunkSt (part m) c j 2 ∗ (∃ W, owes (c : Thread nD τ) O W)) -∗ wp frame (wpE (defs₀ (F := F)) 𝒱₀ c none) Set.univ (k ⟨⟩) Q)
          -∗ wp frame (wpE (defs₀ (F := F)) 𝒱₀ c none) Set.univ
              (.op (.enqueueDma (outSl off h inb) (.remote (Dev.tc dev : Thread nD τ) (commSl offD h inbD) (.dma sS) hsc) (.dma sR) hsrc hdst hsem) k) Q) := by
  iintro ⟨#Hrec, #Hlev, Hst, HO⟩ Hk
  unfold chunkSt rsPending
  icases Hst with ⟨Hrows, ⟨Htok, Hp0, Hp1, Hc1, Hslab⟩, Hrest⟩
  have hsplit : (outLoc c ↦[Kreg c j 0]{fullShare} accO (part m) c j 0 : sProp 𝕄)
      ⊢ iprop((outLoc c ↦[Kreg c j 1]{fullShare} accO (part m) c j 0) ∗ (outLoc c ↦[Treg c j 0]{fullShare} accO (part m) c j 0)) :=
    (kept_split c j 0 _).1
  ihave Hrows2 := (hsplit) $$ Hrows
  icases Hrows2 with ⟨Hkept, Hsent⟩
  iapply (rs_send_core m K c j 0 off hoff h hh inb offD hoffD inbD dev hdev sS hsS sR hsR O) $$ [Hsent Htok Hslab HO]
  · isplitr; · iexact Hrec
    isplitl [Hsent]; · iexact Hsent
    isplitl [Htok]; · iexact Htok
    isplitl [Hslab]; · iexact Hslab
    iexact HO
  iintro ⟨Hc0, HO⟩
  iapply Hk
  isplitr [HO]
  · unfold rsSent
    isplitl [Hkept]; · iexact Hkept
    isplitl [Hp0 Hp1 Hc1 Hc0]
    · isplitl [Hp0]; · iexact Hp0
      isplitl [Hp1]; · iexact Hp1
      isplitl [Hc1]; · iexact Hc1
      iexact Hc0
    iexact Hrest
  iexact HO

abbrev outR (off : Fin 2 → Nat) (h : Nat) (inb : ∀ a, off a + (Sh h).size a ≤ S1024x1024.size a) : Rect S1024x1024 :=
  Rect.unit (s := S1024x1024) off (Sh h).size inb
abbrev commR (off : Fin 2 → Nat) (h : Nat) (inb : ∀ a, off a + (Sh h).size a ≤ S896x1024.size a) : Rect S896x1024 :=
  Rect.unit (s := S896x1024) off (Sh h).size inb

theorem addf_cast_apply {h : Nat} (X Y : Vec F (Sh h) .f32) (hc : (Sh h).ShapeCasts (Sh h)) (z : (Sh h).Idx) :
    addf (shapeCast (Sh h) X hc) Y z = FloatOps.addf (X z) (Y z) := by
  rw [shapeCast_self]; rfl

theorem halving_write (c : Dev nD) (j : Fin 9) (s : Fin 3)
    (inbK : ∀ a, (![keptOff j (s.val + 1) c, 0] : Fin 2 → Nat) a + (Sh (half j s)).size a ≤ S1024x1024.size a)
    (inbC : ∀ a, (![commOff j s, 0] : Fin 2 → Nat) a + (Sh (half j s)).size a ≤ S896x1024.size a)
    (hc : (Sh (half j s)).ShapeCasts (Sh (half j s)))
    (i : Idx (outLoc c)) (hi : i ∈ rowsO c (keptOff j (s.val + 1) c) (half j s)) :
    (outM.access (outR ![keptOff j (s.val + 1) c, 0] (half j s) inbK)).write (Elt F) (accO P c j s.val)
        (addf (shapeCast (Sh (half j s)) ((outM.access (outR ![keptOff j (s.val + 1) c, 0] (half j s) inbK)).read (Elt F) (accO P c j s.val)) hc)
          ((commM.access (commR ![commOff j s, 0] (half j s) inbC)).read (Elt F) (landed P c j s)))
        Finset.univ i
      = accO P c j (s.val + 1) i := by
  have hi' : i ∈ (outSl ![keptOff j (s.val + 1) c, 0] (half j s) inbK).view.set := by
    rw [set_outSl c _ (keptOff j (s.val + 1) c) (half j s) rfl inbK]; exact hi
  obtain ⟨z, rfl⟩ := View.exists_emb_of_mem_set _ hi'
  have hw := View.write_emb_of_mem (v := outM.access (outR ![keptOff j (s.val + 1) c, 0] (half j s) inbK)) (Val := Elt F)
    (accO P c j s.val)
    (addf (shapeCast (Sh (half j s)) ((outM.access (outR ![keptOff j (s.val + 1) c, 0] (half j s) inbK)).read (Elt F) (accO P c j s.val)) hc)
          ((commM.access (commR ![commOff j s, 0] (half j s) inbC)).read (Elt F) (landed P c j s)))
    (Finset.mem_univ z)
  have step1 := addf_cast_apply (F := F) (h := half j s)
    ((outM.access (outR ![keptOff j (s.val + 1) c, 0] (half j s) inbK)).read (Elt F) (accO P c j s.val))
    ((commM.access (commR ![commOff j s, 0] (half j s) inbC)).read (Elt F) (landed P c j s)) hc z
  refine hw.trans (step1.trans ?_)
  show FloatOps.addf (acc (rot j) P s.val c ((outR ![keptOff j (s.val + 1) c, 0] (half j s) inbK).emb z))
      (landed P c j s ((commR ![commOff j s, 0] (half j s) inbC).emb z))
    = FloatOps.addf (acc (rot j) P s.val c ((outR ![keptOff j (s.val + 1) c, 0] (half j s) inbK).emb z))
      (acc (rot j) P s.val (par (dim j s) c) ((outR ![keptOff j (s.val + 1) c, 0] (half j s) inbK).emb z))
  congr 1
  unfold landed
  congr 1
  funext a
  apply Fin.ext
  have hz0 : (z 0).val < half j s := (z 0).isLt
  have hb : keptOff j (s.val + 1) c + half j s ≤ 1024 := inbK 0
  match a with
  | ⟨0, _⟩ =>
    show (keptOff j (s.val + 1) c + ((commOff j s + 1 * (z 0).val) - commOff j s)) % 1024 = keptOff j (s.val + 1) c + 1 * (z 0).val
    rw [Nat.add_sub_cancel_left, Nat.one_mul, Nat.mod_eq_of_lt (by omega)]
  | ⟨1, _⟩ => rfl

theorem halving_core (K : Dev nD × CK → ℕ) (c : Dev nD) (j : Fin 9) (s : Fin 2)
    (semW : DmaSem sig) (hsemW : semW = xsem 1 j s.castSucc)
    (h : Nat) (hh : h = half j s.castSucc)
    (offWs : Fin 2 → Nat) (inbWs : ∀ a, offWs a + (Sh h).size a ≤ S1024x1024.size a)
    (offWd : Fin 2 → Nat) (inbWd : ∀ a, offWd a + (Sh h).size a ≤ S896x1024.size a)
    (offK : Fin 2 → Nat) (hoffK : offK = ![keptOff j (s.val + 1) c, 0]) (inbK : ∀ a, offK a + (Sh h).size a ≤ S1024x1024.size a)
    (offC : Fin 2 → Nat) (hoffC : offC = ![commOff j s.castSucc, 0]) (inbC : ∀ a, offC a + (Sh h).size a ≤ S896x1024.size a)
    (off' : Fin 2 → Nat) (hoff' : off' = ![sentOff j s.succ c, 0]) (h' : Nat) (hh' : h' = half j s.succ)
    (inb' : ∀ a, off' a + (Sh h').size a ≤ S1024x1024.size a)
    (offD' : Fin 2 → Nat) (hoffD' : offD' = ![commOff j s.succ, 0]) (inbD' : ∀ a, offD' a + (Sh h').size a ≤ S896x1024.size a)
    (dev : Dev nD) (hdev : dev = pS c j s.succ)
    (sS : DmaSem sig) (hsS : sS = xsem 0 j s.succ) (sR : DmaSem sig) (hsR : sR = xsem 1 j s.succ)
    {hwsrc : (outSl offWs h inbWs).view.WordExact} {hwdst : (commSl offWd h inbWd).view.WordExact}
    {hl1 : outM.view.LoadsAt (outR offK h inbK).toLoadRect} {hl2 : commM.view.LoadsAt (commR offC h inbC).toLoadRect}
    {hl3 : outM.view.LoadsAt (outR offK h inbK).toLoadRect}
    {hcast : (Sh h).ShapeCasts (Sh h)}
    {hx : (outM.access (outR offK h inbK)).Stores Finset.univ}
    {hm : (Finset.univ : Finset (outR offK h inbK).shape.Idx) = Finset.univ ∨ ∀ a, (outR offK h inbK).stride a = 1}
    {hsc : (commSl offD' h' inbD' : Memref sig (Dev.tc dev : Thread nD τ).2.kind .vmem (Sh h') .f32).view.ref.isScScratch = false}
    {hsrc : (outSl off' h' inb').view.WordExact} {hdst : (commSl offD' h' inbD').view.WordExact}
    {hsem : DmaTarget.Typed .vmem (.dma sR) (.remote (Dev.tc dev : Thread nD τ) (commSl offD' h' inbD') (.dma sS) hsc)}
    {α : Type} {Q : α → sProp 𝕄}
    {k : Vec F (Sh h) .f32 → Vec F (Sh h) .f32 → Vec F (Sh h) .f32 → PUnit → Prog (TpuEff nD τ sig (Elt F) Λ₀ .tc) α}
    (O : CellTallies nD τ sig Unit)
    (hmw : (levAts L lv : sProp 𝕄) ⊢ MayWait (c : Thread nD τ) (.dma (xsem 1 j s.castSucc)) ()
      (O + tallyAt (xCell 1 j s.succ (pS c j s.succ)) () (crd (half j s.succ)))) :
    iprop(records m K ∗ levAts L lv
        ∗ (outLoc c ↦[Kreg c j (s.val + 1)]{fullShare} accO (part m) c j s.val)
        ∗ rsSent c j s.castSucc ∗ rsPending c j s.succ
        ∗ (∃ W, owes (c : Thread nD τ) (O + tallyAt (xCell 1 j s.succ (pS c j s.succ)) () (crd (half j s.succ))) W))
      ⊢ iprop((∀ x y z, ((outLoc c ↦[Kreg c j (s.val + 2)]{fullShare} accO (part m) c j (s.val + 1))
              ∗ (rsLanded (part m) c j s.castSucc true ∗ sendSt c j 0 s.castSucc false) ∗ rsSent c j s.succ
              ∗ (∃ W, owes (c : Thread nD τ) O W))
            -∗ wp frame (wpE (defs₀ (F := F)) 𝒱₀ c none) Set.univ (k x y z ⟨⟩) Q)
          -∗ wp frame (wpE (defs₀ (F := F)) 𝒱₀ c none) Set.univ
              (.op (.waitDma2 semW (outSl offWs h inbWs) (commSl offWd h inbWd) hwsrc hwdst) fun _ =>
               .op (.load outM (outR offK h inbK).toLoadRect hl1) fun (x : Vec F (Sh h) .f32) =>
               .op (.load commM (commR offC h inbC).toLoadRect hl2) fun (y : Vec F (Sh h) .f32) =>
               .op (.load outM (outR offK h inbK).toLoadRect hl3) fun (z : Vec F (Sh h) .f32) =>
               .op (.store outM (outR offK h inbK) (addf (shapeCast (Sh h) x hcast) y) Finset.univ hx hm) fun _ =>
               .op (.enqueueDma (outSl off' h' inb') (.remote (Dev.tc dev : Thread nD τ) (commSl offD' h' inbD') (.dma sS) hsc) (.dma sR) hsrc hdst hsem) (k x y z)) Q) := by
  subst hsemW hh hoffK hoffC
  iintro ⟨#Hrec, #Hlev, Hkept, Hsent, Hpend, ⟨%W, HO⟩⟩ Hk
  unfold rsSent rsPending
  icases Hsent with ⟨Hp0, Hp1, Hc1, Hc0⟩
  icases Hpend with ⟨Htok', Hp0', Hp1', Hc1', Hslab'⟩
  ihave #H1 := (records_cell m K (c, some (some (1, j, s.castSucc)))) $$ Hrec
  icases H1 with ⟨#HI1, #Hr1⟩

  have hamt : amt j 1 s.castSucc = (commSl offWd (half j s.castSucc) inbWd).view.dmaCredit := by
    unfold amt; rw [if_pos (Or.inr rfl)]; rfl
  have hcred : (credOf c j 1 s.castSucc : sProp 𝕄)
      ⊢ cred (tallyAt (xCell 1 j s.castSucc c) () (commSl offWd (half j s.castSucc) inbWd).view.dmaCredit) := by
    unfold credOf; rw [hamt]
  ihave Hc1 := (hcred) $$ Hc1
  ihave Hp1 := (show (posOf c j 1 s.castSucc : sProp 𝕄) ⊢ atPos ER (xCell 1 j s.castSucc c) 0 ∅ 0 from BI.Entails.refl _) $$ Hp1
  iapply (Rounds.wp_wait_rest_token 𝒱₀ ER (Rd (part m)) (c : Thread nD τ) none (κ := K (c, some (some (1, j, s.castSucc))))
      (wpE_waitDma2_eq 𝒱₀ (c : Thread nD τ) none Set.univ) (Set.mem_univ _) ()
      (O := O + tallyAt (xCell 1 j s.succ (pS c j s.succ)) () (crd (half j s.succ))) (W := W) (R := 0) (m := 0) (T := ∅)
      (by rw [expect_x, Nat.zero_add, hamt])) $$ [Hc1 HO Hp1]
  · isplitr; · iexact HI1
    isplitl [Hc1]; · iexact Hc1
    isplitl [HO]; · iexact HO
    isplitr; · iapply hmw; iexact Hlev
    iexact Hp1
  iintro ⟨HO, Hat, -, Hpay⟩
  ihave Hp := (Entails.of_eq ((rest_x (part m) 1 j s.castSucc c).trans (payload_rsRecv (part m) j s.castSucc c 0 0))) $$ Hpay
  unfold rsRecvPay
  icases Hp with ⟨Hslab, Hprows⟩
  imod (Rounds.cell_close ER (Rd (part m)) (Set.mem_univ (K (c, some (some (1, j, s.castSucc))))) (not_unitless (part m) _) (R := 0 + 1)
    (duties_later (part m) (xCell 1 j s.castSucc c))) $$ [Hat] with Hz
  · isplitr; · iexact HI1
    iexact Hat

  have hSK : (outM.access (outR ![keptOff j (s.val + 1) c, 0] (half j s.castSucc) inbK)).set ⊆ Kreg c j (s.val + 1) :=
    (set_outSl c _ (keptOff j (s.val + 1) c) (half j s.castSucc) rfl inbK).subset
  have hSC : (commM.access (commR ![commOff j s.castSucc, 0] (half j s.castSucc) inbC)).set ⊆ rowsC c (commOff j s.castSucc) (half j s.castSucc) :=
    (set_commSl c _ (commOff j s.castSucc) (half j s.castSucc) rfl inbC).subset
  iapply (wp_load_rect 𝒱₀ (c : Thread nD τ) none Set.univ (m := outM) (r := outR ![keptOff j (s.val + 1) c, 0] (half j s.castSucc) inbK)
    (S := Kreg c j (s.val + 1)) (q := fullShare) (f := accO (part m) c j s.val) hSK) $$ Hkept
  iintro Hkept
  iapply (wp_load_rect 𝒱₀ (c : Thread nD τ) none Set.univ (m := commM) (r := commR ![commOff j s.castSucc, 0] (half j s.castSucc) inbC)
    (S := rowsC c (commOff j s.castSucc) (half j s.castSucc)) (q := fullShare) (f := landed (part m) c j s.castSucc) hSC) $$ Hslab
  iintro Hslab
  iapply (wp_load_rect 𝒱₀ (c : Thread nD τ) none Set.univ (m := outM) (r := outR ![keptOff j (s.val + 1) c, 0] (half j s.castSucc) inbK)
    (S := Kreg c j (s.val + 1)) (q := fullShare) (f := accO (part m) c j s.val) hSK) $$ Hkept
  iintro Hkept
  iapply (wp_store 𝒱₀ (c : Thread nD τ) none Set.univ (m := outM) (r := outR ![keptOff j (s.val + 1) c, 0] (half j s.castSucc) inbK)
    (S := Kreg c j (s.val + 1)) (f := accO (part m) c j s.val) hSK) $$ Hkept
  iintro Hkept

  have hcongr : (View.loc (c : Thread nD τ) (outM.access (outR ![keptOff j (s.val + 1) c, 0] (half j s.castSucc) inbK)) ↦[Kreg c j (s.val + 1)]{fullShare}
        View.write (Elt F) (outM.access (outR ![keptOff j (s.val + 1) c, 0] (half j s.castSucc) inbK)) (accO (part m) c j s.val)
          (addf (shapeCast (Sh (half j s.castSucc))
              (View.read (Elt F) (outM.access (outR ![keptOff j (s.val + 1) c, 0] (half j s.castSucc) inbK)) (accO (part m) c j s.val)) hcast)
            (View.read (Elt F) (commM.access (commR ![commOff j s.castSucc, 0] (half j s.castSucc) inbC)) (landed (part m) c j s.castSucc)))
          Finset.univ : sProp 𝕄)
      ⊢ iprop((outLoc c ↦[Kreg c j (s.val + 2)]{fullShare} accO (part m) c j (s.val + 1))
          ∗ (outLoc c ↦[Treg c j s.succ]{fullShare} accO (part m) c j s.succ.val)) :=
    (Entails.of_eq (pointsTo_congr (outLoc c) (Kreg c j (s.val + 1)) fullShare _ (accO (part m) c j (s.val + 1))
      (fun i hi => halving_write (part m) c j s.castSucc inbK inbC hcast i hi))).trans (kept_split c j s.succ _).1
  ihave Hk2 := (hcongr) $$ Hkept
  icases Hk2 with ⟨Hkept, Hsrc⟩
  iapply (rs_send_core m K c j s.succ off' hoff' h' hh' inb' offD' hoffD' inbD' dev hdev sS hsS sR hsR O) $$ [Hsrc Htok' Hslab' HO]
  · isplitr; · iexact Hrec
    isplitl [Hsrc]; · iexact Hsrc
    isplitl [Htok']; · iexact Htok'
    isplitl [Hslab']; · iexact Hslab'
    iexists _
    iexact HO
  iintro ⟨Hc0', HO⟩
  iapply Hk
  isplitl [Hkept]; · iexact Hkept
  isplitl [Hz Hslab Hprows Hp0 Hc0]
  · isplitl [Hz Hslab Hprows]
    · unfold rsLanded
      rw [if_pos rfl]
      isplitl [Hz]; · iapply (show (semVal (xCell 1 j s.castSucc c) 0 : sProp 𝕄) ⊢ zeroOf c j 1 s.castSucc from BI.Entails.refl _); iexact Hz
      isplitl [Hslab]
      · iexists _
        iexact Hslab
      iexact Hprows
    · unfold sendSt
      rw [if_neg Bool.false_ne_true]
      isplitl [Hp0]; · iexact Hp0
      iexact Hc0
  isplitr [HO]
  · isplitl [Hp0']; · iexact Hp0'
    isplitl [Hp1']; · iexact Hp1'
    isplitl [Hc1']; · iexact Hc1'
    iexact Hc0'
  iexact HO

theorem payCell_rs (c : Dev nD) (j : Fin 9) (s : Fin 2) :
    payCell c ⟨s.val + 1, by have := s.isLt; omega⟩ j = xCell 1 j s.succ (pS c j s.succ) := by
  unfold payCell
  rw [dif_pos (show s.val + 1 < 3 by have := s.isLt; omega)]
  rfl
theorem payAmt_rs (j : Fin 9) (s : Fin 2) :
    payAmt ⟨s.val + 1, by have := s.isLt; omega⟩ j = crd (half j s.succ) := by
  unfold payAmt
  rw [dif_pos (show s.val + 1 < 3 by have := s.isLt; omega)]
  rfl

theorem step_halving (K : Dev nD × CK → ℕ) (c : Dev nD) (j : Fin 9) (s : Fin 2)
    (semW : DmaSem sig) (hsemW : semW = xsem 1 j s.castSucc)
    (h : Nat) (hh : h = half j s.castSucc)
    (offWs : Fin 2 → Nat) (inbWs : ∀ a, offWs a + (Sh h).size a ≤ S1024x1024.size a)
    (offWd : Fin 2 → Nat) (inbWd : ∀ a, offWd a + (Sh h).size a ≤ S896x1024.size a)
    (offK : Fin 2 → Nat) (hoffK : offK = ![keptOff j (s.val + 1) c, 0]) (inbK : ∀ a, offK a + (Sh h).size a ≤ S1024x1024.size a)
    (offC : Fin 2 → Nat) (hoffC : offC = ![commOff j s.castSucc, 0]) (inbC : ∀ a, offC a + (Sh h).size a ≤ S896x1024.size a)
    (off' : Fin 2 → Nat) (hoff' : off' = ![sentOff j s.succ c, 0]) (h' : Nat) (hh' : h' = half j s.succ)
    (inb' : ∀ a, off' a + (Sh h').size a ≤ S1024x1024.size a)
    (offD' : Fin 2 → Nat) (hoffD' : offD' = ![commOff j s.succ, 0]) (inbD' : ∀ a, offD' a + (Sh h').size a ≤ S896x1024.size a)
    (dev : Dev nD) (hdev : dev = pS c j s.succ)
    (sS : DmaSem sig) (hsS : sS = xsem 0 j s.succ) (sR : DmaSem sig) (hsR : sR = xsem 1 j s.succ)
    {hwsrc : (outSl offWs h inbWs).view.WordExact} {hwdst : (commSl offWd h inbWd).view.WordExact}
    {hl1 : outM.view.LoadsAt (outR offK h inbK).toLoadRect} {hl2 : commM.view.LoadsAt (commR offC h inbC).toLoadRect}
    {hl3 : outM.view.LoadsAt (outR offK h inbK).toLoadRect}
    {hcast : (Sh h).ShapeCasts (Sh h)}
    {hx : (outM.access (outR offK h inbK)).Stores Finset.univ}
    {hm : (Finset.univ : Finset (outR offK h inbK).shape.Idx) = Finset.univ ∨ ∀ a, (outR offK h inbK).stride a = 1}
    {hsc : (commSl offD' h' inbD' : Memref sig (Dev.tc dev : Thread nD τ).2.kind .vmem (Sh h') .f32).view.ref.isScScratch = false}
    {hsrc : (outSl off' h' inb').view.WordExact} {hdst : (commSl offD' h' inbD').view.WordExact}
    {hsem : DmaTarget.Typed .vmem (.dma sR) (.remote (Dev.tc dev : Thread nD τ) (commSl offD' h' inbD') (.dma sS) hsc)}
    {α : Type} {Q : α → sProp 𝕄}
    {k : Vec F (Sh h) .f32 → Vec F (Sh h) .f32 → Vec F (Sh h) .f32 → PUnit → Prog (TpuEff nD τ sig (Elt F) Λ₀ .tc) α}
    (O : CellTallies nD τ sig Unit)
    (hmw : (levAts L lv : sProp 𝕄) ⊢ MayWait (c : Thread nD τ) (.dma (xsem 1 j s.castSucc)) ()
      (O + tallyAt (payCell c ⟨s.val + 1, by have := s.isLt; omega⟩ j) () (payAmt ⟨s.val + 1, by have := s.isLt; omega⟩ j))) :
    iprop(records m K ∗ levAts L lv ∗ chunkSt (part m) c j (2 + s.val)
        ∗ (∃ W, owes (c : Thread nD τ)
            (O + tallyAt (payCell c ⟨s.val + 1, by have := s.isLt; omega⟩ j) () (payAmt ⟨s.val + 1, by have := s.isLt; omega⟩ j)) W))
      ⊢ iprop((∀ x y z, (chunkSt (part m) c j (2 + s.val + 1) ∗ (∃ W, owes (c : Thread nD τ) O W))
            -∗ wp frame (wpE (defs₀ (F := F)) 𝒱₀ c none) Set.univ (k x y z ⟨⟩) Q)
          -∗ wp frame (wpE (defs₀ (F := F)) 𝒱₀ c none) Set.univ
              (.op (.waitDma2 semW (outSl offWs h inbWs) (commSl offWd h inbWd) hwsrc hwdst) fun _ =>
               .op (.load outM (outR offK h inbK).toLoadRect hl1) fun (x : Vec F (Sh h) .f32) =>
               .op (.load commM (commR offC h inbC).toLoadRect hl2) fun (y : Vec F (Sh h) .f32) =>
               .op (.load outM (outR offK h inbK).toLoadRect hl3) fun (z : Vec F (Sh h) .f32) =>
               .op (.store outM (outR offK h inbK) (addf (shapeCast (Sh h) x hcast) y) Finset.univ hx hm) fun _ =>
               .op (.enqueueDma (outSl off' h' inb') (.remote (Dev.tc dev : Thread nD τ) (commSl offD' h' inbD') (.dma sS) hsc) (.dma sR) hsrc hdst hsem) (k x y z)) Q) := by
  rw [payCell_rs, payAmt_rs] at hmw ⊢
  have core := halving_core m K c j s semW hsemW h hh offWs inbWs offWd inbWd offK hoffK inbK offC hoffC inbC off' hoff' h' hh' inb'
    offD' hoffD' inbD' dev hdev sS hsS sR hsR (hwsrc := hwsrc) (hwdst := hwdst) (hl1 := hl1) (hl2 := hl2) (hl3 := hl3) (hcast := hcast)
    (hx := hx) (hm := hm) (hsc := hsc) (hsrc := hsrc) (hdst := hdst) (hsem := hsem) (Q := Q) (k := k) O hmw
  have hs : s = 0 ∨ s = 1 := (Fin.forall_fin_two (p := fun s => s = 0 ∨ s = 1)).2 ⟨Or.inl rfl, Or.inr rfl⟩ s
  rcases hs with rfl | rfl
  ·
    rw [show 2 + ((0 : Fin 2) : ℕ) + 1 = 3 from rfl, show 2 + ((0 : Fin 2) : ℕ) = 2 from rfl]
    iintro ⟨#Hrec, #Hlev, Hst, HO⟩ Hk
    unfold chunkSt
    icases Hst with ⟨Hkept, Hsent, Hpend, Hrest⟩
    iapply (core) $$ [Hkept Hsent Hpend HO]
    · isplitr; · iexact Hrec
      isplitr; · iexact Hlev
      isplitl [Hkept]; · iexact Hkept
      isplitl [Hsent]; · iexact Hsent
      isplitl [Hpend]; · iexact Hpend
      iexact HO
    iintro %x %y %z ⟨Hkept, Hland, Hsent, HO⟩
    iapply Hk
    isplitr [HO]
    · isplitl [Hkept]; · iexact Hkept
      isplitl [Hland]; · iexact Hland
      isplitl [Hsent]; · iexact Hsent
      iexact Hrest
    iexact HO
  ·
    rw [show 2 + ((1 : Fin 2) : ℕ) + 1 = 4 from rfl, show 2 + ((1 : Fin 2) : ℕ) = 3 from rfl]
    iintro ⟨#Hrec, #Hlev, Hst, HO⟩ Hk
    unfold chunkSt
    icases Hst with ⟨Hkept, Hpre, Hsent, Hpend, Hrest⟩
    iapply (core) $$ [Hkept Hsent Hpend HO]
    · isplitr; · iexact Hrec
      isplitr; · iexact Hlev
      isplitl [Hkept]; · iexact Hkept
      isplitl [Hsent]; · iexact Hsent
      isplitl [Hpend]; · iexact Hpend
      iexact HO
    iintro %x %y %z ⟨Hkept, Hland, Hsent, HO⟩
    iapply Hk
    isplitr [HO]
    · isplitl [Hkept]; · iexact Hkept
      isplitl [Hpre]; · iexact Hpre
      isplitl [Hland]; · iexact Hland
      isplitl [Hsent]; · iexact Hsent
      iexact Hrest
    iexact HO

end Cert.KernelIdeal.Bfly

end
-- ==== Proof.StepAGIdeal.lean ====
import proofs.«900883_g7700000000000884_dist_matmul_k_i_m1024_n1024_k512_v7x_i8_f32_1_alg».proof.Proof.BodyDefsIdeal
import proofs.«900883_g7700000000000884_dist_matmul_k_i_m1024_n1024_k512_v7x_i8_f32_1_alg».proof.Proof.TablesIdeal

noncomputable section

namespace Cert.KernelIdeal.Bfly

open Cert.KernelIdeal Cert.KernelIdeal.Gen Cert.Butterfly
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

namespace AG

theorem rev_succ (t : Fin 3) : (rev t).val + 1 = 3 - t.val := by
  show 2 - t.val + 1 = 3 - t.val
  have := t.isLt
  omega

theorem half_rev (j : Fin 9) (t : Fin 3) : half j (rev t) = rows j >>> (3 - t.val) := by
  show rows j >>> ((rev t).val + 1) = _
  rw [rev_succ]

theorem sentOff_pT (c : Dev nD) (j : Fin 9) (t : Fin 3) : sentOff j (rev t) (pT c j t) = keptOff j (3 - t.val) c := by
  rw [sentOff_eq_keptOff_par, par_par, rev_succ]

theorem records_inv (K : Dev nD × CK → ℕ) (ck : Dev nD × CK) :
    records m K ⊢ cellInv ER (Rd (part m)) (K ck) (kcell ck) := by
  unfold records
  exact (BI.Entails.trans BI.sep_and and_elimL).trans
    (bigSep_elim (Finset.mem_univ ck) (Φ := fun ck : Dev nD × CK => cellInv ER (Rd (part m)) (K ck) (kcell ck)))

theorem records_reached (K : Dev nD × CK → ℕ) (ck : Dev nD × CK) :
    records m K ⊢ reached ER (kcell ck) 0 := by
  unfold records
  exact (BI.Entails.trans BI.sep_and and_elimR).trans
    (bigSep_elim (Finset.mem_univ ck) (Φ := fun ck : Dev nD × CK => reached ER (kcell ck) 0))

theorem payCell_ag (c : Dev nD) (j : Fin 9) (t : Fin 3) :
    payCell c ⟨3 + t.val, by have := t.isLt; omega⟩ j = xCell 3 j t (pT c j t) := by
  have ht : (⟨3 + t.val - 3, by have := t.isLt; omega⟩ : Fin 3) = t := Fin.ext (by show 3 + t.val - 3 = t.val; omega)
  unfold payCell
  rw [dif_neg (by show ¬ (3 + t.val < 3); omega)]
  show xCell 3 j ⟨3 + t.val - 3, _⟩ (pT c j ⟨3 + t.val - 3, _⟩) = _
  rw [ht]

theorem payAmt_ag (j : Fin 9) (t : Fin 3) :
    payAmt ⟨3 + t.val, by have := t.isLt; omega⟩ j = crd (rows j >>> (3 - t.val)) := by
  unfold payAmt
  rw [dif_neg (by show ¬ (3 + t.val < 3); omega)]
  show crd (rows j >>> (3 - (3 + t.val - 3))) = _
  rw [show 3 + t.val - 3 = t.val by omega]

theorem amt_ag_send (j : Fin 9) (t : Fin 3) : amt j 2 t = crd (rows j >>> (3 - t.val)) := by
  unfold amt; rw [if_neg (by decide)]
theorem amt_ag_recv (j : Fin 9) (t : Fin 3) : amt j 3 t = crd (rows j >>> (3 - t.val)) := by
  unfold amt; rw [if_neg (by decide)]

end AG

open AG

theorem ag_send_core (K : Dev nD × CK → ℕ) (c : Dev nD) (j : Fin 9) (t : Fin 3)
    (off : Fin 2 → Nat) (hoff : off = ![keptOff j (3 - t.val) c, 0]) (h : Nat) (hh : h = rows j >>> (3 - t.val))
    (inb inb' : ∀ a, off a + (Sh h).size a ≤ S1024x1024.size a)
    (dev : Dev nD) (hdev : dev = pT c j t)
    (sS sR : DmaSem sig) (hsS : sS = xsem 2 j t) (hsR : sR = xsem 3 j t)
    {hsc : (outSl off h inb' : Memref sig (Dev.tc dev : Thread nD τ).2.kind .vmem (Sh h) .f32).view.ref.isScScratch = false}
    {hsrc : (outSl off h inb).view.WordExact} {hdst : (outSl off h inb').view.WordExact}
    {hsem : DmaTarget.Typed .vmem (.dma sR) (.remote (Dev.tc dev : Thread nD τ) (outSl off h inb') (.dma sS) hsc)}
    {α : Type} {Q : α → sProp 𝕄} {k : PUnit → Prog (TpuEff nD τ sig (Elt F) Λ₀ .tc) α}
    (fd : Buf (Elt F) (outLoc (pT c j t)))
    (O : CellTallies nD τ sig Unit) (W : Waits sig Unit) :
    iprop(records m K
        ∗ (outLoc c ↦[Kreg c j (3 - t.val)]{sh4 ⟨t.val, by have := t.isLt; omega⟩} finO (part m) c)
        ∗ (outLoc (pT c j t) ↦[PTreg c j (rev t)]{fullShare} fd)
        ∗ tokAG c j t
        ∗ owes (c : Thread nD τ) (O + tallyAt (payCell c ⟨3 + t.val, by have := t.isLt; omega⟩ j) () (payAmt ⟨3 + t.val, by have := t.isLt; omega⟩ j)) W)
      ⊢ iprop(((credOf c j 2 t ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (outSl off h inb) (.remote (Dev.tc dev : Thread nD τ) (outSl off h inb') (.dma sS) hsc) (.dma sR) hsrc hdst hsem) k) Q) := by
  subst hoff hh hdev hsS hsR
  have hsrcset : (outSl ![keptOff j (3 - t.val) c, 0] (rows j >>> (3 - t.val)) inb).view.set = Kreg c j (3 - t.val) :=
    set_outSl c _ _ _ rfl inb
  have hdstset : (outSl ![keptOff j (3 - t.val) c, 0] (rows j >>> (3 - t.val)) inb').view.set
      = rowsO (pT c j t) (keptOff j (3 - t.val) c) (rows j >>> (3 - t.val)) := set_outSl (pT c j t) _ _ _ rfl inb'
  have hPT : PTreg c j (rev t) = rowsO (pT c j t) (keptOff j (3 - t.val) c) (rows j >>> (3 - t.val)) := by
    show rowsO (pT c j t) (keptOff j ((rev t).val + 1) c) (half j (rev t)) = _
    rw [half_rev, rev_succ]
  rw [payCell_ag, payAmt_ag]
  iintro ⟨#Hrec, Hsrc, Hdst, Htok, HO⟩ Hk
  unfold tokAG
  icases Htok with ⟨Ht1, Ht2⟩
  ihave HI1 := (records_inv m K (c, some (some (2, j, t)))) $$ Hrec
  icases HI1 with #HI1
  ihave HI2 := (records_inv m K (pT c j t, some (some (3, j, t)))) $$ Hrec
  icases HI2 with #HI2
  ihave HR1 := (records_reached m K (c, some (some (2, j, t)))) $$ Hrec
  icases HR1 with #HR1
  ihave HR2 := (records_reached m K (pT c j t, some (some (3, j, t)))) $$ Hrec
  icases HR2 with #HR2
  iapply (Rounds.wp_send_pointsTo 𝒱₀ ER (Rd (part m)) (c : Thread nD τ) none (c' := (pT c j t : Thread nD τ))
      (src := outSl ![keptOff j (3 - t.val) c, 0] (rows j >>> (3 - t.val)) inb)
      (dst := outSl ![keptOff j (3 - t.val) c, 0] (rows j >>> (3 - t.val)) inb')
      (sS := .dma (xsem 2 j t)) (sem := .dma (xsem 3 j t))
      (q := sh4 ⟨t.val, by have := t.isLt; omega⟩) (fs := finO (part m) c) (fd := fd)
      (κ₁ := K (c, some (some (2, j, t)))) (κ₂ := K (pT c j t, some (some (3, j, t))))
      (r₁ := 0) (r₂ := 0) (d₁ := 0) (d₂ := 0)
      (by rw [duties_x (part m) 2 j t c]; exact Finset.mem_singleton_self _)
      (by rw [duties_x (part m) 3 j t (pT c j t)]; exact Finset.mem_singleton_self _)
      () () (crd (rows j >>> (3 - t.val))) rfl
      ((amount_x (part m) 2 j t c 0 0).trans (amt_ag_send j t)) ((amount_x (part m) 3 j t (pT c j t) 0 0).trans (amt_ag_recv j t))
      O rfl (W := W)
      (by
        rw [payload_agSend (part m) j t c 0 0, hsrcset]
        unfold agSendPay
        rw [agShare_eq])
      (by
        rw [payload_agRecv (part m) j t (pT c j t) 0 0, hdstset]
        unfold agRecvPay
        rw [show sentOff j ⟨2 - t.val, by omega⟩ (pT c j t) = keptOff j (3 - t.val) c from sentOff_pT c j t]
        refine Entails.of_eq (pointsTo_congr _ _ _ _ _ ?_)
        intro i hi
        have hi' : i ∈ (outSl ![keptOff j (3 - t.val) c, 0] (rows j >>> (3 - t.val)) inb').view.set := by rw [hdstset]; exact hi
        obtain ⟨y, rfl⟩ := View.exists_emb_of_mem_set _ hi'
        rw [View.write_emb_of_mem _ _ (Finset.mem_univ y)]
        rfl)) $$ [Hsrc Hdst HO Ht1 Ht2]
  · isplitr; · iexact HI1
    isplitr; · iexact HI2
    isplitl [Hsrc]; · rw [hsrcset]; iexact Hsrc
    isplitl [Hdst]; · rw [hdstset, ← hPT]; iexact Hdst
    isplitl [HO]; · iexact HO
    isplitl [Ht1]; · iexact Ht1
    isplitr; · iexact HR1
    isplitl [Ht2]; · iexact Ht2
    iexact HR2
  iintro ⟨Hc, HO⟩
  iapply Hk
  isplitl [Hc]
  · unfold credOf; rw [amt_ag_send]; iexact Hc
  iexact HO

namespace AG

theorem load_set_out (c : Dev nD) (off : Fin 2 → Nat) (o h : Nat) (hoff : off = ![o, 0]) (inb : ∀ a, off a + (Sh h).size a ≤ S1024x1024.size a) :
    (outM.view.setOn (Rect.unit (s := S1024x1024) off (Sh h).size inb).toLoadRect.set : Finset (Idx (outLoc c))) = rowsO c o h := by
  have h1 : (outSl off h inb).view.set = (Rect.unit (s := S1024x1024) off (Sh h).size inb).set := View.set_slice_whole _ _
  rw [← set_outSl c off o h hoff inb, h1]
  exact Finset.map_refl

theorem load_set_comm (c : Dev nD) (off : Fin 2 → Nat) (o h : Nat) (hoff : off = ![o, 0]) (inb : ∀ a, off a + (Sh h).size a ≤ S896x1024.size a) :
    (commM.view.setOn (Rect.unit (s := S896x1024) off (Sh h).size inb).toLoadRect.set : Finset (Idx (commLoc c))) = rowsC c o h := by
  have h1 : (commSl off h inb).view.set = (Rect.unit (s := S896x1024) off (Sh h).size inb).set := View.set_slice_whole _ _
  rw [← set_commSl c off o h hoff inb, h1]
  exact Finset.map_refl

theorem store_set_out (c : Dev nD) (off : Fin 2 → Nat) (o h : Nat) (hoff : off = ![o, 0]) (inb : ∀ a, off a + (Sh h).size a ≤ S1024x1024.size a) :
    ((outM.access (Rect.unit (s := S1024x1024) off (Sh h).size inb)).setOn Finset.univ : Finset (Idx (outLoc c))) = rowsO c o h :=
  set_outSl c off o h hoff inb

theorem kept_lt (j : Fin 9) (s : Fin 3) (c : Dev nD) (x : Nat) (hx : x < half j s) : keptOff j (s.val + 1) c + x < 1024 := by
  have h1 : keptOff j (s.val + 1) c + rows j >>> (s.val + 1) ≤ base j + rows j := (kept_in j ⟨s.val + 1, by have := s.isLt; omega⟩ c).2
  have h2 := chunk_in j
  have h3 : rows j >>> (s.val + 1) = half j s := rfl
  omega

theorem add_kept (P : Dev nD → Mat F) (c : Dev nD) (j : Fin 9) (s : Fin 3)
    (inbK : ∀ a, (![keptOff j (s.val + 1) c, 0] : Fin 2 → Nat) a + (Sh (half j s)).size a ≤ S1024x1024.size a)
    (inbC : ∀ a, (![commOff j s, 0] : Fin 2 → Nat) a + (Sh (half j s)).size a ≤ S896x1024.size a)
    (hc : (Sh (half j s)).ShapeCasts (Sh (half j s))) :
    ∀ i ∈ Kreg c j (s.val + 1),
      (outM.access (Rect.unit (s := S1024x1024) ![keptOff j (s.val + 1) c, 0] (Sh (half j s)).size inbK)).write (Elt F) (accO P c j s.val)
        (addf (shapeCast (s := Sh (half j s)) (Sh (half j s))
            (outM.view.readAt (Elt F) (Rect.unit (s := S1024x1024) ![keptOff j (s.val + 1) c, 0] (Sh (half j s)).size inbK).toLoadRect (accO P c j s.val)) hc)
          (commM.view.readAt (Elt F) (Rect.unit (s := S896x1024) ![commOff j s, 0] (Sh (half j s)).size inbC).toLoadRect (landed P c j s)))
        Finset.univ i = accO P c j (s.val + 1) i := by
  intro i hi
  have hi' : i ∈ (outM.access (Rect.unit (s := S1024x1024) ![keptOff j (s.val + 1) c, 0] (Sh (half j s)).size inbK)).set := by
    rw [show (outM.access (Rect.unit (s := S1024x1024) ![keptOff j (s.val + 1) c, 0] (Sh (half j s)).size inbK)).set
      = rowsO c (keptOff j (s.val + 1) c) (half j s) from set_outSl c _ _ _ rfl inbK]
    exact hi
  obtain ⟨z, rfl⟩ := View.exists_emb_of_mem_set _ hi'
  rw [View.write_emb_of_mem _ _ (Finset.mem_univ z), shapeCast_self]
  show FloatOps.addf (acc (rot j) P s.val c _) (landed P c j s _) = acc (rot j) P (s.val + 1) c _
  rw [acc_step]
  show _ = FloatOps.addf (acc (rot j) P s.val c _) (acc (rot j) P s.val (par (dim j s) c) _)
  refine congrArg₂ FloatOps.addf rfl ?_
  unfold landed
  refine congrArg (acc (rot j) P s.val (par (dim j s) c)) (funext fun a => ?_)
  have hz : (z 0).val < half j s := (z 0).isLt
  have hlt := kept_lt j s c (z 0).val hz
  match a with
  | ⟨0, _⟩ =>
    refine Fin.ext ?_
    show (keptOff j (s.val + 1) c + (commOff j s + 1 * (z 0).val - commOff j s)) % 1024 = keptOff j (s.val + 1) c + 1 * (z 0).val
    rw [Nat.one_mul, Nat.add_sub_cancel_left, Nat.mod_eq_of_lt hlt]
  | ⟨1, _⟩ => exact Fin.ext (by show (0 + 1 * (z 1).val) = 0 + 1 * (z 1).val; rfl)

theorem acc3_final (P : Dev nD → Mat F) (c : Dev nD) (j : Fin 9) : ∀ i ∈ Kreg c j 3, accO P c j 3 i = finO P c i := by
  intro i hi
  simp only [rowsO, Finset.mem_filter, Finset.mem_univ, true_and] at hi
  have hk := kept_in j ⟨3, by decide⟩ c
  have hlo : base j ≤ keptOff j 3 c := hk.1
  have hhi : keptOff j 3 c + rows j >>> 3 ≤ base j + rows j := hk.2
  have e1 : ((i : S1024x1024.Idx) 0).val = keptOff j 3 c + (((i : S1024x1024.Idx) 0).val - keptOff j 3 c) := by omega
  have e2 : ((i : S1024x1024.Idx) 0).val = base j + (((i : S1024x1024.Idx) 0).val - base j) := by omega
  have hch : chunkOf ((i : S1024x1024.Idx) 0).val = j := by rw [e2]; exact chunkOf_in j _ (by omega)
  have how : owner j ((i : S1024x1024.Idx) 0).val = c := by rw [e1]; exact owner_kept j c _ (by omega)
  show acc (rot j) P 3 c i = fin P i
  unfold fin
  rw [hch, how]

theorem store_last (P : Dev nD → Mat F) (c : Dev nD) (j : Fin 9)
    (inbK : ∀ a, (![keptOff j 3 c, 0] : Fin 2 → Nat) a + (Sh (half j 2)).size a ≤ S1024x1024.size a)
    (inbC : ∀ a, (![commOff j 2, 0] : Fin 2 → Nat) a + (Sh (half j 2)).size a ≤ S896x1024.size a)
    (hc : (Sh (half j 2)).ShapeCasts (Sh (half j 2))) :
    (((outM.access (Rect.unit (s := S1024x1024) ![keptOff j 3 c, 0] (Sh (half j 2)).size inbK)).loc (c : Thread nD τ)
        ↦[Kreg c j 3]{fullShare}
        (outM.access (Rect.unit (s := S1024x1024) ![keptOff j 3 c, 0] (Sh (half j 2)).size inbK)).write (Elt F) (accO P c j 2)
          (addf (shapeCast (s := Sh (half j 2)) (Sh (half j 2))
              (outM.view.readAt (Elt F) (Rect.unit (s := S1024x1024) ![keptOff j 3 c, 0] (Sh (half j 2)).size inbK).toLoadRect (accO P c j 2)) hc)
            (commM.view.readAt (Elt F) (Rect.unit (s := S896x1024) ![commOff j 2, 0] (Sh (half j 2)).size inbC).toLoadRect (landed P c j 2)))
          Finset.univ : sProp (MT nD τ sig Unit (Elt F) ℕ UU ℕ)))
      ⊢ (outLoc c ↦[Kreg c j 3]{fullShare} finO P c) :=
  Entails.of_eq (pointsTo_congr (outLoc c) (Kreg c j 3) fullShare _ (finO P c)
    (fun i hi => (add_kept P c j 2 inbK inbC hc i hi).trans (acc3_final P c j i hi)))

end AG

namespace AG

variable (P : Dev nD → Mat F) (c : Dev nD) (j : Fin 9)

theorem chunkSt_4 : chunkSt P c j 4 = iprop((outLoc c ↦[Kreg c j 3]{fullShare} accO P c j 2)
      ∗ (rsLanded P c j 0 true ∗ sendSt c j 0 0 false) ∗ (rsLanded P c j 1 true ∗ sendSt c j 0 1 false) ∗ rsSent c j 2
      ∗ agPending c j 0 ∗ agPending c j 1 ∗ agPending c j 2) := rfl

theorem chunkSt_5 : chunkSt P c j 5 = iprop((qt P c (Kreg c j 3) 1 ∗ qt P c (Kreg c j 3) 2 ∗ qt P c (Kreg c j 3) 3)
      ∗ (rsLanded P c j 0 true ∗ sendSt c j 0 0 false) ∗ (rsLanded P c j 1 true ∗ sendSt c j 0 1 false) ∗ (rsLanded P c j 2 false ∗ sendSt c j 0 2 false)
      ∗ (agSent c j 0 ∗ sendSt c j 2 0 false) ∗ agPending c j 1 ∗ agPending c j 2) := rfl

theorem chunkSt_6 : chunkSt P c j 6 = iprop((qt P c (Kreg c j 3) 2 ∗ qt P c (Kreg c j 3) 3)
      ∗ (qt P c (Treg c j 2) 0 ∗ qt P c (Treg c j 2) 2 ∗ qt P c (Treg c j 2) 3)
      ∗ (rsLanded P c j 0 true ∗ sendSt c j 0 0 false) ∗ (rsLanded P c j 1 false ∗ sendSt c j 0 1 false) ∗ (rsLanded P c j 2 false ∗ sendSt c j 0 2 false)
      ∗ (agLanded c j 0 ∗ sendSt c j 2 0 false) ∗ (agSent c j 1 ∗ sendSt c j 2 1 false) ∗ agPending c j 2) := rfl

theorem chunkSt_7 : chunkSt P c j 7 = iprop(qt P c (Kreg c j 3) 3
      ∗ (qt P c (Treg c j 2) 0 ∗ qt P c (Treg c j 2) 3)
      ∗ (qt P c (Treg c j 1) 0 ∗ qt P c (Treg c j 1) 1 ∗ qt P c (Treg c j 1) 3)
      ∗ (rsLanded P c j 0 false ∗ sendSt c j 0 0 false) ∗ (rsLanded P c j 1 false ∗ sendSt c j 0 1 false) ∗ (rsLanded P c j 2 false ∗ sendSt c j 0 2 false)
      ∗ (agLanded c j 0 ∗ sendSt c j 2 0 false) ∗ (agLanded c j 1 ∗ sendSt c j 2 1 false) ∗ (agSent c j 2 ∗ sendSt c j 2 2 false)) := rfl

theorem chunkSt_8 : chunkSt P c j 8 = iprop(qt P c (Kreg c j 3) 3
      ∗ (qt P c (Treg c j 2) 0 ∗ qt P c (Treg c j 2) 3)
      ∗ (qt P c (Treg c j 1) 0 ∗ qt P c (Treg c j 1) 1 ∗ qt P c (Treg c j 1) 3)
      ∗ (outLoc c ↦[Treg c j 0]{fullShare} finO P c)
      ∗ (rsLanded P c j 0 false ∗ sendSt c j 0 0 false) ∗ (rsLanded P c j 1 false ∗ sendSt c j 0 1 false) ∗ (rsLanded P c j 2 false ∗ sendSt c j 0 2 false)
      ∗ (agLanded c j 0 ∗ sendSt c j 2 0 false ∗ iprop(emp))
      ∗ (agLanded c j 1 ∗ sendSt c j 2 1 false ∗ iprop(emp))
      ∗ (agLanded c j 2 ∗ sendSt c j 2 2 false ∗ iprop(emp))) := rfl

theorem agPending_eq (t : Fin 3) : (agPending c j t : sProp 𝕄) = iprop(tokAG c j t ∗ posOf c j 2 t ∗ posOf c j 3 t ∗ credOf c j 3 t) := rfl
theorem agSent_eq (t : Fin 3) : (agSent c j t : sProp 𝕄) = iprop(posOf c j 3 t ∗ credOf c j 3 t) := rfl
theorem rsSent_eq (s : Fin 3) : (rsSent c j s : sProp 𝕄) = iprop(posOf c j 0 s ∗ posOf c j 1 s ∗ credOf c j 1 s ∗ credOf c j 0 s) := rfl
theorem sendSt_open (a : Fin 4) (s : Fin 3) : (sendSt c j a s false : sProp 𝕄) = iprop(posOf c j a s ∗ credOf c j a s) := rfl
theorem rsLanded_rows (s : Fin 3) : rsLanded P c j s true =
    iprop(zeroOf c j 1 s ∗ (∃ f : Buf (Elt F) (commLoc c), (commLoc c ↦[Creg c j s]{fullShare} f))
      ∗ (outLoc (pS c j s) ↦[PTreg c j s]{fullShare} accO P (pS c j s) j s.val)) := rfl

theorem amt_rs_recv (s : Fin 3) : amt j 1 s = crd (half j s) := by
  unfold amt; rw [if_pos (Or.inr rfl)]

theorem quarters (R : Finset (Idx (outLoc c))) :
    ((outLoc c ↦[R]{fullShare} finO P c : sProp 𝕄)) ⊣⊢ iprop(qt P c R 0 ∗ qt P c R 1 ∗ qt P c R 2 ∗ qt P c R 3) := by
  unfold qt
  show _ ⊣⊢ iprop((outLoc c ↦[R]{fullShare.left} finO P c) ∗ (outLoc c ↦[R]{fullShare.right.left} finO P c)
    ∗ (outLoc c ↦[R]{fullShare.right.right.left} finO P c) ∗ (outLoc c ↦[R]{fullShare.right.right.right} finO P c))
  refine (pointsTo_halves (outLoc c) R fullShare (finO P c)).trans ?_
  refine sep_congr_right ?_
  refine (pointsTo_halves (outLoc c) R fullShare.right (finO P c)).trans ?_
  refine sep_congr_right ?_
  exact pointsTo_halves (outLoc c) R fullShare.right.right (finO P c)

end AG

namespace AG

variable (P : Dev nD → Mat F) (c : Dev nD) (j : Fin 9)

theorem qt_join (s : Fin 3) (q : Fin 4) :
    iprop(qt P c (Kreg c j (s.val + 1)) q ∗ qt P c (Treg c j s) q) ⊢ qt P c (Kreg c j s.val) q := by
  unfold qt
  show iprop((outLoc c ↦[rowsO c (keptOff j (s.val + 1) c) (half j s)]{sh4 q} finO P c)
      ∗ (outLoc c ↦[rowsO c (sentOff j s c) (half j s)]{sh4 q} finO P c))
    ⊢ (outLoc c ↦[rowsO c (keptOff j s.val c) (rows j >>> s.val)]{sh4 q} finO P c)
  rw [kept_eq_union c j s]
  exact (pointsTo_union _ _ _ (kept_sent_disjoint c j s) _ _).mpr

theorem agRecvPay_eq (t s : Fin 3) (hs : s = rev t) :
    (agRecvPay P c j t : sProp 𝕄) = (outLoc c ↦[Treg c j s]{fullShare} finO P c) := by
  subst hs
  unfold agRecvPay
  rw [← half_rev]

theorem qt_join' (s : Fin 3) (q : Fin 4) (l l' : Nat) (hl : l = s.val + 1) (hl' : l' = s.val) :
    iprop(qt P c (Kreg c j l) q ∗ qt P c (Treg c j s) q) ⊢ qt P c (Kreg c j l') q := by
  subst hl hl'
  exact qt_join P c j s q

end AG

open AG

set_option maxHeartbeats 1600000 in

theorem step_last_halving (K : Dev nD × CK → ℕ) (c : Dev nD) (j : Fin 9)
    (h : Nat) (hh : h = half j 2)
    (semW : DmaSem sig) (hsemW : semW = xsem 1 j 2)
    (offWs : Fin 2 → Nat) (inbWs : ∀ a, offWs a + (Sh h).size a ≤ S1024x1024.size a)
    (offWd : Fin 2 → Nat) (inbWd : ∀ a, offWd a + (Sh h).size a ≤ S896x1024.size a)
    {hws : (outSl offWs h inbWs).view.WordExact} {hwd : (commSl offWd h inbWd).view.WordExact}
    (offK : Fin 2 → Nat) (hoffK : offK = ![keptOff j 3 c, 0]) (inbK : ∀ a, offK a + (Sh h).size a ≤ S1024x1024.size a)
    (offC : Fin 2 → Nat) (hoffC : offC = ![commOff j 2, 0]) (inbC : ∀ a, offC a + (Sh h).size a ≤ S896x1024.size a)
    {hl1 : outM.view.LoadsAt (Rect.unit (s := S1024x1024) offK (Sh h).size inbK).toLoadRect}
    {hl2 : commM.view.LoadsAt (Rect.unit (s := S896x1024) offC (Sh h).size inbC).toLoadRect}
    {hcast : (Sh h).ShapeCasts (Sh h)}
    {hst : (outM.access (Rect.unit (s := S1024x1024) offK (Sh h).size inbK)).Stores Finset.univ}
    {hm : (Finset.univ : Finset (Rect.unit (s := S1024x1024) offK (Sh h).size inbK).shape.Idx) = Finset.univ
      ∨ ∀ a, (Rect.unit (s := S1024x1024) offK (Sh h).size inbK).stride a = 1}
    (offS : Fin 2 → Nat) (hoffS : offS = ![keptOff j 3 c, 0]) (inbS : ∀ a, offS a + (Sh h).size a ≤ S1024x1024.size a)
    (dev : Dev nD) (hdev : dev = pT c j 0)
    (sS sR : DmaSem sig) (hsS : sS = xsem 2 j 0) (hsR : sR = xsem 3 j 0)
    {hsc : (outSl offS h inbS : Memref sig (Dev.tc dev : Thread nD τ).2.kind .vmem (Sh h) .f32).view.ref.isScScratch = false}
    {hsrc : (outSl offS h inbS).view.WordExact} {hdst : (outSl offS h inbS).view.WordExact}
    {hsem : DmaTarget.Typed .vmem (.dma sR) (.remote (Dev.tc dev : Thread nD τ) (outSl offS h inbS) (.dma sS) hsc)}
    {α : Type} {Q : α → sProp 𝕄}
    {k : Vec F (Sh h) .f32 → Vec F (Sh h) .f32 → Vec F (Sh h) .f32 → PUnit → Prog (TpuEff nD τ sig (Elt F) Λ₀ .tc) α}
    (σ : Fin 6) (hσ : σ = ⟨3 + (0 : Fin 3).val, by decide⟩)
    (O : CellTallies nD τ sig Unit)
    (hmw : (levAts L lv : sProp 𝕄) ⊢ MayWait (c : Thread nD τ) (.dma (xsem 1 j 2)) () (O + tallyAt (payCell c σ j) () (payAmt σ j))) :
    iprop(records m K ∗ levAts L lv ∗ chunkSt (part m) c j 4 ∗ (∃ W, owes (c : Thread nD τ) (O + tallyAt (payCell c σ j) () (payAmt σ j)) W))
      ⊢ iprop((∀ x y z, (chunkSt (part m) c j 5 ∗ (∃ W, owes (c : Thread nD τ) O W)) -∗ wp frame (wpE (defs₀ (F := F)) 𝒱₀ (c : Thread nD τ) none) Set.univ (k x y z ⟨⟩) Q)
          -∗ wp frame (wpE (defs₀ (F := F)) 𝒱₀ (c : Thread nD τ) none) Set.univ
            (.op (.waitDma2 semW (outSl offWs h inbWs) (commSl offWd h inbWd) hws hwd) fun _ =>
             .op (.load outM (Rect.unit (s := S1024x1024) offK (Sh h).size inbK).toLoadRect hl1) fun (x : Vec F (Sh h) .f32) =>
             .op (.load commM (Rect.unit (s := S896x1024) offC (Sh h).size inbC).toLoadRect hl2) fun (y : Vec F (Sh h) .f32) =>
             .op (.load outM (Rect.unit (s := S1024x1024) offK (Sh h).size inbK).toLoadRect hl1) fun (z : Vec F (Sh h) .f32) =>
             .op (.store outM (Rect.unit (s := S1024x1024) offK (Sh h).size inbK) (addf (shapeCast (s := Sh h) (Sh h) x hcast) y) Finset.univ hst hm) fun _ =>
             .op (.enqueueDma (outSl offS h inbS) (.remote (Dev.tc dev : Thread nD τ) (outSl offS h inbS) (.dma sS) hsc) (.dma sR) hsrc hdst hsem) (k x y z)) Q) := by
  subst hh hsemW hoffK hoffC hoffS hσ hdev hsS hsR
  rw [chunkSt_4, chunkSt_5, rsSent_eq, agPending_eq c j 0]
  iintro ⟨#Hrec, #Hlev, ⟨Hkept, HL0, HL1, ⟨Hp02, Hp12, Hc12, Hc02⟩, ⟨Htok0, Hp20, Hp30, Hc30⟩, Hag1, Hag2⟩, ⟨%W, HO⟩⟩ Hk

  ihave HIw := (records_inv m K (c, some (some (1, j, 2)))) $$ Hrec
  icases HIw with #HIw
  iapply (Rounds.wp_wait_rest_token 𝒱₀ ER (Rd (part m)) (c : Thread nD τ) none (κ := K (c, some (some (1, j, 2))))
      (wpE_waitDma2_eq 𝒱₀ (c : Thread nD τ) none Set.univ) (Set.mem_univ _) ()
      (O := O + tallyAt (payCell c ⟨3 + (0 : Fin 3).val, by decide⟩ j) () (payAmt ⟨3 + (0 : Fin 3).val, by decide⟩ j)) (W := W) (R := 0) (m := 0) (T := ∅)
      (by rw [Nat.zero_add]; exact ((expect_x (part m) 1 j 2 c).trans (amt_rs_recv j 2)).symm)) $$ [Hc12 HO Hp12]
  · isplitr; · iexact HIw
    isplitl [Hc12]; · unfold credOf; rw [amt_rs_recv]; iexact Hc12
    isplitl [HO]; · iexact HO
    isplitr; · iapply hmw; iexact Hlev
    unfold posOf; iexact Hp12
  iintro ⟨HO, Hat, -, Hpay⟩
  ihave Hp := (Entails.of_eq ((rest_x (part m) 1 j 2 c).trans (payload_rsRecv (part m) j 2 c 0 0))) $$ Hpay
  unfold rsRecvPay
  icases Hp with ⟨Hslab, Hprows⟩
  imod (Rounds.cell_close ER (Rd (part m)) (Set.mem_univ (K (c, some (some (1, j, 2))))) (not_unitless (part m) _) (R := 0 + 1)
      (duties_later (part m) (xCell 1 j 2 c))) $$ [Hat] with Hz
  · isplitr; · iexact HIw
    iexact Hat

  iapply (wp_load 𝒱₀ (c : Thread nD τ) none Set.univ (m := outM) (S := Kreg c j 3)
    (load_set_out c _ (keptOff j 3 c) (half j 2) rfl _).subset) $$ Hkept
  iintro Hkept
  iapply (wp_load 𝒱₀ (c : Thread nD τ) none Set.univ (m := commM) (S := Creg c j 2)
    (load_set_comm c _ (commOff j 2) (half j 2) rfl _).subset) $$ Hslab
  iintro Hslab
  iapply (wp_load 𝒱₀ (c : Thread nD τ) none Set.univ (m := outM) (S := Kreg c j 3)
    (load_set_out c _ (keptOff j 3 c) (half j 2) rfl _).subset) $$ Hkept
  iintro Hkept
  iapply (wp_store 𝒱₀ (c : Thread nD τ) none Set.univ (m := outM) (r := Rect.unit (s := S1024x1024) ![keptOff j 3 c, 0] (Sh (half j 2)).size inbK)
    (Mk := Finset.univ) (S := Kreg c j 3) (store_set_out c _ (keptOff j 3 c) (half j 2) rfl _).subset) $$ Hkept
  iintro Hkept

  ihave Hfin := (store_last (part m) c j inbK inbC hcast) $$ Hkept
  ihave Hq := (quarters (part m) c (Kreg c j 3)).mp $$ Hfin
  icases Hq with ⟨Hq0, Hq1, Hq2, Hq3⟩

  iapply (ag_send_core m K c j 0 _ rfl _ rfl inbS inbS _ rfl _ _ rfl rfl (accO (part m) (pT c j 0) j (rev 0).val) O
    (insert (SemLoc.dma (xsem 1 j 2), ()) W)) $$ [Hq0 Hprows Htok0 HO]
  · isplitr; · iexact Hrec
    isplitl [Hq0]; · unfold qt; iexact Hq0
    isplitl [Hprows]; · iexact Hprows
    isplitl [Htok0]; · iexact Htok0
    iexact HO
  iintro ⟨Hc20, HO⟩
  iapply Hk $$ %_ %_ %_
  isplitr [HO]
  · isplitl [Hq1 Hq2 Hq3]
    · isplitl [Hq1]; · iexact Hq1
      isplitl [Hq2]; · iexact Hq2
      iexact Hq3
    isplitl [HL0]; · iexact HL0
    isplitl [HL1]; · iexact HL1
    isplitl [Hz Hslab Hp02 Hc02]
    · isplitl [Hz Hslab]
      · unfold rsLanded zeroOf
        isplitl [Hz]; · iexact Hz
        isplitl [Hslab]; · iexists _; iexact Hslab
        iempintro
      · rw [sendSt_open]
        isplitl [Hp02]; · iexact Hp02
        iexact Hc02
    isplitl [Hp30 Hc30 Hp20 Hc20]
    · isplitl [Hp30 Hc30]
      · unfold agSent
        isplitl [Hp30]; · iexact Hp30
        iexact Hc30
      · rw [sendSt_open]
        isplitl [Hp20]; · iexact Hp20
        iexact Hc20
    isplitl [Hag1]; · iexact Hag1
    iexact Hag2
  · iexists _; iexact HO

set_option maxHeartbeats 1600000 in

theorem step_doubling0 (K : Dev nD × CK → ℕ) (c : Dev nD) (j : Fin 9)
    (h : Nat) (hh : h = rows j >>> 3)
    (semW : DmaSem sig) (hsemW : semW = xsem 3 j 0)
    (offWs : Fin 2 → Nat) (inbWs : ∀ a, offWs a + (Sh h).size a ≤ S1024x1024.size a)
    (offWd : Fin 2 → Nat) (inbWd : ∀ a, offWd a + (Sh h).size a ≤ S1024x1024.size a)
    {hws : (outSl offWs h inbWs).view.WordExact} {hwd : (outSl offWd h inbWd).view.WordExact}
    (h' : Nat) (hh' : h' = rows j >>> 2)
    (offS : Fin 2 → Nat) (hoffS : offS = ![keptOff j 2 c, 0]) (inbS : ∀ a, offS a + (Sh h').size a ≤ S1024x1024.size a)
    (dev : Dev nD) (hdev : dev = pT c j 1)
    (sS sR : DmaSem sig) (hsS : sS = xsem 2 j 1) (hsR : sR = xsem 3 j 1)
    {hsc : (outSl offS h' inbS : Memref sig (Dev.tc dev : Thread nD τ).2.kind .vmem (Sh h') .f32).view.ref.isScScratch = false}
    {hsrc : (outSl offS h' inbS).view.WordExact} {hdst : (outSl offS h' inbS).view.WordExact}
    {hsem : DmaTarget.Typed .vmem (.dma sR) (.remote (Dev.tc dev : Thread nD τ) (outSl offS h' inbS) (.dma sS) hsc)}
    {α : Type} {Q : α → sProp 𝕄} {k : PUnit → Prog (TpuEff nD τ sig (Elt F) Λ₀ .tc) α}
    (σ : Fin 6) (hσ : σ = ⟨3 + (1 : Fin 3).val, by decide⟩)
    (O : CellTallies nD τ sig Unit)
    (hmw : (levAts L lv : sProp 𝕄) ⊢ MayWait (c : Thread nD τ) (.dma (xsem 3 j 0)) () (O + tallyAt (payCell c σ j) () (payAmt σ j))) :
    iprop(records m K ∗ levAts L lv ∗ chunkSt (part m) c j 5 ∗ (∃ W, owes (c : Thread nD τ) (O + tallyAt (payCell c σ j) () (payAmt σ j)) W))
      ⊢ iprop(((chunkSt (part m) c j 6 ∗ (∃ W, owes (c : Thread nD τ) O W)) -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 semW (outSl offWs h inbWs) (outSl offWd h inbWd) hws hwd) fun _ =>
             .op (.enqueueDma (outSl offS h' inbS) (.remote (Dev.tc dev : Thread nD τ) (outSl offS h' inbS) (.dma sS) hsc) (.dma sR) hsrc hdst hsem) k) Q) := by
  subst hh hsemW hh' hoffS hσ hdev hsS hsR
  rw [chunkSt_5, chunkSt_6, agSent_eq c j 0, agPending_eq c j 1, rsLanded_rows (part m) c j 1]
  iintro ⟨#Hrec, #Hlev, ⟨⟨Hk1, Hk2, Hk3⟩, HL0, ⟨⟨Hz11, Hslab1, Hprows⟩, Hs01⟩, HL2, ⟨⟨Hp30, Hc30⟩, Hs20⟩, ⟨Htok1, Hp21, Hp31, Hc31⟩, Hag2⟩, ⟨%W, HO⟩⟩ Hk

  ihave HIw := (records_inv m K (c, some (some (3, j, 0)))) $$ Hrec
  icases HIw with #HIw
  iapply (Rounds.wp_wait_rest_token 𝒱₀ ER (Rd (part m)) (c : Thread nD τ) none (κ := K (c, some (some (3, j, 0))))
      (wpE_waitDma2_eq 𝒱₀ (c : Thread nD τ) none Set.univ) (Set.mem_univ _) ()
      (O := O + tallyAt (payCell c ⟨3 + (1 : Fin 3).val, by decide⟩ j) () (payAmt ⟨3 + (1 : Fin 3).val, by decide⟩ j)) (W := W) (R := 0) (m := 0) (T := ∅)
      (by rw [Nat.zero_add]; exact ((expect_x (part m) 3 j 0 c).trans (amt_ag_recv j 0)).symm)) $$ [Hc30 HO Hp30]
  · isplitr; · iexact HIw
    isplitl [Hc30]; · unfold credOf; rw [amt_ag_recv]; iexact Hc30
    isplitl [HO]; · iexact HO
    isplitr; · iapply hmw; iexact Hlev
    unfold posOf; iexact Hp30
  iintro ⟨HO, Hat, -, Hpay⟩
  ihave Hp := (Entails.of_eq ((rest_x (part m) 3 j 0 c).trans ((payload_agRecv (part m) j 0 c 0 0).trans (agRecvPay_eq (part m) c j 0 2 rfl)))) $$ Hpay
  imod (Rounds.cell_close ER (Rd (part m)) (Set.mem_univ (K (c, some (some (3, j, 0))))) (not_unitless (part m) _) (R := 0 + 1)
      (duties_later (part m) (xCell 3 j 0 c))) $$ [Hat] with Hz
  · isplitr; · iexact HIw
    iexact Hat
  ihave Hq := (quarters (part m) c (Treg c j 2)).mp $$ Hp
  icases Hq with ⟨Ht0, Ht1, Ht2, Ht3⟩

  ihave Hsrc := (qt_join' (part m) c j 2 1 3 2 rfl rfl) $$ [Hk1 Ht1]
  · isplitl [Hk1]; · iexact Hk1
    iexact Ht1
  iapply (ag_send_core m K c j 1 _ rfl _ rfl inbS inbS _ rfl _ _ rfl rfl (accO (part m) (pT c j 1) j (rev 1).val) O
    (insert (SemLoc.dma (xsem 3 j 0), ()) W)) $$ [Hsrc Hprows Htok1 HO]
  · isplitr; · iexact Hrec
    isplitl [Hsrc]; · unfold qt; iexact Hsrc
    isplitl [Hprows]; · iexact Hprows
    isplitl [Htok1]; · iexact Htok1
    iexact HO
  iintro ⟨Hc21, HO⟩
  iapply Hk
  isplitr [HO]
  · isplitl [Hk2 Hk3]
    · isplitl [Hk2]; · iexact Hk2
      iexact Hk3
    isplitl [Ht0 Ht2 Ht3]
    · isplitl [Ht0]; · iexact Ht0
      isplitl [Ht2]; · iexact Ht2
      iexact Ht3
    isplitl [HL0]; · iexact HL0
    isplitl [Hz11 Hslab1 Hs01]
    · isplitl [Hz11 Hslab1]
      · unfold rsLanded
        isplitl [Hz11]; · iexact Hz11
        isplitl [Hslab1]; · iexact Hslab1
        iempintro
      · iexact Hs01
    isplitl [HL2]; · iexact HL2
    isplitl [Hz Hs20]
    · isplitl [Hz]; · unfold agLanded zeroOf; iexact Hz
      iexact Hs20
    isplitl [Hp31 Hc31 Hp21 Hc21]
    · isplitl [Hp31 Hc31]
      · unfold agSent
        isplitl [Hp31]; · iexact Hp31
        iexact Hc31
      · rw [sendSt_open]
        isplitl [Hp21]; · iexact Hp21
        iexact Hc21
    iexact Hag2
  · iexists _; iexact HO

set_option maxHeartbeats 1600000 in

theorem step_doubling1 (K : Dev nD × CK → ℕ) (c : Dev nD) (j : Fin 9)
    (h : Nat) (hh : h = rows j >>> 2)
    (semW : DmaSem sig) (hsemW : semW = xsem 3 j 1)
    (offWs : Fin 2 → Nat) (inbWs : ∀ a, offWs a + (Sh h).size a ≤ S1024x1024.size a)
    (offWd : Fin 2 → Nat) (inbWd : ∀ a, offWd a + (Sh h).size a ≤ S1024x1024.size a)
    {hws : (outSl offWs h inbWs).view.WordExact} {hwd : (outSl offWd h inbWd).view.WordExact}
    (h' : Nat) (hh' : h' = rows j >>> 1)
    (offS : Fin 2 → Nat) (hoffS : offS = ![keptOff j 1 c, 0]) (inbS : ∀ a, offS a + (Sh h').size a ≤ S1024x1024.size a)
    (dev : Dev nD) (hdev : dev = pT c j 2)
    (sS sR : DmaSem sig) (hsS : sS = xsem 2 j 2) (hsR : sR = xsem 3 j 2)
    {hsc : (outSl offS h' inbS : Memref sig (Dev.tc dev : Thread nD τ).2.kind .vmem (Sh h') .f32).view.ref.isScScratch = false}
    {hsrc : (outSl offS h' inbS).view.WordExact} {hdst : (outSl offS h' inbS).view.WordExact}
    {hsem : DmaTarget.Typed .vmem (.dma sR) (.remote (Dev.tc dev : Thread nD τ) (outSl offS h' inbS) (.dma sS) hsc)}
    {α : Type} {Q : α → sProp 𝕄} {k : PUnit → Prog (TpuEff nD τ sig (Elt F) Λ₀ .tc) α}
    (σ : Fin 6) (hσ : σ = ⟨3 + (2 : Fin 3).val, by decide⟩)
    (O : CellTallies nD τ sig Unit)
    (hmw : (levAts L lv : sProp 𝕄) ⊢ MayWait (c : Thread nD τ) (.dma (xsem 3 j 1)) () (O + tallyAt (payCell c σ j) () (payAmt σ j))) :
    iprop(records m K ∗ levAts L lv ∗ chunkSt (part m) c j 6 ∗ (∃ W, owes (c : Thread nD τ) (O + tallyAt (payCell c σ j) () (payAmt σ j)) W))
      ⊢ iprop(((chunkSt (part m) c j 7 ∗ (∃ W, owes (c : Thread nD τ) O W)) -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 semW (outSl offWs h inbWs) (outSl offWd h inbWd) hws hwd) fun _ =>
             .op (.enqueueDma (outSl offS h' inbS) (.remote (Dev.tc dev : Thread nD τ) (outSl offS h' inbS) (.dma sS) hsc) (.dma sR) hsrc hdst hsem) k) Q) := by
  subst hh hsemW hh' hoffS hσ hdev hsS hsR
  rw [chunkSt_6, chunkSt_7, agSent_eq c j 1, agPending_eq c j 2, rsLanded_rows (part m) c j 0]
  iintro ⟨#Hrec, #Hlev, ⟨⟨Hk2, Hk3⟩, ⟨Hu0, Hu2, Hu3⟩, ⟨⟨Hz10, Hslab0, Hprows⟩, Hs00⟩, HL1, HL2, HA0, ⟨⟨Hp31, Hc31⟩, Hs21⟩, ⟨Htok2, Hp22, Hp32, Hc32⟩⟩, ⟨%W, HO⟩⟩ Hk

  ihave HIw := (records_inv m K (c, some (some (3, j, 1)))) $$ Hrec
  icases HIw with #HIw
  iapply (Rounds.wp_wait_rest_token 𝒱₀ ER (Rd (part m)) (c : Thread nD τ) none (κ := K (c, some (some (3, j, 1))))
      (wpE_waitDma2_eq 𝒱₀ (c : Thread nD τ) none Set.univ) (Set.mem_univ _) ()
      (O := O + tallyAt (payCell c ⟨3 + (2 : Fin 3).val, by decide⟩ j) () (payAmt ⟨3 + (2 : Fin 3).val, by decide⟩ j)) (W := W) (R := 0) (m := 0) (T := ∅)
      (by rw [Nat.zero_add]; exact ((expect_x (part m) 3 j 1 c).trans (amt_ag_recv j 1)).symm)) $$ [Hc31 HO Hp31]
  · isplitr; · iexact HIw
    isplitl [Hc31]; · unfold credOf; rw [amt_ag_recv]; iexact Hc31
    isplitl [HO]; · iexact HO
    isplitr; · iapply hmw; iexact Hlev
    unfold posOf; iexact Hp31
  iintro ⟨HO, Hat, -, Hpay⟩
  ihave Hp := (Entails.of_eq ((rest_x (part m) 3 j 1 c).trans ((payload_agRecv (part m) j 1 c 0 0).trans (agRecvPay_eq (part m) c j 1 1 rfl)))) $$ Hpay
  imod (Rounds.cell_close ER (Rd (part m)) (Set.mem_univ (K (c, some (some (3, j, 1))))) (not_unitless (part m) _) (R := 0 + 1)
      (duties_later (part m) (xCell 3 j 1 c))) $$ [Hat] with Hz
  · isplitr; · iexact HIw
    iexact Hat
  ihave Hq := (quarters (part m) c (Treg c j 1)).mp $$ Hp
  icases Hq with ⟨Ht0, Ht1, Ht2, Ht3⟩

  ihave Hsrc2 := (qt_join' (part m) c j 2 2 3 2 rfl rfl) $$ [Hk2 Hu2]
  · isplitl [Hk2]; · iexact Hk2
    iexact Hu2
  ihave Hsrc := (qt_join' (part m) c j 1 2 2 1 rfl rfl) $$ [Hsrc2 Ht2]
  · isplitl [Hsrc2]; · iexact Hsrc2
    iexact Ht2
  iapply (ag_send_core m K c j 2 _ rfl _ rfl inbS inbS _ rfl _ _ rfl rfl (accO (part m) (pT c j 2) j (rev 2).val) O
    (insert (SemLoc.dma (xsem 3 j 1), ()) W)) $$ [Hsrc Hprows Htok2 HO]
  · isplitr; · iexact Hrec
    isplitl [Hsrc]; · unfold qt; iexact Hsrc
    isplitl [Hprows]; · iexact Hprows
    isplitl [Htok2]; · iexact Htok2
    iexact HO
  iintro ⟨Hc22, HO⟩
  iapply Hk
  isplitr [HO]
  · isplitl [Hk3]; · iexact Hk3
    isplitl [Hu0 Hu3]
    · isplitl [Hu0]; · iexact Hu0
      iexact Hu3
    isplitl [Ht0 Ht1 Ht3]
    · isplitl [Ht0]; · iexact Ht0
      isplitl [Ht1]; · iexact Ht1
      iexact Ht3
    isplitl [Hz10 Hslab0 Hs00]
    · isplitl [Hz10 Hslab0]
      · unfold rsLanded
        isplitl [Hz10]; · iexact Hz10
        isplitl [Hslab0]; · iexact Hslab0
        iempintro
      · iexact Hs00
    isplitl [HL1]; · iexact HL1
    isplitl [HL2]; · iexact HL2
    isplitl [HA0]; · iexact HA0
    isplitl [Hz Hs21]
    · isplitl [Hz]; · unfold agLanded zeroOf; iexact Hz
      iexact Hs21
    · isplitl [Hp32 Hc32]
      · unfold agSent
        isplitl [Hp32]; · iexact Hp32
        iexact Hc32
      · rw [sendSt_open]
        isplitl [Hp22]; · iexact Hp22
        iexact Hc22
  · iexists _; iexact HO

set_option maxHeartbeats 1600000 in

theorem step_doubling (K : Dev nD × CK → ℕ) (c : Dev nD) (j : Fin 9) (t : Fin 2)
    (h : Nat) (hh : h = rows j >>> (3 - t.val))
    (semW : DmaSem sig) (hsemW : semW = xsem 3 j ⟨t.val, by have := t.isLt; omega⟩)
    (offWs : Fin 2 → Nat) (inbWs : ∀ a, offWs a + (Sh h).size a ≤ S1024x1024.size a)
    (offWd : Fin 2 → Nat) (inbWd : ∀ a, offWd a + (Sh h).size a ≤ S1024x1024.size a)
    {hws : (outSl offWs h inbWs).view.WordExact} {hwd : (outSl offWd h inbWd).view.WordExact}
    (h' : Nat) (hh' : h' = rows j >>> (2 - t.val))
    (offS : Fin 2 → Nat) (hoffS : offS = ![keptOff j (2 - t.val) c, 0]) (inbS : ∀ a, offS a + (Sh h').size a ≤ S1024x1024.size a)
    (dev : Dev nD) (hdev : dev = pT c j ⟨t.val + 1, by have := t.isLt; omega⟩)
    (sS sR : DmaSem sig) (hsS : sS = xsem 2 j ⟨t.val + 1, by have := t.isLt; omega⟩) (hsR : sR = xsem 3 j ⟨t.val + 1, by have := t.isLt; omega⟩)
    {hsc : (outSl offS h' inbS : Memref sig (Dev.tc dev : Thread nD τ).2.kind .vmem (Sh h') .f32).view.ref.isScScratch = false}
    {hsrc : (outSl offS h' inbS).view.WordExact} {hdst : (outSl offS h' inbS).view.WordExact}
    {hsem : DmaTarget.Typed .vmem (.dma sR) (.remote (Dev.tc dev : Thread nD τ) (outSl offS h' inbS) (.dma sS) hsc)}
    {α : Type} {Q : α → sProp 𝕄} {k : PUnit → Prog (TpuEff nD τ sig (Elt F) Λ₀ .tc) α}
    (σ : Fin 6) (hσ : σ = ⟨3 + (t.val + 1), by have := t.isLt; omega⟩)
    (O : CellTallies nD τ sig Unit)
    (hmw : (levAts L lv : sProp 𝕄) ⊢ MayWait (c : Thread nD τ) (.dma (xsem 3 j ⟨t.val, by have := t.isLt; omega⟩)) () (O + tallyAt (payCell c σ j) () (payAmt σ j))) :
    iprop(records m K ∗ levAts L lv ∗ chunkSt (part m) c j (5 + t.val) ∗ (∃ W, owes (c : Thread nD τ) (O + tallyAt (payCell c σ j) () (payAmt σ j)) W))
      ⊢ iprop(((chunkSt (part m) c j (6 + t.val) ∗ (∃ W, owes (c : Thread nD τ) O W)) -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 semW (outSl offWs h inbWs) (outSl offWd h inbWd) hws hwd) fun _ =>
             .op (.enqueueDma (outSl offS h' inbS) (.remote (Dev.tc dev : Thread nD τ) (outSl offS h' inbS) (.dma sS) hsc) (.dma sR) hsrc hdst hsem) k) Q) := by
  match t with
  | ⟨0, _⟩ => exact step_doubling0 m K c j h hh semW hsemW offWs inbWs offWd inbWd h' hh' offS hoffS inbS dev hdev sS sR hsS hsR σ hσ O hmw
  | ⟨1, _⟩ => exact step_doubling1 m K c j h hh semW hsemW offWs inbWs offWd inbWd h' hh' offS hoffS inbS dev hdev sS sR hsS hsR σ hσ O hmw

set_option maxHeartbeats 1600000 in

theorem step_last_landing (K : Dev nD × CK → ℕ) (c : Dev nD) (j : Fin 9)
    (h : Nat) (hh : h = rows j >>> 1)
    (semW : DmaSem sig) (hsemW : semW = xsem 3 j 2)
    (offWs : Fin 2 → Nat) (inbWs : ∀ a, offWs a + (Sh h).size a ≤ S1024x1024.size a)
    (offWd : Fin 2 → Nat) (inbWd : ∀ a, offWd a + (Sh h).size a ≤ S1024x1024.size a)
    {hws : (outSl offWs h inbWs).view.WordExact} {hwd : (outSl offWd h inbWd).view.WordExact}
    {α : Type} {Q : α → sProp 𝕄} {k : PUnit → Prog (TpuEff nD τ sig (Elt F) Λ₀ .tc) α}
    (O : CellTallies nD τ sig Unit)
    (hmw : (levAts L lv : sProp 𝕄) ⊢ MayWait (c : Thread nD τ) (.dma (xsem 3 j 2)) () O) :
    iprop(records m K ∗ levAts L lv ∗ chunkSt (part m) c j 7 ∗ (∃ W, owes (c : Thread nD τ) O W))
      ⊢ iprop(((chunkSt (part m) c j 8 ∗ (∃ W, owes (c : Thread nD τ) O W)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 semW (outSl offWs h inbWs) (outSl offWd h inbWd) hws hwd) k) Q) := by
  subst hh hsemW
  rw [chunkSt_7, chunkSt_8, agSent_eq c j 2]
  iintro ⟨#Hrec, #Hlev, ⟨Hk3, HU, HT, HL0, HL1, HL2, ⟨HA0, Hs20⟩, ⟨HA1, Hs21⟩, ⟨⟨Hp32, Hc32⟩, Hs22⟩⟩, ⟨%W, HO⟩⟩ Hk

  ihave HIw := (records_inv m K (c, some (some (3, j, 2)))) $$ Hrec
  icases HIw with #HIw
  iapply (Rounds.wp_wait_rest_token 𝒱₀ ER (Rd (part m)) (c : Thread nD τ) none (κ := K (c, some (some (3, j, 2))))
      (wpE_waitDma2_eq 𝒱₀ (c : Thread nD τ) none Set.univ) (Set.mem_univ _) ()
      (O := O) (W := W) (R := 0) (m := 0) (T := ∅)
      (by rw [Nat.zero_add]; exact ((expect_x (part m) 3 j 2 c).trans (amt_ag_recv j 2)).symm)) $$ [Hc32 HO Hp32]
  · isplitr; · iexact HIw
    isplitl [Hc32]; · unfold credOf; rw [amt_ag_recv]; iexact Hc32
    isplitl [HO]; · iexact HO
    isplitr; · iapply hmw; iexact Hlev
    unfold posOf; iexact Hp32
  iintro ⟨HO, Hat, -, Hpay⟩
  ihave Hp := (Entails.of_eq ((rest_x (part m) 3 j 2 c).trans ((payload_agRecv (part m) j 2 c 0 0).trans (agRecvPay_eq (part m) c j 2 0 rfl)))) $$ Hpay
  imod (Rounds.cell_close ER (Rd (part m)) (Set.mem_univ (K (c, some (some (3, j, 2))))) (not_unitless (part m) _) (R := 0 + 1)
      (duties_later (part m) (xCell 3 j 2 c))) $$ [Hat] with Hz
  · isplitr; · iexact HIw
    iexact Hat
  iapply Hk
  isplitr [HO]
  · isplitl [Hk3]; · iexact Hk3
    isplitl [HU]; · iexact HU
    isplitl [HT]; · iexact HT
    isplitl [Hp]; · iexact Hp
    isplitl [HL0]; · iexact HL0
    isplitl [HL1]; · iexact HL1
    isplitl [HL2]; · iexact HL2
    isplitl [HA0 Hs20]
    · isplitl [HA0]; · iexact HA0
      isplitl [Hs20]; · iexact Hs20
      iempintro
    isplitl [HA1 Hs21]
    · isplitl [HA1]; · iexact HA1
      isplitl [Hs21]; · iexact Hs21
      iempintro
    · isplitl [Hz]; · unfold agLanded zeroOf; iexact Hz
      isplitl [Hs22]; · iexact Hs22
      iempintro
  · iexists _; iexact HO

end Cert.KernelIdeal.Bfly

end
-- ==== Proof.StepWSIdeal.lean ====
import proofs.«900883_g7700000000000884_dist_matmul_k_i_m1024_n1024_k512_v7x_i8_f32_1_alg».proof.Proof.BodyDefsIdeal
import proofs.«900883_g7700000000000884_dist_matmul_k_i_m1024_n1024_k512_v7x_i8_f32_1_alg».proof.Proof.TablesIdeal

noncomputable section

namespace Cert.KernelIdeal.Bfly

open Cert.KernelIdeal Cert.KernelIdeal.Gen Cert.Butterfly
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem ws_inv_at (K : Dev nD × CK → ℕ) (ck : Dev nD × CK) :
    (bigSep Finset.univ fun ck : Dev nD × CK => (cellInv ER (Rd (part m)) (K ck) (kcell ck) : sProp 𝕄)) ⊢ cellInv ER (Rd (part m)) (K ck) (kcell ck) :=
  bigSep_elim (Finset.mem_univ ck)

theorem ws_records_cell (K : Dev nD × CK → ℕ) (c : Dev nD) (a : Fin 4) (j : Fin 9) (s : Fin 3) :
    (records m K : sProp 𝕄) ⊢ cellInv ER (Rd (part m)) (K (c, some (some (a, j, s)))) (xCell a j s c) := by
  unfold records
  iintro ⟨#H, -⟩
  iapply (ws_inv_at m K (c, some (some (a, j, s))))
  iexact H

theorem sendSt_open (c : Dev nD) (j : Fin 9) (a : Fin 4) (s : Fin 3) :
    (sendSt c j a s false : sProp 𝕄) = iprop(posOf c j a s ∗ credOf c j a s) := rfl
theorem sendSt_closed (c : Dev nD) (j : Fin 9) (a : Fin 4) (s : Fin 3) :
    (sendSt c j a s true : sProp 𝕄) = zeroOf c j a s := rfl

theorem wait_send_cell (K : Dev nD × CK → ℕ) (c : Dev nD) (j : Fin 9) (a : Fin 4) (s : Fin 3)
    (sem : DmaSem sig) (hsem : sem = xsem a j s)
    {sp sp' : Space} {sh sh' : Shape} {e e' : EltTy} {κ' : Kind}
    (src : Memref sig .tc sp' sh' e') (dst : Memref sig κ' sp sh e) (hcr : dst.view.dmaCredit = amt j a s)
    {hsrc : src.view.WordExact} {hdst : dst.view.WordExact}
    {α : Type} {Q : α → sProp 𝕄} {k : PUnit → Prog (TpuEff nD τ sig (Elt F) Λ₀ .tc) α}
    (O : CellTallies nD τ sig Unit)
    (hmw : (levAts L lv : sProp 𝕄) ⊢ MayWait (c : Thread nD τ) (.dma (xsem a j s)) () O)
    (Pay : sProp 𝕄) (hpay : (Rd (part m)).payload (xCell a j s c) 0 0 = Pay) :
    iprop(records m K ∗ levAts L lv ∗ sendSt c j a s false ∗ (∃ W, owes (c : Thread nD τ) O W))
      ⊢ iprop(((sendSt c j a s true ∗ Pay ∗ (∃ W, owes (c : Thread nD τ) O W))
            -∗ wp frame (wpE (defs₀ (F := F)) 𝒱₀ c none) Set.univ (k ⟨⟩) Q)
          -∗ wp frame (wpE (defs₀ (F := F)) 𝒱₀ c none) Set.univ (Prog.op (.waitDma2 sem src dst hsrc hdst) k) Q) := by
  subst hsem
  subst hpay
  rw [sendSt_open, sendSt_closed]
  unfold posOf credOf zeroOf
  rw [← hcr]
  iintro ⟨#Hrec, #Hlev, ⟨Hat, Hcr⟩, ⟨%W, HO⟩⟩ Hk
  ihave #HI := (ws_records_cell m K c a j s) $$ Hrec
  iapply (Rounds.wp_wait_rest_token 𝒱₀ ER (Rd (part m)) (c : Thread nD τ) none (κ := K (c, some (some (a, j, s))))
      (wpE_waitDma2_eq 𝒱₀ (c : Thread nD τ) none Set.univ) (Set.mem_univ _) () (O := O) (W := W) (R := 0) (m := 0) (T := ∅)
      (by rw [Nat.zero_add, expect_x]; exact hcr)) $$ [Hcr HO Hat]
  · isplitr; · iexact HI
    isplitl [Hcr]; · iexact Hcr
    isplitl [HO]; · iexact HO
    isplitr; · iapply hmw; iexact Hlev
    iexact Hat
  iintro ⟨HO, Hat, -, Hpay⟩
  ihave Hp := (Entails.of_eq (rest_x (part m) a j s c)) $$ Hpay
  imod (Rounds.cell_close ER (Rd (part m)) (Set.mem_univ (K (c, some (some (a, j, s))))) (not_unitless (part m) _) (R := 0 + 1)
    (duties_later (part m) (xCell a j s c))) $$ [$] with Hz
  iapply Hk
  isplitl [Hz]; · iexact Hz
  isplitl [Hp]; · iexact Hp
  iexists _
  iexact HO

def tailSt (P : Dev nD → Mat F) (c : Dev nD) (j : Fin 9) (b0 b1 b2 b3 b4 b5 : Bool) (X0 X1 X2 : sProp 𝕄) : sProp 𝕄 :=
  iprop(qt P c (Kreg c j 3) 3
      ∗ (qt P c (Treg c j 2) 0 ∗ qt P c (Treg c j 2) 3)
      ∗ (qt P c (Treg c j 1) 0 ∗ qt P c (Treg c j 1) 1 ∗ qt P c (Treg c j 1) 3)
      ∗ (outLoc c ↦[Treg c j 0]{fullShare} finO P c)
      ∗ (rsLanded P c j 0 false ∗ sendSt c j 0 0 b0) ∗ (rsLanded P c j 1 false ∗ sendSt c j 0 1 b1) ∗ (rsLanded P c j 2 false ∗ sendSt c j 0 2 b2)
      ∗ (agLanded c j 0 ∗ sendSt c j 2 0 b3 ∗ X0)
      ∗ (agLanded c j 1 ∗ sendSt c j 2 1 b4 ∗ X1)
      ∗ (agLanded c j 2 ∗ sendSt c j 2 2 b5 ∗ X2))

section Phases
variable (P : Dev nD → Mat F) (c : Dev nD) (j : Fin 9)
theorem chunkSt_8 : chunkSt P c j 8 = tailSt P c j false false false false false false iprop(emp) iprop(emp) iprop(emp) := rfl
theorem chunkSt_9 : chunkSt P c j 9 = tailSt P c j true false false false false false iprop(emp) iprop(emp) iprop(emp) := rfl
theorem chunkSt_10 : chunkSt P c j 10 = tailSt P c j true true false false false false iprop(emp) iprop(emp) iprop(emp) := rfl
theorem chunkSt_11 : chunkSt P c j 11 = tailSt P c j true true true false false false iprop(emp) iprop(emp) iprop(emp) := rfl
theorem chunkSt_12 : chunkSt P c j 12 = tailSt P c j true true true true false false (qt P c (Kreg c j 3) 0) iprop(emp) iprop(emp) := rfl
theorem chunkSt_13 : chunkSt P c j 13 = tailSt P c j true true true true true false (qt P c (Kreg c j 3) 0) (qt P c (Kreg c j 2) 1) iprop(emp) := rfl
theorem chunkSt_14 : chunkSt P c j 14 = tailSt P c j true true true true true true (qt P c (Kreg c j 3) 0) (qt P c (Kreg c j 2) 1) (qt P c (Kreg c j 1) 2) := rfl

theorem agSendPay_0 : agSendPay P c j 0 = qt P c (Kreg c j 3) 0 := rfl
theorem agSendPay_1 : agSendPay P c j 1 = qt P c (Kreg c j 2) 1 := rfl
theorem agSendPay_2 : agSendPay P c j 2 = qt P c (Kreg c j 1) 2 := rfl
end Phases

theorem step_wait_send_0 (K : Dev nD × CK → ℕ) (c : Dev nD) (j : Fin 9)
    (sem : DmaSem sig) (hsem : sem = xsem 0 j 0)
    {sp sp' : Space} {sh sh' : Shape} {e e' : EltTy} {κ' : Kind}
    (src : Memref sig .tc sp' sh' e') (dst : Memref sig κ' sp sh e) (hcr : dst.view.dmaCredit = amt j 0 0)
    {hsrc : src.view.WordExact} {hdst : dst.view.WordExact}
    {α : Type} {Q : α → sProp 𝕄} {k : PUnit → Prog (TpuEff nD τ sig (Elt F) Λ₀ .tc) α}
    (O : CellTallies nD τ sig Unit)
    (hmw : (levAts L lv : sProp 𝕄) ⊢ MayWait (c : Thread nD τ) (.dma (xsem 0 j 0)) () O) :
    iprop(records m K ∗ levAts L lv ∗ chunkSt (part m) c j 8 ∗ (∃ W, owes (c : Thread nD τ) O W))
      ⊢ iprop(((chunkSt (part m) c j 9 ∗ (∃ W, owes (c : Thread nD τ) O W)) -∗ wp frame (wpE (defs₀ (F := F)) 𝒱₀ c none) Set.univ (k ⟨⟩) Q)
          -∗ wp frame (wpE (defs₀ (F := F)) 𝒱₀ c none) Set.univ (Prog.op (.waitDma2 sem src dst hsrc hdst) k) Q) := by
  rw [chunkSt_8, chunkSt_9]
  unfold tailSt
  iintro ⟨#Hrec, #Hlev, ⟨H1, H2, H3, H4, ⟨Hl0, Hs0⟩, ⟨Hl1, Hs1⟩, ⟨Hl2, Hs2⟩, ⟨Hl3, Hs3, Hq3⟩, ⟨Hl4, Hs4, Hq4⟩, Hl5, Hs5, Hq5⟩, HO⟩ Hk
  iapply (wait_send_cell m K c j 0 0 sem hsem src dst hcr O hmw iprop(emp) (payload_rsSend (part m) j 0 c 0 0)) $$ [$]
  iintro ⟨Hs0, -, HO⟩
  iapply Hk
  iframe

theorem step_wait_send_1 (K : Dev nD × CK → ℕ) (c : Dev nD) (j : Fin 9)
    (sem : DmaSem sig) (hsem : sem = xsem 0 j 1)
    {sp sp' : Space} {sh sh' : Shape} {e e' : EltTy} {κ' : Kind}
    (src : Memref sig .tc sp' sh' e') (dst : Memref sig κ' sp sh e) (hcr : dst.view.dmaCredit = amt j 0 1)
    {hsrc : src.view.WordExact} {hdst : dst.view.WordExact}
    {α : Type} {Q : α → sProp 𝕄} {k : PUnit → Prog (TpuEff nD τ sig (Elt F) Λ₀ .tc) α}
    (O : CellTallies nD τ sig Unit)
    (hmw : (levAts L lv : sProp 𝕄) ⊢ MayWait (c : Thread nD τ) (.dma (xsem 0 j 1)) () O) :
    iprop(records m K ∗ levAts L lv ∗ chunkSt (part m) c j 9 ∗ (∃ W, owes (c : Thread nD τ) O W))
      ⊢ iprop(((chunkSt (part m) c j 10 ∗ (∃ W, owes (c : Thread nD τ) O W)) -∗ wp frame (wpE (defs₀ (F := F)) 𝒱₀ c none) Set.univ (k ⟨⟩) Q)
          -∗ wp frame (wpE (defs₀ (F := F)) 𝒱₀ c none) Set.univ (Prog.op (.waitDma2 sem src dst hsrc hdst) k) Q) := by
  rw [chunkSt_9, chunkSt_10]
  unfold tailSt
  iintro ⟨#Hrec, #Hlev, ⟨H1, H2, H3, H4, ⟨Hl0, Hs0⟩, ⟨Hl1, Hs1⟩, ⟨Hl2, Hs2⟩, ⟨Hl3, Hs3, Hq3⟩, ⟨Hl4, Hs4, Hq4⟩, Hl5, Hs5, Hq5⟩, HO⟩ Hk
  iapply (wait_send_cell m K c j 0 1 sem hsem src dst hcr O hmw iprop(emp) (payload_rsSend (part m) j 1 c 0 0)) $$ [$]
  iintro ⟨Hs1, -, HO⟩
  iapply Hk
  iframe

theorem step_wait_send_2 (K : Dev nD × CK → ℕ) (c : Dev nD) (j : Fin 9)
    (sem : DmaSem sig) (hsem : sem = xsem 0 j 2)
    {sp sp' : Space} {sh sh' : Shape} {e e' : EltTy} {κ' : Kind}
    (src : Memref sig .tc sp' sh' e') (dst : Memref sig κ' sp sh e) (hcr : dst.view.dmaCredit = amt j 0 2)
    {hsrc : src.view.WordExact} {hdst : dst.view.WordExact}
    {α : Type} {Q : α → sProp 𝕄} {k : PUnit → Prog (TpuEff nD τ sig (Elt F) Λ₀ .tc) α}
    (O : CellTallies nD τ sig Unit)
    (hmw : (levAts L lv : sProp 𝕄) ⊢ MayWait (c : Thread nD τ) (.dma (xsem 0 j 2)) () O) :
    iprop(records m K ∗ levAts L lv ∗ chunkSt (part m) c j 10 ∗ (∃ W, owes (c : Thread nD τ) O W))
      ⊢ iprop(((chunkSt (part m) c j 11 ∗ (∃ W, owes (c : Thread nD τ) O W)) -∗ wp frame (wpE (defs₀ (F := F)) 𝒱₀ c none) Set.univ (k ⟨⟩) Q)
          -∗ wp frame (wpE (defs₀ (F := F)) 𝒱₀ c none) Set.univ (Prog.op (.waitDma2 sem src dst hsrc hdst) k) Q) := by
  rw [chunkSt_10, chunkSt_11]
  unfold tailSt
  iintro ⟨#Hrec, #Hlev, ⟨H1, H2, H3, H4, ⟨Hl0, Hs0⟩, ⟨Hl1, Hs1⟩, ⟨Hl2, Hs2⟩, ⟨Hl3, Hs3, Hq3⟩, ⟨Hl4, Hs4, Hq4⟩, Hl5, Hs5, Hq5⟩, HO⟩ Hk
  iapply (wait_send_cell m K c j 0 2 sem hsem src dst hcr O hmw iprop(emp) (payload_rsSend (part m) j 2 c 0 0)) $$ [$]
  iintro ⟨Hs2, -, HO⟩
  iapply Hk
  iframe

theorem step_wait_send_3 (K : Dev nD × CK → ℕ) (c : Dev nD) (j : Fin 9)
    (sem : DmaSem sig) (hsem : sem = xsem 2 j 0)
    {sp sp' : Space} {sh sh' : Shape} {e e' : EltTy} {κ' : Kind}
    (src : Memref sig .tc sp' sh' e') (dst : Memref sig κ' sp sh e) (hcr : dst.view.dmaCredit = amt j 2 0)
    {hsrc : src.view.WordExact} {hdst : dst.view.WordExact}
    {α : Type} {Q : α → sProp 𝕄} {k : PUnit → Prog (TpuEff nD τ sig (Elt F) Λ₀ .tc) α}
    (O : CellTallies nD τ sig Unit)
    (hmw : (levAts L lv : sProp 𝕄) ⊢ MayWait (c : Thread nD τ) (.dma (xsem 2 j 0)) () O) :
    iprop(records m K ∗ levAts L lv ∗ chunkSt (part m) c j 11 ∗ (∃ W, owes (c : Thread nD τ) O W))
      ⊢ iprop(((chunkSt (part m) c j 12 ∗ (∃ W, owes (c : Thread nD τ) O W)) -∗ wp frame (wpE (defs₀ (F := F)) 𝒱₀ c none) Set.univ (k ⟨⟩) Q)
          -∗ wp frame (wpE (defs₀ (F := F)) 𝒱₀ c none) Set.univ (Prog.op (.waitDma2 sem src dst hsrc hdst) k) Q) := by
  rw [chunkSt_11, chunkSt_12]
  unfold tailSt
  iintro ⟨#Hrec, #Hlev, ⟨H1, H2, H3, H4, ⟨Hl0, Hs0⟩, ⟨Hl1, Hs1⟩, ⟨Hl2, Hs2⟩, ⟨Hl3, Hs3, -⟩, ⟨Hl4, Hs4, Hq4⟩, Hl5, Hs5, Hq5⟩, HO⟩ Hk
  iapply (wait_send_cell m K c j 2 0 sem hsem src dst hcr O hmw _ ((payload_agSend (part m) j 0 c 0 0).trans (agSendPay_0 (part m) c j))) $$ [$]
  iintro ⟨Hs3, Hq3, HO⟩
  iapply Hk
  iframe

theorem step_wait_send_4 (K : Dev nD × CK → ℕ) (c : Dev nD) (j : Fin 9)
    (sem : DmaSem sig) (hsem : sem = xsem 2 j 1)
    {sp sp' : Space} {sh sh' : Shape} {e e' : EltTy} {κ' : Kind}
    (src : Memref sig .tc sp' sh' e') (dst : Memref sig κ' sp sh e) (hcr : dst.view.dmaCredit = amt j 2 1)
    {hsrc : src.view.WordExact} {hdst : dst.view.WordExact}
    {α : Type} {Q : α → sProp 𝕄} {k : PUnit → Prog (TpuEff nD τ sig (Elt F) Λ₀ .tc) α}
    (O : CellTallies nD τ sig Unit)
    (hmw : (levAts L lv : sProp 𝕄) ⊢ MayWait (c : Thread nD τ) (.dma (xsem 2 j 1)) () O) :
    iprop(records m K ∗ levAts L lv ∗ chunkSt (part m) c j 12 ∗ (∃ W, owes (c : Thread nD τ) O W))
      ⊢ iprop(((chunkSt (part m) c j 13 ∗ (∃ W, owes (c : Thread nD τ) O W)) -∗ wp frame (wpE (defs₀ (F := F)) 𝒱₀ c none) Set.univ (k ⟨⟩) Q)
          -∗ wp frame (wpE (defs₀ (F := F)) 𝒱₀ c none) Set.univ (Prog.op (.waitDma2 sem src dst hsrc hdst) k) Q) := by
  rw [chunkSt_12, chunkSt_13]
  unfold tailSt
  iintro ⟨#Hrec, #Hlev, ⟨H1, H2, H3, H4, ⟨Hl0, Hs0⟩, ⟨Hl1, Hs1⟩, ⟨Hl2, Hs2⟩, ⟨Hl3, Hs3, Hq3⟩, ⟨Hl4, Hs4, -⟩, Hl5, Hs5, Hq5⟩, HO⟩ Hk
  iapply (wait_send_cell m K c j 2 1 sem hsem src dst hcr O hmw _ ((payload_agSend (part m) j 1 c 0 0).trans (agSendPay_1 (part m) c j))) $$ [$]
  iintro ⟨Hs4, Hq4, HO⟩
  iapply Hk
  iframe

theorem step_wait_send_5 (K : Dev nD × CK → ℕ) (c : Dev nD) (j : Fin 9)
    (sem : DmaSem sig) (hsem : sem = xsem 2 j 2)
    {sp sp' : Space} {sh sh' : Shape} {e e' : EltTy} {κ' : Kind}
    (src : Memref sig .tc sp' sh' e') (dst : Memref sig κ' sp sh e) (hcr : dst.view.dmaCredit = amt j 2 2)
    {hsrc : src.view.WordExact} {hdst : dst.view.WordExact}
    {α : Type} {Q : α → sProp 𝕄} {k : PUnit → Prog (TpuEff nD τ sig (Elt F) Λ₀ .tc) α}
    (O : CellTallies nD τ sig Unit)
    (hmw : (levAts L lv : sProp 𝕄) ⊢ MayWait (c : Thread nD τ) (.dma (xsem 2 j 2)) () O) :
    iprop(records m K ∗ levAts L lv ∗ chunkSt (part m) c j 13 ∗ (∃ W, owes (c : Thread nD τ) O W))
      ⊢ iprop(((chunkSt (part m) c j 14 ∗ (∃ W, owes (c : Thread nD τ) O W)) -∗ wp frame (wpE (defs₀ (F := F)) 𝒱₀ c none) Set.univ (k ⟨⟩) Q)
          -∗ wp frame (wpE (defs₀ (F := F)) 𝒱₀ c none) Set.univ (Prog.op (.waitDma2 sem src dst hsrc hdst) k) Q) := by
  rw [chunkSt_13, chunkSt_14]
  unfold tailSt
  iintro ⟨#Hrec, #Hlev, ⟨H1, H2, H3, H4, ⟨Hl0, Hs0⟩, ⟨Hl1, Hs1⟩, ⟨Hl2, Hs2⟩, ⟨Hl3, Hs3, Hq3⟩, ⟨Hl4, Hs4, Hq4⟩, Hl5, Hs5, -⟩, HO⟩ Hk
  iapply (wait_send_cell m K c j 2 2 sem hsem src dst hcr O hmw _ ((payload_agSend (part m) j 2 c 0 0).trans (agSendPay_2 (part m) c j))) $$ [$]
  iintro ⟨Hs5, Hq5, HO⟩
  iapply Hk
  iframe

section Close
variable (P : Dev nD → Mat F) (c : Dev nD) (j : Fin 9)

theorem sh4_0 : sh4 0 = fullShare.left := rfl
theorem sh4_1 : sh4 1 = fullShare.right.left := rfl
theorem sh4_2 : sh4 2 = fullShare.right.right.left := rfl
theorem sh4_3 : sh4 3 = fullShare.right.right.right := rfl

theorem quarters_join (R : Finset (Idx (outLoc c))) :
    iprop(qt P c R 0 ∗ qt P c R 1 ∗ qt P c R 2 ∗ qt P c R 3) ⊢ (outLoc c ↦[R]{fullShare} finO P c : sProp 𝕄) := by
  unfold qt
  rw [sh4_0, sh4_1, sh4_2, sh4_3]
  iintro ⟨H0, H1, H2, H3⟩
  iapply (pointsTo_halves (outLoc c) R fullShare (finO P c)).2
  isplitl [H0]; · iexact H0
  iapply (pointsTo_halves (outLoc c) R fullShare.right (finO P c)).2
  isplitl [H1]; · iexact H1
  iapply (pointsTo_halves (outLoc c) R fullShare.right.right (finO P c)).2
  isplitl [H2]; · iexact H2
  iexact H3

theorem Kreg_eq (s : Fin 3) : Kreg c j s.val = Kreg c j (s.val + 1) ∪ Treg c j s := kept_eq_union c j s
theorem Kreg_disjoint (s : Fin 3) : Disjoint (Kreg c j (s.val + 1)) (Treg c j s) := kept_sent_disjoint c j s

theorem ws_kept_split (s : Fin 3) (q : PosShare TreeShare) (f : Buf (Elt F) (outLoc c)) :
    ((outLoc c ↦[Kreg c j s.val]{q} f : sProp 𝕄)) ⊣⊢ iprop((outLoc c ↦[Kreg c j (s.val + 1)]{q} f) ∗ (outLoc c ↦[Treg c j s]{q} f)) := by
  rw [Kreg_eq c j s]
  exact pointsTo_union (outLoc c) _ _ (Kreg_disjoint c j s) q f

theorem kept_split_0 (q : PosShare TreeShare) (f : Buf (Elt F) (outLoc c)) :
    ((outLoc c ↦[Kreg c j 0]{q} f : sProp 𝕄)) ⊣⊢ iprop((outLoc c ↦[Kreg c j 1]{q} f) ∗ (outLoc c ↦[Treg c j 0]{q} f)) := ws_kept_split c j 0 q f
theorem kept_split_1 (q : PosShare TreeShare) (f : Buf (Elt F) (outLoc c)) :
    ((outLoc c ↦[Kreg c j 1]{q} f : sProp 𝕄)) ⊣⊢ iprop((outLoc c ↦[Kreg c j 2]{q} f) ∗ (outLoc c ↦[Treg c j 1]{q} f)) := ws_kept_split c j 1 q f
theorem kept_split_2 (q : PosShare TreeShare) (f : Buf (Elt F) (outLoc c)) :
    ((outLoc c ↦[Kreg c j 2]{q} f : sProp 𝕄)) ⊣⊢ iprop((outLoc c ↦[Kreg c j 3]{q} f) ∗ (outLoc c ↦[Treg c j 2]{q} f)) := ws_kept_split c j 2 q f
theorem qt_split_1 (k : Fin 4) :
    (qt P c (Kreg c j 1) k : sProp 𝕄) ⊣⊢ iprop(qt P c (Kreg c j 2) k ∗ qt P c (Treg c j 1) k) := kept_split_1 c j (sh4 k) (finO P c)
theorem qt_split_2 (k : Fin 4) :
    (qt P c (Kreg c j 2) k : sProp 𝕄) ⊣⊢ iprop(qt P c (Kreg c j 3) k ∗ qt P c (Treg c j 2) k) := kept_split_2 c j (sh4 k) (finO P c)

theorem zeros_eq :
    (bigSep (Finset.univ : Finset (Fin 4 × Fin 3)) fun p => (zeroOf c j p.1 p.2 : sProp 𝕄)) =
      iprop(zeroOf c j 0 0 ∗ zeroOf c j 0 1 ∗ zeroOf c j 0 2 ∗ zeroOf c j 1 0 ∗ zeroOf c j 1 1 ∗ zeroOf c j 1 2
        ∗ zeroOf c j 2 0 ∗ zeroOf c j 2 1 ∗ zeroOf c j 2 2 ∗ zeroOf c j 3 0 ∗ zeroOf c j 3 1 ∗ zeroOf c j 3 2) :=
  bigSep_univ_eq_bigSepL [(0, 0), (0, 1), (0, 2), (1, 0), (1, 1), (1, 2), (2, 0), (2, 1), (2, 2), (3, 0), (3, 1), (3, 2)]
    (by decide) (by decide) _

end Close

theorem chunk_close (c : Dev nD) (j : Fin 9) :
    (chunkSt (part m) c j 14 : sProp 𝕄) ⊢ iprop((outLoc c ↦[Kreg c j 0]{fullShare} finO (part m) c)
      ∗ ((∃ f : Buf (Elt F) (commLoc c), (commLoc c ↦[Creg c j 0]{fullShare} f))
        ∗ (∃ f : Buf (Elt F) (commLoc c), (commLoc c ↦[Creg c j 1]{fullShare} f))
        ∗ (∃ f : Buf (Elt F) (commLoc c), (commLoc c ↦[Creg c j 2]{fullShare} f)))
      ∗ bigSep (Finset.univ : Finset (Fin 4 × Fin 3)) fun p => zeroOf c j p.1 p.2) := by
  rw [chunkSt_14, zeros_eq]
  unfold tailSt rsLanded agLanded
  simp only [sendSt_closed]
  iintro ⟨Hk33, ⟨Ht20, Ht23⟩, ⟨Ht10, Ht11, Ht13⟩, Ht0, ⟨⟨Hz10, Hc0, -⟩, Hz00⟩, ⟨⟨Hz11, Hc1, -⟩, Hz01⟩, ⟨⟨Hz12, Hc2, -⟩, Hz02⟩,
    ⟨Hz30, Hz20, Hk30⟩, ⟨Hz31, Hz21, Hk21⟩, Hz32, Hz22, Hk12⟩

  icases (qt_split_2 (part m) c j 1).1 $$ Hk21 with ⟨Hk31, Ht21⟩
  icases (qt_split_1 (part m) c j 2).1 $$ Hk12 with ⟨Hk22, Ht12⟩
  icases (qt_split_2 (part m) c j 2).1 $$ Hk22 with ⟨Hk32, Ht22⟩

  ihave HK3 := (quarters_join (part m) c (Kreg c j 3)) $$ [$]
  ihave HT2 := (quarters_join (part m) c (Treg c j 2)) $$ [$]
  ihave HT1 := (quarters_join (part m) c (Treg c j 1)) $$ [$]

  ihave HK2 := (kept_split_2 c j fullShare (finO (part m) c)).2 $$ [$]
  ihave HK1 := (kept_split_1 c j fullShare (finO (part m) c)).2 $$ [$]
  ihave HK0 := (kept_split_0 c j fullShare (finO (part m) c)).2 $$ [$]
  isplitl [HK0]; · iexact HK0
  isplitl [Hc0 Hc1 Hc2]
  · isplitl [Hc0]; · iexact Hc0
    isplitl [Hc1]; · iexact Hc1
    iexact Hc2
  isplitl [Hz00]; · iexact Hz00
  isplitl [Hz01]; · iexact Hz01
  isplitl [Hz02]; · iexact Hz02
  isplitl [Hz10]; · iexact Hz10
  isplitl [Hz11]; · iexact Hz11
  isplitl [Hz12]; · iexact Hz12
  isplitl [Hz20]; · iexact Hz20
  isplitl [Hz21]; · iexact Hz21
  isplitl [Hz22]; · iexact Hz22
  isplitl [Hz30]; · iexact Hz30
  isplitl [Hz31]; · iexact Hz31
  iexact Hz32

end Cert.KernelIdeal.Bfly

end
-- ==== Proof.BodyEndIdeal.lean ====
import proofs.«900883_g7700000000000884_dist_matmul_k_i_m1024_n1024_k512_v7x_i8_f32_1_alg».proof.Proof.StepBarIdeal
import proofs.«900883_g7700000000000884_dist_matmul_k_i_m1024_n1024_k512_v7x_i8_f32_1_alg».proof.Proof.StepWSIdeal

noncomputable section

namespace Cert.KernelIdeal.Bfly

open Cert.KernelIdeal Cert.KernelIdeal.Gen Cert.Butterfly
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

def cellEquiv : Fin 9 × (Fin 4 × Fin 3) ≃ Fin 4 × Fin 9 × Fin 3 :=
  ⟨fun x => (x.2.1, x.1, x.2.2), fun y => (y.2.1, y.1, y.2.2), fun _ => rfl, fun _ => rfl⟩

theorem zeros_regroup (c : Dev nD) :
    (bigSep Finset.univ fun j : Fin 9 => bigSep (Finset.univ : Finset (Fin 4 × Fin 3)) fun p => zeroOf (F := F) c j p.1 p.2)
      = bigSep (Finset.univ : Finset (Fin 4 × Fin 9 × Fin 3)) fun ajs => (semVal (xCell ajs.1 ajs.2.1 ajs.2.2 c) 0 : sProp 𝕄) := by
  have h1 := bigSep_univ_prod (fun x : Fin 9 × (Fin 4 × Fin 3) => (zeroOf (F := F) c x.1 x.2.1 x.2.2 : sProp 𝕄))
  have h2 := bigSep_univ_equiv cellEquiv (fun ajs : Fin 4 × Fin 9 × Fin 3 => (semVal (xCell ajs.1 ajs.2.1 ajs.2.2 c) 0 : sProp 𝕄))
  exact h1.symm.trans h2.symm

theorem chunks_close (c : Dev nD) :
    (bigSep Finset.univ fun j : Fin 9 => chunkSt (part m) c j 14 : sProp 𝕄)
      ⊢ iprop((bigSep Finset.univ fun j : Fin 9 => (outLoc c ↦[Kreg c j 0]{fullShare} finO (part m) c))
        ∗ (bigSep Finset.univ fun j : Fin 9 => iprop(ownSlab (F := F) c j 0 ∗ ownSlab c j 1 ∗ ownSlab c j 2))
        ∗ (bigSep Finset.univ fun j : Fin 9 => bigSep (Finset.univ : Finset (Fin 4 × Fin 3)) fun p => zeroOf (F := F) c j p.1 p.2)) := by
  rw [← bigSep_sep', ← bigSep_sep']
  exact bigSep_mono fun j _ => chunk_close m c j

theorem body_finish (c : Dev nD) :
    iprop((bigSep Finset.univ fun j : Fin 9 => (outLoc c ↦[Kreg c j 0]{fullShare} finO (part m) c))
        ∗ (bigSep Finset.univ fun j : Fin 9 => iprop(ownSlab (F := F) c j 0 ∗ ownSlab c j 1 ∗ ownSlab c j 2))
        ∗ (bigSep Finset.univ fun j : Fin 9 => bigSep (Finset.univ : Finset (Fin 4 × Fin 3)) fun p => zeroOf (F := F) c j p.1 p.2)
        ∗ semVal (exitCell c) 0 ∗ (∃ W, owes (c : Thread nD τ) 0 W)
        ∗ stg c cc0_stg0_0 (aS m c) ∗ stg c cc0_stg1_0 (bS m c))
      ⊢ bodyPost m c := by
  unfold bodyPost ownZero
  iintro ⟨HA, HB, HZ, HE, HO, HS0, HS1⟩
  ihave HC := (comm_join c) $$ HB
  ihave HZ := (Entails.of_eq (zeros_regroup c)) $$ HZ
  ihave HR := (out_join (part m) c) $$ HA
  isplitl [HC]; · iexact HC
  isplitl [HZ HE]
  · isplitl [HZ]; · iexact HZ
    iexact HE
  isplitl [HO]; · iexact HO
  isplitl [HS0]; · iexact HS0
  isplitl [HS1]; · iexact HS1
  iexists (finO (part m) c)
  isplitr; · ipureintro; rfl
  iexact HR

end Cert.KernelIdeal.Bfly

end
-- ==== Proof.LevelsIdeal.lean ====
import proofs.«900883_g7700000000000884_dist_matmul_k_i_m1024_n1024_k512_v7x_i8_f32_1_alg».proof.Proof.BodyDefsIdeal

noncomputable section

namespace Cert.KernelIdeal.Bfly

open Cert.KernelIdeal Cert.KernelIdeal.Gen Cert.Butterfly
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem owedP_peel (c : Dev nD) (p : ℕ) (σ : Fin 6) (j : Fin 9) (hp : p < sPos σ j)
    (hnone : ∀ σ' j', p < sPos σ' j' → sPos σ' j' ≤ sPos σ j → (σ', j') = (σ, j)) :
    owedP c p = owedP c (sPos σ j) + tallyAt (payCell c σ j) () (payAmt σ j) := by
  classical
  unfold owedP
  have hset : (Finset.univ : Finset (Fin 6 × Fin 9)).filter (fun σj => p < sPos σj.1 σj.2)
      = insert (σ, j) ((Finset.univ : Finset (Fin 6 × Fin 9)).filter (fun σj => sPos σ j < sPos σj.1 σj.2)) := by
    ext x
    rw [Finset.mem_insert, Finset.mem_filter, Finset.mem_filter]
    constructor
    · intro hx
      by_cases hle : sPos x.1 x.2 ≤ sPos σ j
      · exact Or.inl (hnone x.1 x.2 hx.2 hle)
      · exact Or.inr ⟨Finset.mem_univ _, by omega⟩
    · rintro (rfl | hx)
      · exact ⟨Finset.mem_univ _, hp⟩
      · exact ⟨Finset.mem_univ _, by have := hx.2; omega⟩
  rw [hset, Finset.sum_insert (by rw [Finset.mem_filter]; exact fun h => Nat.lt_irrefl _ h.2), add_comm]

theorem owedP_last (c : Dev nD) (p : ℕ) (h : ∀ σ j, sPos σ j ≤ p) : owedP c p = 0 := by
  unfold owedP
  rw [Finset.filter_eq_empty_iff.mpr (fun x _ => by have := h x.1 x.2; omega), Finset.sum_empty]

theorem L_tc (c : Dev nD) (sm : SemLoc sig) : L ((c : Thread nD τ), sm) = {()} := if_pos rfl
theorem L_of_ne (g : GSem nD τ sig) (h : g.1.2 ≠ .tc) : L g = ∅ := if_neg h

theorem exitS_ne_barS : exitS ≠ barS := by decide

theorem lv_bar (c : Dev nD) : lv (barCell c) () = 1 := by
  dsimp only [lv]; rw [if_pos rfl]
theorem lv_exit (c : Dev nD) : lv (exitCell c) () = 1000 := by
  dsimp only [lv]; rw [if_neg exitS_ne_barS, if_pos rfl]

def trOf (a : Fin 4) (s : Fin 3) : Fin 6 := ⟨(a.val / 2) * 3 + s.val, by have := a.isLt; have := s.isLt; omega⟩

theorem lv_rsRecv (c : Dev nD) (j : Fin 9) (s : Fin 3) :
    lv (xCell 1 j s c) () = 2 + wPos ⟨s.val, by have := s.isLt; omega⟩ j := by
  dsimp only [lv]
  rw [if_pos ⟨xsem_ge 1 j s, arrOf_xsem 1 j s⟩]
  simp only [stepIx_xsem, chunkIx_xsem]

theorem lv_agRecv (c : Dev nD) (j : Fin 9) (t : Fin 3) :
    lv (xCell 3 j t c) () = 2 + wPos ⟨3 + t.val, by have := t.isLt; omega⟩ j := by
  dsimp only [lv]
  rw [if_neg (fun h => absurd ((arrOf_xsem 3 j t).symm.trans h.2) (by decide)), if_pos ⟨xsem_ge 3 j t, arrOf_xsem 3 j t⟩]
  simp only [stepIx_xsem, chunkIx_xsem]

theorem lv_recv (c : Dev nD) (a : Fin 4) (ha : a = 1 ∨ a = 3) (j : Fin 9) (s : Fin 3) :
    lv (xCell a j s c) () = 2 + wPos (trOf a s) j := by
  rcases ha with rfl | rfl
  · rw [lv_rsRecv]; exact congrArg (fun σ => 2 + wPos σ j) (Fin.ext (by show s.val = 1 / 2 * 3 + s.val; omega))
  · rw [lv_agRecv]; exact congrArg (fun σ => 2 + wPos σ j) (Fin.ext (by show 3 + s.val = 3 / 2 * 3 + s.val; omega))

theorem lv_send (c : Dev nD) (a : Fin 4) (ha : a = 0 ∨ a = 2) (j : Fin 9) (s : Fin 3) : lv (xCell a j s c) () = 0 := by
  have h1 : arrOf (xsem a j s) ≠ 1 := by rw [arrOf_xsem]; rcases ha with rfl | rfl <;> decide
  have h3 : arrOf (xsem a j s) ≠ 3 := by rw [arrOf_xsem]; rcases ha with rfl | rfl <;> decide
  dsimp only [lv]
  rw [if_neg (fun h => h1 h.2), if_neg (fun h => h3 h.2)]

theorem lv_stage (c : Dev nD) (q : DmaSem sig) (hq : q.val < 3) : lv ((c : Thread nD τ), .dma q) () = 0 := by
  dsimp only [lv]
  rw [if_neg (fun h => absurd h.1 (by omega)), if_neg (fun h => absurd h.1 (by omega))]

theorem lv_payCell (c : Dev nD) (σ : Fin 6) (j : Fin 9) : lv (payCell c σ j) () = 2 + wPos σ j := by
  unfold payCell
  split
  · rw [lv_rsRecv]
  · rename_i h
    rw [lv_agRecv]; exact congrArg (fun σ => 2 + wPos σ j) (Fin.ext (by show 3 + (σ.val - 3) = σ.val; omega))

theorem L_payCell (c : Dev nD) (σ : Fin 6) (j : Fin 9) : L (payCell c σ j) = {()} := by
  unfold payCell
  split <;> exact L_tc _ _

theorem wPos_lt (σ : Fin 6) (j : Fin 9) : 2 + wPos σ j < 1000 := by revert σ j; decide

theorem lv_pay_gt : ∀ (c : Dev nD) (σ σ' : Fin 6) (j j' : Fin 9), wPos σ j < sPos σ' j' → lv (payCell c σ' j') () > 2 + wPos σ j := by
  intro c σ σ' j j' h
  rw [lv_payCell]
  have := sPos_lt_wPos σ' j'
  omega

theorem owedP_pos {c : Dev nD} {p : ℕ} {g : GSem nD τ sig} {u : Unit} (h : 0 < owedP c p g u) :
    ∃ σ j, p < sPos σ j ∧ g = payCell c σ j := by
  unfold owedP at h
  obtain ⟨x, hx, hpos⟩ := Pipeline.sum_pos_exists h
  exact ⟨x.1, x.2, (Finset.mem_filter.mp hx).2, (Pipeline.tallyAt_pos hpos).1⟩

theorem owedX_pos {c : Dev nD} {p : ℕ} {g : GSem nD τ sig} {u : Unit} (h : 0 < owedX c p g u) :
    (∃ σ j, p < sPos σ j ∧ g = payCell c σ j) ∨ ∃ d, g = exitCell (par d c) := by
  unfold owedX exitDebt at h
  rcases Pipeline.add_pos_cases h with h | h
  · rcases Pipeline.add_pos_cases h with h | h
    · rcases Pipeline.add_pos_cases h with h | h
      · exact Or.inl (owedP_pos h)
      · exact Or.inr ⟨2, (Pipeline.tallyAt_pos h).1⟩
    · exact Or.inr ⟨1, (Pipeline.tallyAt_pos h).1⟩
  · exact Or.inr ⟨0, (Pipeline.tallyAt_pos h).1⟩

theorem O₀_pos {c : Dev nD} {g : GSem nD τ sig} {u : Unit} (h : 0 < O₀ c g u) :
    (∃ σ j, g = payCell c σ j) ∨ (∃ d, g = exitCell (par d c)) ∨ ∃ d, g = barCell (par d c) := by
  unfold O₀ barDebt at h
  rcases Pipeline.add_pos_cases h with h | h
  · rcases Pipeline.add_pos_cases h with h | h
    · rcases Pipeline.add_pos_cases h with h | h
      · rcases owedX_pos h with ⟨σ, j, _, hg⟩ | hg
        · exact Or.inl ⟨σ, j, hg⟩
        · exact Or.inr (Or.inl hg)
      · exact Or.inr (Or.inr ⟨2, (Pipeline.tallyAt_pos h).1⟩)
    · exact Or.inr (Or.inr ⟨1, (Pipeline.tallyAt_pos h).1⟩)
  · exact Or.inr (Or.inr ⟨0, (Pipeline.tallyAt_pos h).1⟩)

theorem mayWait_owedX (c : Dev nD) (sm : SemLoc sig) (p b : ℕ) (hb : lv ((c : Thread nD τ), sm) () ≤ b) (hb' : b < 1000)
    (h : ∀ σ' j', p < sPos σ' j' → b < lv (payCell c σ' j') ()) :
    (levAts L lv : sProp 𝕄) ⊢ MayWait (c : Thread nD τ) sm () (owedX c p) :=
  MayOwe.of_cut (L := L) (lev := lv) b
    (fun q hq => by rw [Finset.mem_singleton.mp hq, L_tc]; exact Finset.mem_singleton_self _)
    (fun g u hg => by
      rcases owedX_pos hg with ⟨σ', j', _, rfl⟩ | ⟨d, rfl⟩
      · rw [L_payCell]; exact Finset.mem_singleton_self _
      · rw [L_tc]; exact Finset.mem_singleton_self _)
    (fun q hq => by rw [Finset.mem_singleton.mp hq]; exact hb)
    (fun g u hg => by
      rcases owedX_pos hg with ⟨σ', j', hp, rfl⟩ | ⟨d, rfl⟩
      · exact h σ' j' hp
      · exact lt_of_lt_of_eq hb' (lv_exit _).symm)

theorem mayWait_recv (c : Dev nD) (a : Fin 4) (ha : a = 1 ∨ a = 3) (j : Fin 9) (s : Fin 3) (p : ℕ)
    (h : ∀ σ' j', p < sPos σ' j' → lv (payCell c σ' j') () > lv (xCell a j s c) ()) :
    (levAts L lv : sProp 𝕄) ⊢ MayWait (c : Thread nD τ) (.dma (xsem a j s)) () (owedX c p) :=
  mayWait_owedX c (.dma (xsem a j s)) p (lv (xCell a j s c) ()) (le_refl _)
    (by rw [lv_recv c a ha j s]; exact wPos_lt _ _) h

theorem mayWait_recv_at (c : Dev nD) (a : Fin 4) (ha : a = 1 ∨ a = 3) (j : Fin 9) (s : Fin 3) (p : ℕ)
    (hp : ∀ σ' j', p < sPos σ' j' → wPos (trOf a s) j < sPos σ' j') :
    (levAts L lv : sProp 𝕄) ⊢ MayWait (c : Thread nD τ) (.dma (xsem a j s)) () (owedX c p) :=
  mayWait_recv c a ha j s p fun σ' j' h => by
    rw [lv_recv c a ha j s]; exact lv_pay_gt c (trOf a s) σ' j j' (hp σ' j' h)

theorem mayWait_send (c : Dev nD) (a : Fin 4) (ha : a = 0 ∨ a = 2) (j : Fin 9) (s : Fin 3) (p : ℕ) :
    (levAts L lv : sProp 𝕄) ⊢ MayWait (c : Thread nD τ) (.dma (xsem a j s)) () (owedX c p) :=
  mayWait_owedX c (.dma (xsem a j s)) p 0 (Nat.le_of_eq (lv_send c a ha j s)) (by decide)
    fun σ' j' _ => by rw [lv_payCell]; omega

theorem mayWait_bar (c : Dev nD) :
    (levAts L lv : sProp 𝕄) ⊢ MayWait (c : Thread nD τ) (.reg barS) () (owedX c 0) :=
  mayWait_owedX c (.reg barS) 0 1 (Nat.le_of_eq (lv_bar c)) (by decide)
    fun σ' j' _ => by rw [lv_payCell]; omega

theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases O₀_pos hg with ⟨σ, j, rfl⟩ | ⟨d, rfl⟩ | ⟨d, rfl⟩
        · rw [L_payCell]; exact Finset.mem_singleton_self _
        · rw [L_tc]; exact Finset.mem_singleton_self _
        · rw [L_tc]; exact Finset.mem_singleton_self _)
      (fun p hp => by rw [Finset.mem_singleton.mp hp]; exact Nat.le_of_eq (lv_stage c q hq))
      (fun g u hg => by
        rcases O₀_pos hg with ⟨σ, j, rfl⟩ | ⟨d, rfl⟩ | ⟨d, rfl⟩
        · show 0 < lv (payCell c σ j) (); rw [lv_payCell]; omega
        · show 0 < lv (exitCell (par d c)) (); rw [lv_exit]; decide
        · show 0 < lv (barCell (par d c)) (); rw [lv_bar]; decide)
  · rw [MayWait_zero]; iintro -; iempintro

end Cert.KernelIdeal.Bfly

end
-- ==== Proof.FormsIdeal.lean ====
import proofs.«900883_g7700000000000884_dist_matmul_k_i_m1024_n1024_k512_v7x_i8_f32_1_alg».proof.Proof.Gen.KernelIdeal
import proofs.«900883_g7700000000000884_dist_matmul_k_i_m1024_n1024_k512_v7x_i8_f32_1_alg».proof.Proof.Mesh

set_option Elab.async false

namespace Cert.KernelIdeal.Forms

open Idealize.ShloMosaic Cert.KernelIdeal Cert.KernelIdeal.Gen Cert.Butterfly

/-- The entry and exit signals go to the three partners, in dimension order. -/
theorem dev1_eq (c : Dev nD) : (⟨k0_dev1 c, k0_dev1_lt c⟩ : Dev nD) = par 0 c := by revert c; decide +kernel
theorem dev2_eq (c : Dev nD) : (⟨k0_dev2 c, k0_dev2_lt c⟩ : Dev nD) = par 1 c := by revert c; decide +kernel
theorem dev3_eq (c : Dev nD) : (⟨k0_dev3 c, k0_dev3_lt c⟩ : Dev nD) = par 2 c := by revert c; decide +kernel
theorem dev58_eq (c : Dev nD) : (⟨k0_dev58 c, k0_dev58_lt c⟩ : Dev nD) = par 0 c := by revert c; decide +kernel
theorem dev59_eq (c : Dev nD) : (⟨k0_dev59 c, k0_dev59_lt c⟩ : Dev nD) = par 1 c := by revert c; decide +kernel
theorem dev60_eq (c : Dev nD) : (⟨k0_dev60 c, k0_dev60_lt c⟩ : Dev nD) = par 2 c := by revert c; decide +kernel

/-- Each transfer's addressee: the partner along the dimension of its halving or doubling. -/
theorem dev4_eq (c : Dev nD) : (⟨k0_dev4 c, k0_dev4_lt c⟩ : Dev nD) = par 0 c := by revert c; decide +kernel  -- halving 0 of chunk 0
theorem dev5_eq (c : Dev nD) : (⟨k0_dev5 c, k0_dev5_lt c⟩ : Dev nD) = par 1 c := by revert c; decide +kernel  -- halving 0 of chunk 1
theorem dev6_eq (c : Dev nD) : (⟨k0_dev6 c, k0_dev6_lt c⟩ : Dev nD) = par 2 c := by revert c; decide +kernel  -- halving 0 of chunk 2
theorem dev7_eq (c : Dev nD) : (⟨k0_dev7 c, k0_dev7_lt c⟩ : Dev nD) = par 0 c := by revert c; decide +kernel  -- halving 0 of chunk 3
theorem dev8_eq (c : Dev nD) : (⟨k0_dev8 c, k0_dev8_lt c⟩ : Dev nD) = par 1 c := by revert c; decide +kernel  -- halving 0 of chunk 4
theorem dev9_eq (c : Dev nD) : (⟨k0_dev9 c, k0_dev9_lt c⟩ : Dev nD) = par 2 c := by revert c; decide +kernel  -- halving 0 of chunk 5
theorem dev10_eq (c : Dev nD) : (⟨k0_dev10 c, k0_dev10_lt c⟩ : Dev nD) = par 1 c := by revert c; decide +kernel  -- halving 1 of chunk 0
theorem dev11_eq (c : Dev nD) : (⟨k0_dev11 c, k0_dev11_lt c⟩ : Dev nD) = par 2 c := by revert c; decide +kernel  -- halving 1 of chunk 1
theorem dev12_eq (c : Dev nD) : (⟨k0_dev12 c, k0_dev12_lt c⟩ : Dev nD) = par 0 c := by revert c; decide +kernel  -- halving 1 of chunk 2
theorem dev13_eq (c : Dev nD) : (⟨k0_dev13 c, k0_dev13_lt c⟩ : Dev nD) = par 0 c := by revert c; decide +kernel  -- halving 0 of chunk 6
theorem dev14_eq (c : Dev nD) : (⟨k0_dev14 c, k0_dev14_lt c⟩ : Dev nD) = par 1 c := by revert c; decide +kernel  -- halving 0 of chunk 7
theorem dev15_eq (c : Dev nD) : (⟨k0_dev15 c, k0_dev15_lt c⟩ : Dev nD) = par 2 c := by revert c; decide +kernel  -- halving 0 of chunk 8
theorem dev16_eq (c : Dev nD) : (⟨k0_dev16 c, k0_dev16_lt c⟩ : Dev nD) = par 1 c := by revert c; decide +kernel  -- halving 1 of chunk 3
theorem dev17_eq (c : Dev nD) : (⟨k0_dev17 c, k0_dev17_lt c⟩ : Dev nD) = par 2 c := by revert c; decide +kernel  -- halving 1 of chunk 4
theorem dev18_eq (c : Dev nD) : (⟨k0_dev18 c, k0_dev18_lt c⟩ : Dev nD) = par 0 c := by revert c; decide +kernel  -- halving 1 of chunk 5
theorem dev19_eq (c : Dev nD) : (⟨k0_dev19 c, k0_dev19_lt c⟩ : Dev nD) = par 2 c := by revert c; decide +kernel  -- halving 2 of chunk 0
theorem dev20_eq (c : Dev nD) : (⟨k0_dev20 c, k0_dev20_lt c⟩ : Dev nD) = par 0 c := by revert c; decide +kernel  -- halving 2 of chunk 1
theorem dev21_eq (c : Dev nD) : (⟨k0_dev21 c, k0_dev21_lt c⟩ : Dev nD) = par 1 c := by revert c; decide +kernel  -- halving 2 of chunk 2
theorem dev22_eq (c : Dev nD) : (⟨k0_dev22 c, k0_dev22_lt c⟩ : Dev nD) = par 1 c := by revert c; decide +kernel  -- halving 1 of chunk 6
theorem dev23_eq (c : Dev nD) : (⟨k0_dev23 c, k0_dev23_lt c⟩ : Dev nD) = par 2 c := by revert c; decide +kernel  -- halving 1 of chunk 7
theorem dev24_eq (c : Dev nD) : (⟨k0_dev24 c, k0_dev24_lt c⟩ : Dev nD) = par 0 c := by revert c; decide +kernel  -- halving 1 of chunk 8
theorem dev25_eq (c : Dev nD) : (⟨k0_dev25 c, k0_dev25_lt c⟩ : Dev nD) = par 2 c := by revert c; decide +kernel  -- halving 2 of chunk 3
theorem dev26_eq (c : Dev nD) : (⟨k0_dev26 c, k0_dev26_lt c⟩ : Dev nD) = par 0 c := by revert c; decide +kernel  -- halving 2 of chunk 4
theorem dev27_eq (c : Dev nD) : (⟨k0_dev27 c, k0_dev27_lt c⟩ : Dev nD) = par 1 c := by revert c; decide +kernel  -- halving 2 of chunk 5
theorem dev28_eq (c : Dev nD) : (⟨k0_dev28 c, k0_dev28_lt c⟩ : Dev nD) = par 2 c := by revert c; decide +kernel  -- doubling 0 of chunk 0
theorem dev29_eq (c : Dev nD) : (⟨k0_dev29 c, k0_dev29_lt c⟩ : Dev nD) = par 0 c := by revert c; decide +kernel  -- doubling 0 of chunk 1
theorem dev30_eq (c : Dev nD) : (⟨k0_dev30 c, k0_dev30_lt c⟩ : Dev nD) = par 1 c := by revert c; decide +kernel  -- doubling 0 of chunk 2
theorem dev31_eq (c : Dev nD) : (⟨k0_dev31 c, k0_dev31_lt c⟩ : Dev nD) = par 2 c := by revert c; decide +kernel  -- halving 2 of chunk 6
theorem dev32_eq (c : Dev nD) : (⟨k0_dev32 c, k0_dev32_lt c⟩ : Dev nD) = par 0 c := by revert c; decide +kernel  -- halving 2 of chunk 7
theorem dev33_eq (c : Dev nD) : (⟨k0_dev33 c, k0_dev33_lt c⟩ : Dev nD) = par 1 c := by revert c; decide +kernel  -- halving 2 of chunk 8
theorem dev34_eq (c : Dev nD) : (⟨k0_dev34 c, k0_dev34_lt c⟩ : Dev nD) = par 2 c := by revert c; decide +kernel  -- doubling 0 of chunk 3
theorem dev35_eq (c : Dev nD) : (⟨k0_dev35 c, k0_dev35_lt c⟩ : Dev nD) = par 0 c := by revert c; decide +kernel  -- doubling 0 of chunk 4
theorem dev36_eq (c : Dev nD) : (⟨k0_dev36 c, k0_dev36_lt c⟩ : Dev nD) = par 1 c := by revert c; decide +kernel  -- doubling 0 of chunk 5
theorem dev37_eq (c : Dev nD) : (⟨k0_dev37 c, k0_dev37_lt c⟩ : Dev nD) = par 1 c := by revert c; decide +kernel  -- doubling 1 of chunk 0
theorem dev38_eq (c : Dev nD) : (⟨k0_dev38 c, k0_dev38_lt c⟩ : Dev nD) = par 2 c := by revert c; decide +kernel  -- doubling 1 of chunk 1
theorem dev39_eq (c : Dev nD) : (⟨k0_dev39 c, k0_dev39_lt c⟩ : Dev nD) = par 0 c := by revert c; decide +kernel  -- doubling 1 of chunk 2
theorem dev40_eq (c : Dev nD) : (⟨k0_dev40 c, k0_dev40_lt c⟩ : Dev nD) = par 2 c := by revert c; decide +kernel  -- doubling 0 of chunk 6
theorem dev41_eq (c : Dev nD) : (⟨k0_dev41 c, k0_dev41_lt c⟩ : Dev nD) = par 0 c := by revert c; decide +kernel  -- doubling 0 of chunk 7
theorem dev42_eq (c : Dev nD) : (⟨k0_dev42 c, k0_dev42_lt c⟩ : Dev nD) = par 1 c := by revert c; decide +kernel  -- doubling 0 of chunk 8
theorem dev43_eq (c : Dev nD) : (⟨k0_dev43 c, k0_dev43_lt c⟩ : Dev nD) = par 1 c := by revert c; decide +kernel  -- doubling 1 of chunk 3
theorem dev44_eq (c : Dev nD) : (⟨k0_dev44 c, k0_dev44_lt c⟩ : Dev nD) = par 2 c := by revert c; decide +kernel  -- doubling 1 of chunk 4
theorem dev45_eq (c : Dev nD) : (⟨k0_dev45 c, k0_dev45_lt c⟩ : Dev nD) = par 0 c := by revert c; decide +kernel  -- doubling 1 of chunk 5
theorem dev46_eq (c : Dev nD) : (⟨k0_dev46 c, k0_dev46_lt c⟩ : Dev nD) = par 0 c := by revert c; decide +kernel  -- doubling 2 of chunk 0
theorem dev47_eq (c : Dev nD) : (⟨k0_dev47 c, k0_dev47_lt c⟩ : Dev nD) = par 1 c := by revert c; decide +kernel  -- doubling 2 of chunk 1
theorem dev48_eq (c : Dev nD) : (⟨k0_dev48 c, k0_dev48_lt c⟩ : Dev nD) = par 2 c := by revert c; decide +kernel  -- doubling 2 of chunk 2
theorem dev49_eq (c : Dev nD) : (⟨k0_dev49 c, k0_dev49_lt c⟩ : Dev nD) = par 1 c := by revert c; decide +kernel  -- doubling 1 of chunk 6
theorem dev50_eq (c : Dev nD) : (⟨k0_dev50 c, k0_dev50_lt c⟩ : Dev nD) = par 2 c := by revert c; decide +kernel  -- doubling 1 of chunk 7
theorem dev51_eq (c : Dev nD) : (⟨k0_dev51 c, k0_dev51_lt c⟩ : Dev nD) = par 0 c := by revert c; decide +kernel  -- doubling 1 of chunk 8
theorem dev52_eq (c : Dev nD) : (⟨k0_dev52 c, k0_dev52_lt c⟩ : Dev nD) = par 0 c := by revert c; decide +kernel  -- doubling 2 of chunk 3
theorem dev53_eq (c : Dev nD) : (⟨k0_dev53 c, k0_dev53_lt c⟩ : Dev nD) = par 1 c := by revert c; decide +kernel  -- doubling 2 of chunk 4
theorem dev54_eq (c : Dev nD) : (⟨k0_dev54 c, k0_dev54_lt c⟩ : Dev nD) = par 2 c := by revert c; decide +kernel  -- doubling 2 of chunk 5
theorem dev55_eq (c : Dev nD) : (⟨k0_dev55 c, k0_dev55_lt c⟩ : Dev nD) = par 0 c := by revert c; decide +kernel  -- doubling 2 of chunk 6
theorem dev56_eq (c : Dev nD) : (⟨k0_dev56 c, k0_dev56_lt c⟩ : Dev nD) = par 1 c := by revert c; decide +kernel  -- doubling 2 of chunk 7
theorem dev57_eq (c : Dev nD) : (⟨k0_dev57 c, k0_dev57_lt c⟩ : Dev nD) = par 2 c := by revert c; decide +kernel  -- doubling 2 of chunk 8

/-- Each slice's first row: the half sent away, or the part kept, at that level. -/
theorem off1_0_eq (c : Dev nD) : k0_off1 c 0#32 = ![sentOff 0 0 c, 0] := by revert c; decide +kernel
theorem off2_384_1_eq (c : Dev nD) : k0_off2 c 384#32 1#32 = ![sentOff 1 0 c, 0] := by revert c; decide +kernel
theorem off2_704_2_eq (c : Dev nD) : k0_off2 c 704#32 2#32 = ![sentOff 2 0 c, 0] := by revert c; decide +kernel
theorem off1_128_eq (c : Dev nD) : k0_off1 c 128#32 = ![sentOff 3 0 c, 0] := by revert c; decide +kernel
theorem off3_448_1_eq (c : Dev nD) : k0_off3 c 448#32 1#32 = ![sentOff 4 0 c, 0] := by revert c; decide +kernel
theorem off3_768_2_eq (c : Dev nD) : k0_off3 c 768#32 2#32 = ![sentOff 5 0 c, 0] := by revert c; decide +kernel
theorem off5_0_eq (c : Dev nD) : k0_off5 c 0#32 = ![sentOff 0 1 c, 0] := by revert c; decide +kernel
theorem off7_eq (c : Dev nD) : k0_off7 c = ![sentOff 1 1 c, 0] := by revert c; decide +kernel
theorem off8_eq (c : Dev nD) : k0_off8 c = ![sentOff 2 1 c, 0] := by revert c; decide +kernel
theorem off1_256_eq (c : Dev nD) : k0_off1 c 256#32 = ![sentOff 6 0 c, 0] := by revert c; decide +kernel
theorem off3_576_1_eq (c : Dev nD) : k0_off3 c 576#32 1#32 = ![sentOff 7 0 c, 0] := by revert c; decide +kernel
theorem off3_896_2_eq (c : Dev nD) : k0_off3 c 896#32 2#32 = ![sentOff 8 0 c, 0] := by revert c; decide +kernel
theorem off5_128_eq (c : Dev nD) : k0_off5 c 128#32 = ![sentOff 3 1 c, 0] := by revert c; decide +kernel
theorem off10_448_eq (c : Dev nD) : k0_off10 c 448#32 = ![sentOff 4 1 c, 0] := by revert c; decide +kernel
theorem off11_768_eq (c : Dev nD) : k0_off11 c 768#32 = ![sentOff 5 1 c, 0] := by revert c; decide +kernel
theorem off13_0_eq (c : Dev nD) : k0_off13 c 0#32 = ![sentOff 0 2 c, 0] := by revert c; decide +kernel
theorem off15_eq (c : Dev nD) : k0_off15 c = ![sentOff 1 2 c, 0] := by revert c; decide +kernel
theorem off17_eq (c : Dev nD) : k0_off17 c = ![sentOff 2 2 c, 0] := by revert c; decide +kernel
theorem off5_256_eq (c : Dev nD) : k0_off5 c 256#32 = ![sentOff 6 1 c, 0] := by revert c; decide +kernel
theorem off10_576_eq (c : Dev nD) : k0_off10 c 576#32 = ![sentOff 7 1 c, 0] := by revert c; decide +kernel
theorem off11_896_eq (c : Dev nD) : k0_off11 c 896#32 = ![sentOff 8 1 c, 0] := by revert c; decide +kernel
theorem off13_128_eq (c : Dev nD) : k0_off13 c 128#32 = ![sentOff 3 2 c, 0] := by revert c; decide +kernel
theorem off19_448_eq (c : Dev nD) : k0_off19 c 448#32 = ![sentOff 4 2 c, 0] := by revert c; decide +kernel
theorem off21_768_eq (c : Dev nD) : k0_off21 c 768#32 = ![sentOff 5 2 c, 0] := by revert c; decide +kernel
theorem off23_0_eq (c : Dev nD) : k0_off23 c 0#32 = ![keptOff 0 3 c, 0] := by revert c; decide +kernel
theorem off25_eq (c : Dev nD) : k0_off25 c = ![keptOff 1 3 c, 0] := by revert c; decide +kernel
theorem off27_eq (c : Dev nD) : k0_off27 c = ![keptOff 2 3 c, 0] := by revert c; decide +kernel
theorem off13_256_eq (c : Dev nD) : k0_off13 c 256#32 = ![sentOff 6 2 c, 0] := by revert c; decide +kernel
theorem off19_576_eq (c : Dev nD) : k0_off19 c 576#32 = ![sentOff 7 2 c, 0] := by revert c; decide +kernel
theorem off21_896_eq (c : Dev nD) : k0_off21 c 896#32 = ![sentOff 8 2 c, 0] := by revert c; decide +kernel
theorem off23_128_eq (c : Dev nD) : k0_off23 c 128#32 = ![keptOff 3 3 c, 0] := by revert c; decide +kernel
theorem off29_448_eq (c : Dev nD) : k0_off29 c 448#32 = ![keptOff 4 3 c, 0] := by revert c; decide +kernel
theorem off31_768_eq (c : Dev nD) : k0_off31 c 768#32 = ![keptOff 5 3 c, 0] := by revert c; decide +kernel
theorem off32_0_eq (c : Dev nD) : k0_off32 c 0#32 = ![keptOff 0 2 c, 0] := by revert c; decide +kernel
theorem off33_eq (c : Dev nD) : k0_off33 c = ![keptOff 1 2 c, 0] := by revert c; decide +kernel
theorem off34_eq (c : Dev nD) : k0_off34 c = ![keptOff 2 2 c, 0] := by revert c; decide +kernel
theorem off23_256_eq (c : Dev nD) : k0_off23 c 256#32 = ![keptOff 6 3 c, 0] := by revert c; decide +kernel
theorem off29_576_eq (c : Dev nD) : k0_off29 c 576#32 = ![keptOff 7 3 c, 0] := by revert c; decide +kernel
theorem off31_896_eq (c : Dev nD) : k0_off31 c 896#32 = ![keptOff 8 3 c, 0] := by revert c; decide +kernel
theorem off32_128_eq (c : Dev nD) : k0_off32 c 128#32 = ![keptOff 3 2 c, 0] := by revert c; decide +kernel
theorem off35_448_eq (c : Dev nD) : k0_off35 c 448#32 = ![keptOff 4 2 c, 0] := by revert c; decide +kernel
theorem off36_768_eq (c : Dev nD) : k0_off36 c 768#32 = ![keptOff 5 2 c, 0] := by revert c; decide +kernel
theorem off37_0_eq (c : Dev nD) : k0_off37 c 0#32 = ![keptOff 0 1 c, 0] := by revert c; decide +kernel
theorem off38_eq (c : Dev nD) : k0_off38 c = ![keptOff 1 1 c, 0] := by revert c; decide +kernel
theorem off39_eq (c : Dev nD) : k0_off39 c = ![keptOff 2 1 c, 0] := by revert c; decide +kernel
theorem off32_256_eq (c : Dev nD) : k0_off32 c 256#32 = ![keptOff 6 2 c, 0] := by revert c; decide +kernel
theorem off35_576_eq (c : Dev nD) : k0_off35 c 576#32 = ![keptOff 7 2 c, 0] := by revert c; decide +kernel
theorem off36_896_eq (c : Dev nD) : k0_off36 c 896#32 = ![keptOff 8 2 c, 0] := by revert c; decide +kernel
theorem off37_128_eq (c : Dev nD) : k0_off37 c 128#32 = ![keptOff 3 1 c, 0] := by revert c; decide +kernel
theorem off40_448_eq (c : Dev nD) : k0_off40 c 448#32 = ![keptOff 4 1 c, 0] := by revert c; decide +kernel
theorem off41_768_eq (c : Dev nD) : k0_off41 c 768#32 = ![keptOff 5 1 c, 0] := by revert c; decide +kernel
theorem off37_256_eq (c : Dev nD) : k0_off37 c 256#32 = ![keptOff 6 1 c, 0] := by revert c; decide +kernel
theorem off40_576_eq (c : Dev nD) : k0_off40 c 576#32 = ![keptOff 7 1 c, 0] := by revert c; decide +kernel
theorem off41_896_eq (c : Dev nD) : k0_off41 c 896#32 = ![keptOff 8 1 c, 0] := by revert c; decide +kernel
theorem off4_0_eq (c : Dev nD) : k0_off4 c 0#32 = ![keptOff 0 1 c, 0] := by revert c; decide +kernel
theorem off6_384_1_eq (c : Dev nD) : k0_off6 c 384#32 1#32 = ![keptOff 1 1 c, 0] := by revert c; decide +kernel
theorem off6_704_2_eq (c : Dev nD) : k0_off6 c 704#32 2#32 = ![keptOff 2 1 c, 0] := by revert c; decide +kernel
theorem off4_128_eq (c : Dev nD) : k0_off4 c 128#32 = ![keptOff 3 1 c, 0] := by revert c; decide +kernel
theorem off9_448_1_eq (c : Dev nD) : k0_off9 c 448#32 1#32 = ![keptOff 4 1 c, 0] := by revert c; decide +kernel
theorem off9_768_2_eq (c : Dev nD) : k0_off9 c 768#32 2#32 = ![keptOff 5 1 c, 0] := by revert c; decide +kernel
theorem off12_0_eq (c : Dev nD) : k0_off12 c 0#32 = ![keptOff 0 2 c, 0] := by revert c; decide +kernel
theorem off14_eq (c : Dev nD) : k0_off14 c = ![keptOff 1 2 c, 0] := by revert c; decide +kernel
theorem off16_eq (c : Dev nD) : k0_off16 c = ![keptOff 2 2 c, 0] := by revert c; decide +kernel
theorem off4_256_eq (c : Dev nD) : k0_off4 c 256#32 = ![keptOff 6 1 c, 0] := by revert c; decide +kernel
theorem off9_576_1_eq (c : Dev nD) : k0_off9 c 576#32 1#32 = ![keptOff 7 1 c, 0] := by revert c; decide +kernel
theorem off9_896_2_eq (c : Dev nD) : k0_off9 c 896#32 2#32 = ![keptOff 8 1 c, 0] := by revert c; decide +kernel
theorem off12_128_eq (c : Dev nD) : k0_off12 c 128#32 = ![keptOff 3 2 c, 0] := by revert c; decide +kernel
theorem off18_448_eq (c : Dev nD) : k0_off18 c 448#32 = ![keptOff 4 2 c, 0] := by revert c; decide +kernel
theorem off20_768_eq (c : Dev nD) : k0_off20 c 768#32 = ![keptOff 5 2 c, 0] := by revert c; decide +kernel
theorem off22_0_eq (c : Dev nD) : k0_off22 c 0#32 = ![keptOff 0 3 c, 0] := by revert c; decide +kernel
theorem off24_eq (c : Dev nD) : k0_off24 c = ![keptOff 1 3 c, 0] := by revert c; decide +kernel
theorem off26_eq (c : Dev nD) : k0_off26 c = ![keptOff 2 3 c, 0] := by revert c; decide +kernel
theorem off12_256_eq (c : Dev nD) : k0_off12 c 256#32 = ![keptOff 6 2 c, 0] := by revert c; decide +kernel
theorem off18_576_eq (c : Dev nD) : k0_off18 c 576#32 = ![keptOff 7 2 c, 0] := by revert c; decide +kernel
theorem off20_896_eq (c : Dev nD) : k0_off20 c 896#32 = ![keptOff 8 2 c, 0] := by revert c; decide +kernel
theorem off22_128_eq (c : Dev nD) : k0_off22 c 128#32 = ![keptOff 3 3 c, 0] := by revert c; decide +kernel
theorem off28_448_eq (c : Dev nD) : k0_off28 c 448#32 = ![keptOff 4 3 c, 0] := by revert c; decide +kernel
theorem off30_768_eq (c : Dev nD) : k0_off30 c 768#32 = ![keptOff 5 3 c, 0] := by revert c; decide +kernel
theorem off22_256_eq (c : Dev nD) : k0_off22 c 256#32 = ![keptOff 6 3 c, 0] := by revert c; decide +kernel
theorem off28_576_eq (c : Dev nD) : k0_off28 c 576#32 = ![keptOff 7 3 c, 0] := by revert c; decide +kernel
theorem off30_896_eq (c : Dev nD) : k0_off30 c 896#32 = ![keptOff 8 3 c, 0] := by revert c; decide +kernel

end Cert.KernelIdeal.Forms
-- ==== Proof.BodyIdeal.lean ====
import proofs.«900883_g7700000000000884_dist_matmul_k_i_m1024_n1024_k512_v7x_i8_f32_1_alg».proof.Proof.StepBarIdeal
import proofs.«900883_g7700000000000884_dist_matmul_k_i_m1024_n1024_k512_v7x_i8_f32_1_alg».proof.Proof.StepMMIdeal
import proofs.«900883_g7700000000000884_dist_matmul_k_i_m1024_n1024_k512_v7x_i8_f32_1_alg».proof.Proof.StepRSIdeal
import proofs.«900883_g7700000000000884_dist_matmul_k_i_m1024_n1024_k512_v7x_i8_f32_1_alg».proof.Proof.StepAGIdeal
import proofs.«900883_g7700000000000884_dist_matmul_k_i_m1024_n1024_k512_v7x_i8_f32_1_alg».proof.Proof.StepWSIdeal
import proofs.«900883_g7700000000000884_dist_matmul_k_i_m1024_n1024_k512_v7x_i8_f32_1_alg».proof.Proof.BodyEndIdeal
import proofs.«900883_g7700000000000884_dist_matmul_k_i_m1024_n1024_k512_v7x_i8_f32_1_alg».proof.Proof.LevelsIdeal
import proofs.«900883_g7700000000000884_dist_matmul_k_i_m1024_n1024_k512_v7x_i8_f32_1_alg».proof.Proof.FormsIdeal
import Idealize.ShloMosaic.Lib.Tactic
import Mathlib.Tactic.Abel

noncomputable section

namespace Cert.KernelIdeal.Bfly

open Cert.KernelIdeal Cert.KernelIdeal.Gen Cert.KernelIdeal.Forms Cert.Butterfly
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem owedX_peel (c : Dev nD) (p : ℕ) (σ : Fin 6) (j : Fin 9) (hp : p < sPos σ j)
    (hnone : ∀ σ' j', p < sPos σ' j' → sPos σ' j' ≤ sPos σ j → (σ', j') = (σ, j)) :
    owedX c p = owedX c (sPos σ j) + tallyAt (payCell c σ j) () (payAmt σ j) := by
  unfold owedX
  rw [owedP_peel c p σ j hp hnone]
  abel

theorem owes_peel (c : Dev nD) (p : ℕ) (σ : Fin 6) (j : Fin 9) (hp : p < sPos σ j)
    (hnone : ∀ σ' j', p < sPos σ' j' → sPos σ' j' ≤ sPos σ j → (σ', j') = (σ, j)) :
    (iprop(∃ W, owes (c : Thread nD τ) (owedX c p) W) : sProp 𝕄)
      ⊢ iprop(∃ W, owes (c : Thread nD τ) (owedX c (sPos σ j) + tallyAt (payCell c σ j) () (payAmt σ j)) W) :=
  Entails.of_eq (by rw [← owedX_peel c p σ j hp hnone])

theorem mw_recv_peeled (c : Dev nD) (a : Fin 4) (ha : a = 1 ∨ a = 3) (j : Fin 9) (s : Fin 3) (p : ℕ) (σ : Fin 6) (j' : Fin 9)
    (hp : p < sPos σ j') (hnone : ∀ σ' j'', p < sPos σ' j'' → sPos σ' j'' ≤ sPos σ j' → (σ', j'') = (σ, j'))
    (hw : ∀ σ' j'', p < sPos σ' j'' → wPos (trOf a s) j < sPos σ' j'') :
    (levAts L lv : sProp 𝕄) ⊢ MayWait (c : Thread nD τ) (.dma (xsem a j s)) () (owedX c (sPos σ j') + tallyAt (payCell c σ j') () (payAmt σ j')) := by
  rw [← owedX_peel c p σ j' hp hnone]
  exact mayWait_recv_at c a ha j s p hw

theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

set_option maxRecDepth 100000 in
set_option maxHeartbeats 400000000 in

-- Steps in program order: each advances one chunk by one phase, and each transfer started takes one landing off what is owed.
theorem sound_body (m : (ℓ : Loc nD τ sig) → Buf (Elt F) ℓ) : SoundBody (F := F) m := by
  intro K c Kt
  unfold theBody cc0_body k0_part55 k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51 k0_part52 k0_part53 k0_part54
  simp only [semSignalWord, semWaitWord, Prog.lift, Prog.bind_op, Prog.bind_ret, Prog.pure_eq_ret, Prog.bind_assoc, wp_deviceId]
  unfold bodyPre linear
  iintro ⟨⟨#HR, #Hlev, ⟨Hch, Hbar, Hexit⟩, HO, Hcomm, HA, HB, ⟨%fo, Hout⟩⟩, Hk⟩
  iapply (step_entry m K c _ _ _ (dev1_eq c) (dev2_eq c) (dev3_eq c) _ rfl _ _ _ _ rfl rfl rfl rfl (mayWait_bar c)) $$ [$]
  iintro ⟨HO, Hslabs⟩
  ihave Hst := (chunks_init (part m) c fo) $$ [$]
  ihave Hst := (Entails.of_eq (bigSep_fin9 fun j => chunkSt (part m) c j 0)) $$ Hst
  icases Hst with ⟨H0, H1, H2, H3, H4, H5, H6, H7, H8⟩

  iapply (step_mm128 m K c 0 0 rfl rfl _ _ _ (owedX c 0)) $$ [$]
  iintro %x0 %y0 %z0 ⟨H0, HO, HA, HB⟩

  ihave HO := (owes_peel c 0 0 0 (by decide) (by decide)) $$ HO
  iapply (step_rs_send0 m K c 0 _ (Forms.off1_0_eq c) _ (by decide) _ _ (by decide) _ _ (Forms.dev4_eq c) _ (by decide) _ (by decide) (owedX c (sPos 0 0))) $$ [$]
  iintro ⟨H0, HO⟩

  iapply (step_mm64 m K c 1 384 rfl rfl _ _ _ (owedX c (sPos 0 0))) $$ [$]
  iintro %x1 %y1 %z1 ⟨H1, HO, HA, HB⟩

  ihave HO := (owes_peel c (sPos 0 0) 0 1 (by decide) (by decide)) $$ HO
  iapply (step_rs_send0 m K c 1 _ (Forms.off2_384_1_eq c) _ (by decide) _ _ (by decide) _ _ (Forms.dev5_eq c) _ (by decide) _ (by decide) (owedX c (sPos 0 1))) $$ [$]
  iintro ⟨H1, HO⟩

  iapply (step_mm64 m K c 2 704 rfl rfl _ _ _ (owedX c (sPos 0 1))) $$ [$]
  iintro %x2 %y2 %z2 ⟨H2, HO, HA, HB⟩

  ihave HO := (owes_peel c (sPos 0 1) 0 2 (by decide) (by decide)) $$ HO
  iapply (step_rs_send0 m K c 2 _ (Forms.off2_704_2_eq c) _ (by decide) _ _ (by decide) _ _ (Forms.dev6_eq c) _ (by decide) _ (by decide) (owedX c (sPos 0 2))) $$ [$]
  iintro ⟨H2, HO⟩

  iapply (step_mm128 m K c 3 128 rfl rfl _ _ _ (owedX c (sPos 0 2))) $$ [$]
  iintro %x3 %y3 %z3 ⟨H3, HO, HA, HB⟩

  ihave HO := (owes_peel c (sPos 0 2) 0 3 (by decide) (by decide)) $$ HO
  iapply (step_rs_send0 m K c 3 _ (Forms.off1_128_eq c) _ (by decide) _ _ (by decide) _ _ (Forms.dev7_eq c) _ (by decide) _ (by decide) (owedX c (sPos 0 3))) $$ [$]
  iintro ⟨H3, HO⟩

  iapply (step_mm128 m K c 4 448 rfl rfl _ _ _ (owedX c (sPos 0 3))) $$ [$]
  iintro %x4 %y4 %z4 ⟨H4, HO, HA, HB⟩

  ihave HO := (owes_peel c (sPos 0 3) 0 4 (by decide) (by decide)) $$ HO
  iapply (step_rs_send0 m K c 4 _ (Forms.off3_448_1_eq c) _ (by decide) _ _ (by decide) _ _ (Forms.dev8_eq c) _ (by decide) _ (by decide) (owedX c (sPos 0 4))) $$ [$]
  iintro ⟨H4, HO⟩

  iapply (step_mm128 m K c 5 768 rfl rfl _ _ _ (owedX c (sPos 0 4))) $$ [$]
  iintro %x5 %y5 %z5 ⟨H5, HO, HA, HB⟩

  ihave HO := (owes_peel c (sPos 0 4) 0 5 (by decide) (by decide)) $$ HO
  iapply (step_rs_send0 m K c 5 _ (Forms.off3_768_2_eq c) _ (by decide) _ _ (by decide) _ _ (Forms.dev9_eq c) _ (by decide) _ (by decide) (owedX c (sPos 0 5))) $$ [$]
  iintro ⟨H5, HO⟩

  iapply (step_mm128 m K c 6 256 rfl rfl _ _ _ (owedX c (sPos 0 5))) $$ [$]
  iintro %x6 %y6 %z6 ⟨H6, HO, HA, HB⟩

  iapply (step_mm128 m K c 7 576 rfl rfl _ _ _ (owedX c (sPos 0 5))) $$ [$]
  iintro %x7 %y7 %z7 ⟨H7, HO, HA, HB⟩

  iapply (step_mm128 m K c 8 896 rfl rfl _ _ _ (owedX c (sPos 0 5))) $$ [$]
  iintro %x8 %y8 %z8 ⟨H8, HO, HA, HB⟩

  ihave HO := (owes_peel c (sPos 0 5) 1 0 (by decide) (by decide)) $$ HO
  iapply (step_halving m K c 0 0 _ (by decide) _ (by decide) _ _ _ _ _ (Forms.off4_0_eq c) _ _ (by decide) _ _ (Forms.off5_0_eq c) _ (by decide) _ _ (by decide) _ _ (Forms.dev10_eq c) _ (by decide) _ (by decide) (owedX c (sPos 1 0))
      (mw_recv_peeled c 1 (Or.inl rfl) 0 0 (sPos 0 5) 1 0 (by decide) (by decide) (by decide))) $$ [H0 HO]
  · isplitr; · iexact HR
    isplitr; · iexact Hlev
    isplitl [H0]; · iexact H0
    iexact HO
  iintro %x9 %y9 %z9 ⟨H0, HO⟩

  ihave HO := (owes_peel c (sPos 1 0) 1 1 (by decide) (by decide)) $$ HO
  iapply (step_halving m K c 1 0 _ (by decide) _ (by decide) _ _ _ _ _ (Forms.off6_384_1_eq c) _ _ (by decide) _ _ (Forms.off7_eq c) _ (by decide) _ _ (by decide) _ _ (Forms.dev11_eq c) _ (by decide) _ (by decide) (owedX c (sPos 1 1))
      (mw_recv_peeled c 1 (Or.inl rfl) 1 0 (sPos 1 0) 1 1 (by decide) (by decide) (by decide))) $$ [H1 HO]
  · isplitr; · iexact HR
    isplitr; · iexact Hlev
    isplitl [H1]; · iexact H1
    iexact HO
  iintro %x10 %y10 %z10 ⟨H1, HO⟩

  ihave HO := (owes_peel c (sPos 1 1) 1 2 (by decide) (by decide)) $$ HO
  iapply (step_halving m K c 2 0 _ (by decide) _ (by decide) _ _ _ _ _ (Forms.off6_704_2_eq c) _ _ (by decide) _ _ (Forms.off8_eq c) _ (by decide) _ _ (by decide) _ _ (Forms.dev12_eq c) _ (by decide) _ (by decide) (owedX c (sPos 1 2))
      (mw_recv_peeled c 1 (Or.inl rfl) 2 0 (sPos 1 1) 1 2 (by decide) (by decide) (by decide))) $$ [H2 HO]
  · isplitr; · iexact HR
    isplitr; · iexact Hlev
    isplitl [H2]; · iexact H2
    iexact HO
  iintro %x11 %y11 %z11 ⟨H2, HO⟩

  ihave HO := (owes_peel c (sPos 1 2) 0 6 (by decide) (by decide)) $$ HO
  iapply (step_rs_send0 m K c 6 _ (Forms.off1_256_eq c) _ (by decide) _ _ (by decide) _ _ (Forms.dev13_eq c) _ (by decide) _ (by decide) (owedX c (sPos 0 6))) $$ [$]
  iintro ⟨H6, HO⟩

  ihave HO := (owes_peel c (sPos 0 6) 0 7 (by decide) (by decide)) $$ HO
  iapply (step_rs_send0 m K c 7 _ (Forms.off3_576_1_eq c) _ (by decide) _ _ (by decide) _ _ (Forms.dev14_eq c) _ (by decide) _ (by decide) (owedX c (sPos 0 7))) $$ [$]
  iintro ⟨H7, HO⟩

  ihave HO := (owes_peel c (sPos 0 7) 0 8 (by decide) (by decide)) $$ HO
  iapply (step_rs_send0 m K c 8 _ (Forms.off3_896_2_eq c) _ (by decide) _ _ (by decide) _ _ (Forms.dev15_eq c) _ (by decide) _ (by decide) (owedX c (sPos 0 8))) $$ [$]
  iintro ⟨H8, HO⟩

  ihave HO := (owes_peel c (sPos 0 8) 1 3 (by decide) (by decide)) $$ HO
  iapply (step_halving m K c 3 0 _ (by decide) _ (by decide) _ _ _ _ _ (Forms.off4_128_eq c) _ _ (by decide) _ _ (Forms.off5_128_eq c) _ (by decide) _ _ (by decide) _ _ (Forms.dev16_eq c) _ (by decide) _ (by decide) (owedX c (sPos 1 3))
      (mw_recv_peeled c 1 (Or.inl rfl) 3 0 (sPos 0 8) 1 3 (by decide) (by decide) (by decide))) $$ [H3 HO]
  · isplitr; · iexact HR
    isplitr; · iexact Hlev
    isplitl [H3]; · iexact H3
    iexact HO
  iintro %x12 %y12 %z12 ⟨H3, HO⟩

  ihave HO := (owes_peel c (sPos 1 3) 1 4 (by decide) (by decide)) $$ HO
  iapply (step_halving m K c 4 0 _ (by decide) _ (by decide) _ _ _ _ _ (Forms.off9_448_1_eq c) _ _ (by decide) _ _ (Forms.off10_448_eq c) _ (by decide) _ _ (by decide) _ _ (Forms.dev17_eq c) _ (by decide) _ (by decide) (owedX c (sPos 1 4))
      (mw_recv_peeled c 1 (Or.inl rfl) 4 0 (sPos 1 3) 1 4 (by decide) (by decide) (by decide))) $$ [H4 HO]
  · isplitr; · iexact HR
    isplitr; · iexact Hlev
    isplitl [H4]; · iexact H4
    iexact HO
  iintro %x13 %y13 %z13 ⟨H4, HO⟩

  ihave HO := (owes_peel c (sPos 1 4) 1 5 (by decide) (by decide)) $$ HO
  iapply (step_halving m K c 5 0 _ (by decide) _ (by decide) _ _ _ _ _ (Forms.off9_768_2_eq c) _ _ (by decide) _ _ (Forms.off11_768_eq c) _ (by decide) _ _ (by decide) _ _ (Forms.dev18_eq c) _ (by decide) _ (by decide) (owedX c (sPos 1 5))
      (mw_recv_peeled c 1 (Or.inl rfl) 5 0 (sPos 1 4) 1 5 (by decide) (by decide) (by decide))) $$ [H5 HO]
  · isplitr; · iexact HR
    isplitr; · iexact Hlev
    isplitl [H5]; · iexact H5
    iexact HO
  iintro %x14 %y14 %z14 ⟨H5, HO⟩

  ihave HO := (owes_peel c (sPos 1 5) 2 0 (by decide) (by decide)) $$ HO
  iapply (step_halving m K c 0 1 _ (by decide) _ (by decide) _ _ _ _ _ (Forms.off12_0_eq c) _ _ (by decide) _ _ (Forms.off13_0_eq c) _ (by decide) _ _ (by decide) _ _ (Forms.dev19_eq c) _ (by decide) _ (by decide) (owedX c (sPos 2 0))
      (mw_recv_peeled c 1 (Or.inl rfl) 0 1 (sPos 1 5) 2 0 (by decide) (by decide) (by decide))) $$ [H0 HO]
  · isplitr; · iexact HR
    isplitr; · iexact Hlev
    isplitl [H0]; · iexact H0
    iexact HO
  iintro %x15 %y15 %z15 ⟨H0, HO⟩

  ihave HO := (owes_peel c (sPos 2 0) 2 1 (by decide) (by decide)) $$ HO
  iapply (step_halving m K c 1 1 _ (by decide) _ (by decide) _ _ _ _ _ (Forms.off14_eq c) _ _ (by decide) _ _ (Forms.off15_eq c) _ (by decide) _ _ (by decide) _ _ (Forms.dev20_eq c) _ (by decide) _ (by decide) (owedX c (sPos 2 1))
      (mw_recv_peeled c 1 (Or.inl rfl) 1 1 (sPos 2 0) 2 1 (by decide) (by decide) (by decide))) $$ [H1 HO]
  · isplitr; · iexact HR
    isplitr; · iexact Hlev
    isplitl [H1]; · iexact H1
    iexact HO
  iintro %x16 %y16 %z16 ⟨H1, HO⟩

  ihave HO := (owes_peel c (sPos 2 1) 2 2 (by decide) (by decide)) $$ HO
  iapply (step_halving m K c 2 1 _ (by decide) _ (by decide) _ _ _ _ _ (Forms.off16_eq c) _ _ (by decide) _ _ (Forms.off17_eq c) _ (by decide) _ _ (by decide) _ _ (Forms.dev21_eq c) _ (by decide) _ (by decide) (owedX c (sPos 2 2))
      (mw_recv_peeled c 1 (Or.inl rfl) 2 1 (sPos 2 1) 2 2 (by decide) (by decide) (by decide))) $$ [H2 HO]
  · isplitr; · iexact HR
    isplitr; · iexact Hlev
    isplitl [H2]; · iexact H2
    iexact HO
  iintro %x17 %y17 %z17 ⟨H2, HO⟩

  ihave HO := (owes_peel c (sPos 2 2) 1 6 (by decide) (by decide)) $$ HO
  iapply (step_halving m K c 6 0 _ (by decide) _ (by decide) _ _ _ _ _ (Forms.off4_256_eq c) _ _ (by decide) _ _ (Forms.off5_256_eq c) _ (by decide) _ _ (by decide) _ _ (Forms.dev22_eq c) _ (by decide) _ (by decide) (owedX c (sPos 1 6))
      (mw_recv_peeled c 1 (Or.inl rfl) 6 0 (sPos 2 2) 1 6 (by decide) (by decide) (by decide))) $$ [H6 HO]
  · isplitr; · iexact HR
    isplitr; · iexact Hlev
    isplitl [H6]; · iexact H6
    iexact HO
  iintro %x18 %y18 %z18 ⟨H6, HO⟩

  ihave HO := (owes_peel c (sPos 1 6) 1 7 (by decide) (by decide)) $$ HO
  iapply (step_halving m K c 7 0 _ (by decide) _ (by decide) _ _ _ _ _ (Forms.off9_576_1_eq c) _ _ (by decide) _ _ (Forms.off10_576_eq c) _ (by decide) _ _ (by decide) _ _ (Forms.dev23_eq c) _ (by decide) _ (by decide) (owedX c (sPos 1 7))
      (mw_recv_peeled c 1 (Or.inl rfl) 7 0 (sPos 1 6) 1 7 (by decide) (by decide) (by decide))) $$ [H7 HO]
  · isplitr; · iexact HR
    isplitr; · iexact Hlev
    isplitl [H7]; · iexact H7
    iexact HO
  iintro %x19 %y19 %z19 ⟨H7, HO⟩

  ihave HO := (owes_peel c (sPos 1 7) 1 8 (by decide) (by decide)) $$ HO
  iapply (step_halving m K c 8 0 _ (by decide) _ (by decide) _ _ _ _ _ (Forms.off9_896_2_eq c) _ _ (by decide) _ _ (Forms.off11_896_eq c) _ (by decide) _ _ (by decide) _ _ (Forms.dev24_eq c) _ (by decide) _ (by decide) (owedX c (sPos 1 8))
      (mw_recv_peeled c 1 (Or.inl rfl) 8 0 (sPos 1 7) 1 8 (by decide) (by decide) (by decide))) $$ [H8 HO]
  · isplitr; · iexact HR
    isplitr; · iexact Hlev
    isplitl [H8]; · iexact H8
    iexact HO
  iintro %x20 %y20 %z20 ⟨H8, HO⟩

  ihave HO := (owes_peel c (sPos 1 8) 2 3 (by decide) (by decide)) $$ HO
  iapply (step_halving m K c 3 1 _ (by decide) _ (by decide) _ _ _ _ _ (Forms.off12_128_eq c) _ _ (by decide) _ _ (Forms.off13_128_eq c) _ (by decide) _ _ (by decide) _ _ (Forms.dev25_eq c) _ (by decide) _ (by decide) (owedX c (sPos 2 3))
      (mw_recv_peeled c 1 (Or.inl rfl) 3 1 (sPos 1 8) 2 3 (by decide) (by decide) (by decide))) $$ [H3 HO]
  · isplitr; · iexact HR
    isplitr; · iexact Hlev
    isplitl [H3]; · iexact H3
    iexact HO
  iintro %x21 %y21 %z21 ⟨H3, HO⟩

  ihave HO := (owes_peel c (sPos 2 3) 2 4 (by decide) (by decide)) $$ HO
  iapply (step_halving m K c 4 1 _ (by decide) _ (by decide) _ _ _ _ _ (Forms.off18_448_eq c) _ _ (by decide) _ _ (Forms.off19_448_eq c) _ (by decide) _ _ (by decide) _ _ (Forms.dev26_eq c) _ (by decide) _ (by decide) (owedX c (sPos 2 4))
      (mw_recv_peeled c 1 (Or.inl rfl) 4 1 (sPos 2 3) 2 4 (by decide) (by decide) (by decide))) $$ [H4 HO]
  · isplitr; · iexact HR
    isplitr; · iexact Hlev
    isplitl [H4]; · iexact H4
    iexact HO
  iintro %x22 %y22 %z22 ⟨H4, HO⟩

  ihave HO := (owes_peel c (sPos 2 4) 2 5 (by decide) (by decide)) $$ HO
  iapply (step_halving m K c 5 1 _ (by decide) _ (by decide) _ _ _ _ _ (Forms.off20_768_eq c) _ _ (by decide) _ _ (Forms.off21_768_eq c) _ (by decide) _ _ (by decide) _ _ (Forms.dev27_eq c) _ (by decide) _ (by decide) (owedX c (sPos 2 5))
      (mw_recv_peeled c 1 (Or.inl rfl) 5 1 (sPos 2 4) 2 5 (by decide) (by decide) (by decide))) $$ [H5 HO]
  · isplitr; · iexact HR
    isplitr; · iexact Hlev
    isplitl [H5]; · iexact H5
    iexact HO
  iintro %x23 %y23 %z23 ⟨H5, HO⟩

  ihave HO := (owes_peel c (sPos 2 5) 3 0 (by decide) (by decide)) $$ HO
  have hC : (![96, 0] : Fin 2 → Nat) = ![commOff 0 2, 0] := by decide
  have hdev : (⟨k0_dev28 c, k0_dev28_lt c⟩ : Dev nD) = pT c 0 0 := (Forms.dev28_eq c).trans ((by decide : ∀ c : Dev nD, par 2 c = pT c 0 0) c)
  iapply (step_last_halving m K c 0 16 (by decide) _ (sem_x1 0 2 _ _) _ _ _ _ _ (Forms.off22_0_eq c) _ _ hC _ _ (Forms.off23_0_eq c) _ _ hdev _ _ (sem_x2 0 0 _ _) (sem_x3 0 0 _ _) 3 rfl (owedX c (sPos 3 0))
      (mw_recv_peeled c 1 (Or.inl rfl) 0 2 (sPos 2 5) 3 0 (by decide) (by decide) (by decide))) $$ [H0 HO]
  · isplitr; · iexact HR
    isplitr; · iexact Hlev
    isplitl [H0]; · iexact H0
    iexact HO
  iintro %x24 %y24 %z24 ⟨H0, HO⟩
  clear hC hdev

  ihave HO := (owes_peel c (sPos 3 0) 3 1 (by decide) (by decide)) $$ HO
  have hC : (![160, 0] : Fin 2 → Nat) = ![commOff 1 2, 0] := by decide
  have hdev : (⟨k0_dev29 c, k0_dev29_lt c⟩ : Dev nD) = pT c 1 0 := (Forms.dev29_eq c).trans ((by decide : ∀ c : Dev nD, par 0 c = pT c 1 0) c)
  iapply (step_last_halving m K c 1 8 (by decide) _ (sem_x1 1 2 _ _) _ _ _ _ _ (Forms.off24_eq c) _ _ hC _ _ (Forms.off25_eq c) _ _ hdev _ _ (sem_x2 1 0 _ _) (sem_x3 1 0 _ _) 3 rfl (owedX c (sPos 3 1))
      (mw_recv_peeled c 1 (Or.inl rfl) 1 2 (sPos 3 0) 3 1 (by decide) (by decide) (by decide))) $$ [H1 HO]
  · isplitr; · iexact HR
    isplitr; · iexact Hlev
    isplitl [H1]; · iexact H1
    iexact HO
  iintro %x25 %y25 %z25 ⟨H1, HO⟩
  clear hC hdev

  ihave HO := (owes_peel c (sPos 3 1) 3 2 (by decide) (by decide)) $$ HO
  have hC : (![216, 0] : Fin 2 → Nat) = ![commOff 2 2, 0] := by decide
  have hdev : (⟨k0_dev30 c, k0_dev30_lt c⟩ : Dev nD) = pT c 2 0 := (Forms.dev30_eq c).trans ((by decide : ∀ c : Dev nD, par 1 c = pT c 2 0) c)
  iapply (step_last_halving m K c 2 8 (by decide) _ (sem_x1 2 2 _ _) _ _ _ _ _ (Forms.off26_eq c) _ _ hC _ _ (Forms.off27_eq c) _ _ hdev _ _ (sem_x2 2 0 _ _) (sem_x3 2 0 _ _) 3 rfl (owedX c (sPos 3 2))
      (mw_recv_peeled c 1 (Or.inl rfl) 2 2 (sPos 3 1) 3 2 (by decide) (by decide) (by decide))) $$ [H2 HO]
  · isplitr; · iexact HR
    isplitr; · iexact Hlev
    isplitl [H2]; · iexact H2
    iexact HO
  iintro %x26 %y26 %z26 ⟨H2, HO⟩
  clear hC hdev

  ihave HO := (owes_peel c (sPos 3 2) 2 6 (by decide) (by decide)) $$ HO
  iapply (step_halving m K c 6 1 _ (by decide) _ (by decide) _ _ _ _ _ (Forms.off12_256_eq c) _ _ (by decide) _ _ (Forms.off13_256_eq c) _ (by decide) _ _ (by decide) _ _ (Forms.dev31_eq c) _ (by decide) _ (by decide) (owedX c (sPos 2 6))
      (mw_recv_peeled c 1 (Or.inl rfl) 6 1 (sPos 3 2) 2 6 (by decide) (by decide) (by decide))) $$ [H6 HO]
  · isplitr; · iexact HR
    isplitr; · iexact Hlev
    isplitl [H6]; · iexact H6
    iexact HO
  iintro %x27 %y27 %z27 ⟨H6, HO⟩

  ihave HO := (owes_peel c (sPos 2 6) 2 7 (by decide) (by decide)) $$ HO
  iapply (step_halving m K c 7 1 _ (by decide) _ (by decide) _ _ _ _ _ (Forms.off18_576_eq c) _ _ (by decide) _ _ (Forms.off19_576_eq c) _ (by decide) _ _ (by decide) _ _ (Forms.dev32_eq c) _ (by decide) _ (by decide) (owedX c (sPos 2 7))
      (mw_recv_peeled c 1 (Or.inl rfl) 7 1 (sPos 2 6) 2 7 (by decide) (by decide) (by decide))) $$ [H7 HO]
  · isplitr; · iexact HR
    isplitr; · iexact Hlev
    isplitl [H7]; · iexact H7
    iexact HO
  iintro %x28 %y28 %z28 ⟨H7, HO⟩

  ihave HO := (owes_peel c (sPos 2 7) 2 8 (by decide) (by decide)) $$ HO
  iapply (step_halving m K c 8 1 _ (by decide) _ (by decide) _ _ _ _ _ (Forms.off20_896_eq c) _ _ (by decide) _ _ (Forms.off21_896_eq c) _ (by decide) _ _ (by decide) _ _ (Forms.dev33_eq c) _ (by decide) _ (by decide) (owedX c (sPos 2 8))
      (mw_recv_peeled c 1 (Or.inl rfl) 8 1 (sPos 2 7) 2 8 (by decide) (by decide) (by decide))) $$ [H8 HO]
  · isplitr; · iexact HR
    isplitr; · iexact Hlev
    isplitl [H8]; · iexact H8
    iexact HO
  iintro %x29 %y29 %z29 ⟨H8, HO⟩

  ihave HO := (owes_peel c (sPos 2 8) 3 3 (by decide) (by decide)) $$ HO
  have hC : (![320, 0] : Fin 2 → Nat) = ![commOff 3 2, 0] := by decide
  have hdev : (⟨k0_dev34 c, k0_dev34_lt c⟩ : Dev nD) = pT c 3 0 := (Forms.dev34_eq c).trans ((by decide : ∀ c : Dev nD, par 2 c = pT c 3 0) c)
  iapply (step_last_halving m K c 3 16 (by decide) _ (sem_x1 3 2 _ _) _ _ _ _ _ (Forms.off22_128_eq c) _ _ hC _ _ (Forms.off23_128_eq c) _ _ hdev _ _ (sem_x2 3 0 _ _) (sem_x3 3 0 _ _) 3 rfl (owedX c (sPos 3 3))
      (mw_recv_peeled c 1 (Or.inl rfl) 3 2 (sPos 2 8) 3 3 (by decide) (by decide) (by decide))) $$ [H3 HO]
  · isplitr; · iexact HR
    isplitr; · iexact Hlev
    isplitl [H3]; · iexact H3
    iexact HO
  iintro %x30 %y30 %z30 ⟨H3, HO⟩
  clear hC hdev

  ihave HO := (owes_peel c (sPos 3 3) 3 4 (by decide) (by decide)) $$ HO
  have hC : (![432, 0] : Fin 2 → Nat) = ![commOff 4 2, 0] := by decide
  have hdev : (⟨k0_dev35 c, k0_dev35_lt c⟩ : Dev nD) = pT c 4 0 := (Forms.dev35_eq c).trans ((by decide : ∀ c : Dev nD, par 0 c = pT c 4 0) c)
  iapply (step_last_halving m K c 4 16 (by decide) _ (sem_x1 4 2 _ _) _ _ _ _ _ (Forms.off28_448_eq c) _ _ hC _ _ (Forms.off29_448_eq c) _ _ hdev _ _ (sem_x2 4 0 _ _) (sem_x3 4 0 _ _) 3 rfl (owedX c (sPos 3 4))
      (mw_recv_peeled c 1 (Or.inl rfl) 4 2 (sPos 3 3) 3 4 (by decide) (by decide) (by decide))) $$ [H4 HO]
  · isplitr; · iexact HR
    isplitr; · iexact Hlev
    isplitl [H4]; · iexact H4
    iexact HO
  iintro %x31 %y31 %z31 ⟨H4, HO⟩
  clear hC hdev

  ihave HO := (owes_peel c (sPos 3 4) 3 5 (by decide) (by decide)) $$ HO
  have hC : (![544, 0] : Fin 2 → Nat) = ![commOff 5 2, 0] := by decide
  have hdev : (⟨k0_dev36 c, k0_dev36_lt c⟩ : Dev nD) = pT c 5 0 := (Forms.dev36_eq c).trans ((by decide : ∀ c : Dev nD, par 1 c = pT c 5 0) c)
  iapply (step_last_halving m K c 5 16 (by decide) _ (sem_x1 5 2 _ _) _ _ _ _ _ (Forms.off30_768_eq c) _ _ hC _ _ (Forms.off31_768_eq c) _ _ hdev _ _ (sem_x2 5 0 _ _) (sem_x3 5 0 _ _) 3 rfl (owedX c (sPos 3 5))
      (mw_recv_peeled c 1 (Or.inl rfl) 5 2 (sPos 3 4) 3 5 (by decide) (by decide) (by decide))) $$ [H5 HO]
  · isplitr; · iexact HR
    isplitr; · iexact Hlev
    isplitl [H5]; · iexact H5
    iexact HO
  iintro %x32 %y32 %z32 ⟨H5, HO⟩
  clear hC hdev

  ihave HO := (owes_peel c (sPos 3 5) 4 0 (by decide) (by decide)) $$ HO
  have hdev : (⟨k0_dev37 c, k0_dev37_lt c⟩ : Dev nD) = pT c 0 1 := (Forms.dev37_eq c).trans ((by decide : ∀ c : Dev nD, par 1 c = pT c 0 1) c)
  iapply (step_doubling m K c 0 0 16 (by decide) _ (sem_x3 0 0 _ _) _ _ _ _ 32 (by decide) _ (Forms.off32_0_eq c) _ _ hdev _ _ (sem_x2 0 1 _ _) (sem_x3 0 1 _ _) 4 rfl (owedX c (sPos 4 0))
      (mw_recv_peeled c 3 (Or.inr rfl) 0 0 (sPos 3 5) 4 0 (by decide) (by decide) (by decide))) $$ [H0 HO]
  · isplitr; · iexact HR
    isplitr; · iexact Hlev
    isplitl [H0]; · iexact H0
    iexact HO
  iintro ⟨H0, HO⟩
  clear hdev

  ihave HO := (owes_peel c (sPos 4 0) 4 1 (by decide) (by decide)) $$ HO
  have hdev : (⟨k0_dev38 c, k0_dev38_lt c⟩ : Dev nD) = pT c 1 1 := (Forms.dev38_eq c).trans ((by decide : ∀ c : Dev nD, par 2 c = pT c 1 1) c)
  iapply (step_doubling m K c 1 0 8 (by decide) _ (sem_x3 1 0 _ _) _ _ _ _ 16 (by decide) _ (Forms.off33_eq c) _ _ hdev _ _ (sem_x2 1 1 _ _) (sem_x3 1 1 _ _) 4 rfl (owedX c (sPos 4 1))
      (mw_recv_peeled c 3 (Or.inr rfl) 1 0 (sPos 4 0) 4 1 (by decide) (by decide) (by decide))) $$ [H1 HO]
  · isplitr; · iexact HR
    isplitr; · iexact Hlev
    isplitl [H1]; · iexact H1
    iexact HO
  iintro ⟨H1, HO⟩
  clear hdev

  ihave HO := (owes_peel c (sPos 4 1) 4 2 (by decide) (by decide)) $$ HO
  have hdev : (⟨k0_dev39 c, k0_dev39_lt c⟩ : Dev nD) = pT c 2 1 := (Forms.dev39_eq c).trans ((by decide : ∀ c : Dev nD, par 0 c = pT c 2 1) c)
  iapply (step_doubling m K c 2 0 8 (by decide) _ (sem_x3 2 0 _ _) _ _ _ _ 16 (by decide) _ (Forms.off34_eq c) _ _ hdev _ _ (sem_x2 2 1 _ _) (sem_x3 2 1 _ _) 4 rfl (owedX c (sPos 4 2))
      (mw_recv_peeled c 3 (Or.inr rfl) 2 0 (sPos 4 1) 4 2 (by decide) (by decide) (by decide))) $$ [H2 HO]
  · isplitr; · iexact HR
    isplitr; · iexact Hlev
    isplitl [H2]; · iexact H2
    iexact HO
  iintro ⟨H2, HO⟩
  clear hdev

  ihave HO := (owes_peel c (sPos 4 2) 3 6 (by decide) (by decide)) $$ HO
  have hC : (![656, 0] : Fin 2 → Nat) = ![commOff 6 2, 0] := by decide
  have hdev : (⟨k0_dev40 c, k0_dev40_lt c⟩ : Dev nD) = pT c 6 0 := (Forms.dev40_eq c).trans ((by decide : ∀ c : Dev nD, par 2 c = pT c 6 0) c)
  iapply (step_last_halving m K c 6 16 (by decide) _ (sem_x1 6 2 _ _) _ _ _ _ _ (Forms.off22_256_eq c) _ _ hC _ _ (Forms.off23_256_eq c) _ _ hdev _ _ (sem_x2 6 0 _ _) (sem_x3 6 0 _ _) 3 rfl (owedX c (sPos 3 6))
      (mw_recv_peeled c 1 (Or.inl rfl) 6 2 (sPos 4 2) 3 6 (by decide) (by decide) (by decide))) $$ [H6 HO]
  · isplitr; · iexact HR
    isplitr; · iexact Hlev
    isplitl [H6]; · iexact H6
    iexact HO
  iintro %x33 %y33 %z33 ⟨H6, HO⟩
  clear hC hdev

  ihave HO := (owes_peel c (sPos 3 6) 3 7 (by decide) (by decide)) $$ HO
  have hC : (![768, 0] : Fin 2 → Nat) = ![commOff 7 2, 0] := by decide
  have hdev : (⟨k0_dev41 c, k0_dev41_lt c⟩ : Dev nD) = pT c 7 0 := (Forms.dev41_eq c).trans ((by decide : ∀ c : Dev nD, par 0 c = pT c 7 0) c)
  iapply (step_last_halving m K c 7 16 (by decide) _ (sem_x1 7 2 _ _) _ _ _ _ _ (Forms.off28_576_eq c) _ _ hC _ _ (Forms.off29_576_eq c) _ _ hdev _ _ (sem_x2 7 0 _ _) (sem_x3 7 0 _ _) 3 rfl (owedX c (sPos 3 7))
      (mw_recv_peeled c 1 (Or.inl rfl) 7 2 (sPos 3 6) 3 7 (by decide) (by decide) (by decide))) $$ [H7 HO]
  · isplitr; · iexact HR
    isplitr; · iexact Hlev
    isplitl [H7]; · iexact H7
    iexact HO
  iintro %x34 %y34 %z34 ⟨H7, HO⟩
  clear hC hdev

  ihave HO := (owes_peel c (sPos 3 7) 3 8 (by decide) (by decide)) $$ HO
  have hC : (![880, 0] : Fin 2 → Nat) = ![commOff 8 2, 0] := by decide
  have hdev : (⟨k0_dev42 c, k0_dev42_lt c⟩ : Dev nD) = pT c 8 0 := (Forms.dev42_eq c).trans ((by decide : ∀ c : Dev nD, par 1 c = pT c 8 0) c)
  iapply (step_last_halving m K c 8 16 (by decide) _ (sem_x1 8 2 _ _) _ _ _ _ _ (Forms.off30_896_eq c) _ _ hC _ _ (Forms.off31_896_eq c) _ _ hdev _ _ (sem_x2 8 0 _ _) (sem_x3 8 0 _ _) 3 rfl (owedX c (sPos 3 8))
      (mw_recv_peeled c 1 (Or.inl rfl) 8 2 (sPos 3 7) 3 8 (by decide) (by decide) (by decide))) $$ [H8 HO]
  · isplitr; · iexact HR
    isplitr; · iexact Hlev
    isplitl [H8]; · iexact H8
    iexact HO
  iintro %x35 %y35 %z35 ⟨H8, HO⟩
  clear hC hdev

  ihave HO := (owes_peel c (sPos 3 8) 4 3 (by decide) (by decide)) $$ HO
  have hdev : (⟨k0_dev43 c, k0_dev43_lt c⟩ : Dev nD) = pT c 3 1 := (Forms.dev43_eq c).trans ((by decide : ∀ c : Dev nD, par 1 c = pT c 3 1) c)
  iapply (step_doubling m K c 3 0 16 (by decide) _ (sem_x3 3 0 _ _) _ _ _ _ 32 (by decide) _ (Forms.off32_128_eq c) _ _ hdev _ _ (sem_x2 3 1 _ _) (sem_x3 3 1 _ _) 4 rfl (owedX c (sPos 4 3))
      (mw_recv_peeled c 3 (Or.inr rfl) 3 0 (sPos 3 8) 4 3 (by decide) (by decide) (by decide))) $$ [H3 HO]
  · isplitr; · iexact HR
    isplitr; · iexact Hlev
    isplitl [H3]; · iexact H3
    iexact HO
  iintro ⟨H3, HO⟩
  clear hdev

  ihave HO := (owes_peel c (sPos 4 3) 4 4 (by decide) (by decide)) $$ HO
  have hdev : (⟨k0_dev44 c, k0_dev44_lt c⟩ : Dev nD) = pT c 4 1 := (Forms.dev44_eq c).trans ((by decide : ∀ c : Dev nD, par 2 c = pT c 4 1) c)
  iapply (step_doubling m K c 4 0 16 (by decide) _ (sem_x3 4 0 _ _) _ _ _ _ 32 (by decide) _ (Forms.off35_448_eq c) _ _ hdev _ _ (sem_x2 4 1 _ _) (sem_x3 4 1 _ _) 4 rfl (owedX c (sPos 4 4))
      (mw_recv_peeled c 3 (Or.inr rfl) 4 0 (sPos 4 3) 4 4 (by decide) (by decide) (by decide))) $$ [H4 HO]
  · isplitr; · iexact HR
    isplitr; · iexact Hlev
    isplitl [H4]; · iexact H4
    iexact HO
  iintro ⟨H4, HO⟩
  clear hdev

  ihave HO := (owes_peel c (sPos 4 4) 4 5 (by decide) (by decide)) $$ HO
  have hdev : (⟨k0_dev45 c, k0_dev45_lt c⟩ : Dev nD) = pT c 5 1 := (Forms.dev45_eq c).trans ((by decide : ∀ c : Dev nD, par 0 c = pT c 5 1) c)
  iapply (step_doubling m K c 5 0 16 (by decide) _ (sem_x3 5 0 _ _) _ _ _ _ 32 (by decide) _ (Forms.off36_768_eq c) _ _ hdev _ _ (sem_x2 5 1 _ _) (sem_x3 5 1 _ _) 4 rfl (owedX c (sPos 4 5))
      (mw_recv_peeled c 3 (Or.inr rfl) 5 0 (sPos 4 4) 4 5 (by decide) (by decide) (by decide))) $$ [H5 HO]
  · isplitr; · iexact HR
    isplitr; · iexact Hlev
    isplitl [H5]; · iexact H5
    iexact HO
  iintro ⟨H5, HO⟩
  clear hdev

  ihave HO := (owes_peel c (sPos 4 5) 5 0 (by decide) (by decide)) $$ HO
  have hdev : (⟨k0_dev46 c, k0_dev46_lt c⟩ : Dev nD) = pT c 0 2 := (Forms.dev46_eq c).trans ((by decide : ∀ c : Dev nD, par 0 c = pT c 0 2) c)
  iapply (step_doubling m K c 0 1 32 (by decide) _ (sem_x3 0 1 _ _) _ _ _ _ 64 (by decide) _ (Forms.off37_0_eq c) _ _ hdev _ _ (sem_x2 0 2 _ _) (sem_x3 0 2 _ _) 5 rfl (owedX c (sPos 5 0))
      (mw_recv_peeled c 3 (Or.inr rfl) 0 1 (sPos 4 5) 5 0 (by decide) (by decide) (by decide))) $$ [H0 HO]
  · isplitr; · iexact HR
    isplitr; · iexact Hlev
    isplitl [H0]; · iexact H0
    iexact HO
  iintro ⟨H0, HO⟩
  clear hdev

  ihave HO := (owes_peel c (sPos 5 0) 5 1 (by decide) (by decide)) $$ HO
  have hdev : (⟨k0_dev47 c, k0_dev47_lt c⟩ : Dev nD) = pT c 1 2 := (Forms.dev47_eq c).trans ((by decide : ∀ c : Dev nD, par 1 c = pT c 1 2) c)
  iapply (step_doubling m K c 1 1 16 (by decide) _ (sem_x3 1 1 _ _) _ _ _ _ 32 (by decide) _ (Forms.off38_eq c) _ _ hdev _ _ (sem_x2 1 2 _ _) (sem_x3 1 2 _ _) 5 rfl (owedX c (sPos 5 1))
      (mw_recv_peeled c 3 (Or.inr rfl) 1 1 (sPos 5 0) 5 1 (by decide) (by decide) (by decide))) $$ [H1 HO]
  · isplitr; · iexact HR
    isplitr; · iexact Hlev
    isplitl [H1]; · iexact H1
    iexact HO
  iintro ⟨H1, HO⟩
  clear hdev

  ihave HO := (owes_peel c (sPos 5 1) 5 2 (by decide) (by decide)) $$ HO
  have hdev : (⟨k0_dev48 c, k0_dev48_lt c⟩ : Dev nD) = pT c 2 2 := (Forms.dev48_eq c).trans ((by decide : ∀ c : Dev nD, par 2 c = pT c 2 2) c)
  iapply (step_doubling m K c 2 1 16 (by decide) _ (sem_x3 2 1 _ _) _ _ _ _ 32 (by decide) _ (Forms.off39_eq c) _ _ hdev _ _ (sem_x2 2 2 _ _) (sem_x3 2 2 _ _) 5 rfl (owedX c (sPos 5 2))
      (mw_recv_peeled c 3 (Or.inr rfl) 2 1 (sPos 5 1) 5 2 (by decide) (by decide) (by decide))) $$ [H2 HO]
  · isplitr; · iexact HR
    isplitr; · iexact Hlev
    isplitl [H2]; · iexact H2
    iexact HO
  iintro ⟨H2, HO⟩
  clear hdev

  ihave HO := (owes_peel c (sPos 5 2) 4 6 (by decide) (by decide)) $$ HO
  have hdev : (⟨k0_dev49 c, k0_dev49_lt c⟩ : Dev nD) = pT c 6 1 := (Forms.dev49_eq c).trans ((by decide : ∀ c : Dev nD, par 1 c = pT c 6 1) c)
  iapply (step_doubling m K c 6 0 16 (by decide) _ (sem_x3 6 0 _ _) _ _ _ _ 32 (by decide) _ (Forms.off32_256_eq c) _ _ hdev _ _ (sem_x2 6 1 _ _) (sem_x3 6 1 _ _) 4 rfl (owedX c (sPos 4 6))
      (mw_recv_peeled c 3 (Or.inr rfl) 6 0 (sPos 5 2) 4 6 (by decide) (by decide) (by decide))) $$ [H6 HO]
  · isplitr; · iexact HR
    isplitr; · iexact Hlev
    isplitl [H6]; · iexact H6
    iexact HO
  iintro ⟨H6, HO⟩
  clear hdev

  ihave HO := (owes_peel c (sPos 4 6) 4 7 (by decide) (by decide)) $$ HO
  have hdev : (⟨k0_dev50 c, k0_dev50_lt c⟩ : Dev nD) = pT c 7 1 := (Forms.dev50_eq c).trans ((by decide : ∀ c : Dev nD, par 2 c = pT c 7 1) c)
  iapply (step_doubling m K c 7 0 16 (by decide) _ (sem_x3 7 0 _ _) _ _ _ _ 32 (by decide) _ (Forms.off35_576_eq c) _ _ hdev _ _ (sem_x2 7 1 _ _) (sem_x3 7 1 _ _) 4 rfl (owedX c (sPos 4 7))
      (mw_recv_peeled c 3 (Or.inr rfl) 7 0 (sPos 4 6) 4 7 (by decide) (by decide) (by decide))) $$ [H7 HO]
  · isplitr; · iexact HR
    isplitr; · iexact Hlev
    isplitl [H7]; · iexact H7
    iexact HO
  iintro ⟨H7, HO⟩
  clear hdev

  ihave HO := (owes_peel c (sPos 4 7) 4 8 (by decide) (by decide)) $$ HO
  have hdev : (⟨k0_dev51 c, k0_dev51_lt c⟩ : Dev nD) = pT c 8 1 := (Forms.dev51_eq c).trans ((by decide : ∀ c : Dev nD, par 0 c = pT c 8 1) c)
  iapply (step_doubling m K c 8 0 16 (by decide) _ (sem_x3 8 0 _ _) _ _ _ _ 32 (by decide) _ (Forms.off36_896_eq c) _ _ hdev _ _ (sem_x2 8 1 _ _) (sem_x3 8 1 _ _) 4 rfl (owedX c (sPos 4 8))
      (mw_recv_peeled c 3 (Or.inr rfl) 8 0 (sPos 4 7) 4 8 (by decide) (by decide) (by decide))) $$ [H8 HO]
  · isplitr; · iexact HR
    isplitr; · iexact Hlev
    isplitl [H8]; · iexact H8
    iexact HO
  iintro ⟨H8, HO⟩
  clear hdev

  ihave HO := (owes_peel c (sPos 4 8) 5 3 (by decide) (by decide)) $$ HO
  have hdev : (⟨k0_dev52 c, k0_dev52_lt c⟩ : Dev nD) = pT c 3 2 := (Forms.dev52_eq c).trans ((by decide : ∀ c : Dev nD, par 0 c = pT c 3 2) c)
  iapply (step_doubling m K c 3 1 32 (by decide) _ (sem_x3 3 1 _ _) _ _ _ _ 64 (by decide) _ (Forms.off37_128_eq c) _ _ hdev _ _ (sem_x2 3 2 _ _) (sem_x3 3 2 _ _) 5 rfl (owedX c (sPos 5 3))
      (mw_recv_peeled c 3 (Or.inr rfl) 3 1 (sPos 4 8) 5 3 (by decide) (by decide) (by decide))) $$ [H3 HO]
  · isplitr; · iexact HR
    isplitr; · iexact Hlev
    isplitl [H3]; · iexact H3
    iexact HO
  iintro ⟨H3, HO⟩
  clear hdev

  ihave HO := (owes_peel c (sPos 5 3) 5 4 (by decide) (by decide)) $$ HO
  have hdev : (⟨k0_dev53 c, k0_dev53_lt c⟩ : Dev nD) = pT c 4 2 := (Forms.dev53_eq c).trans ((by decide : ∀ c : Dev nD, par 1 c = pT c 4 2) c)
  iapply (step_doubling m K c 4 1 32 (by decide) _ (sem_x3 4 1 _ _) _ _ _ _ 64 (by decide) _ (Forms.off40_448_eq c) _ _ hdev _ _ (sem_x2 4 2 _ _) (sem_x3 4 2 _ _) 5 rfl (owedX c (sPos 5 4))
      (mw_recv_peeled c 3 (Or.inr rfl) 4 1 (sPos 5 3) 5 4 (by decide) (by decide) (by decide))) $$ [H4 HO]
  · isplitr; · iexact HR
    isplitr; · iexact Hlev
    isplitl [H4]; · iexact H4
    iexact HO
  iintro ⟨H4, HO⟩
  clear hdev

  ihave HO := (owes_peel c (sPos 5 4) 5 5 (by decide) (by decide)) $$ HO
  have hdev : (⟨k0_dev54 c, k0_dev54_lt c⟩ : Dev nD) = pT c 5 2 := (Forms.dev54_eq c).trans ((by decide : ∀ c : Dev nD, par 2 c = pT c 5 2) c)
  iapply (step_doubling m K c 5 1 32 (by decide) _ (sem_x3 5 1 _ _) _ _ _ _ 64 (by decide) _ (Forms.off41_768_eq c) _ _ hdev _ _ (sem_x2 5 2 _ _) (sem_x3 5 2 _ _) 5 rfl (owedX c (sPos 5 5))
      (mw_recv_peeled c 3 (Or.inr rfl) 5 1 (sPos 5 4) 5 5 (by decide) (by decide) (by decide))) $$ [H5 HO]
  · isplitr; · iexact HR
    isplitr; · iexact Hlev
    isplitl [H5]; · iexact H5
    iexact HO
  iintro ⟨H5, HO⟩
  clear hdev

  iapply (step_last_landing m K c 0 64 (by decide) _ (sem_x3 0 2 _ _) _ _ _ _ (owedX c (sPos 5 5)) (mayWait_recv_at c 3 (Or.inr rfl) 0 2 (sPos 5 5) (by decide))) $$ [H0 HO]
  · isplitr; · iexact HR
    isplitr; · iexact Hlev
    isplitl [H0]; · iexact H0
    iexact HO
  iintro ⟨H0, HO⟩

  iapply (step_last_landing m K c 1 32 (by decide) _ (sem_x3 1 2 _ _) _ _ _ _ (owedX c (sPos 5 5)) (mayWait_recv_at c 3 (Or.inr rfl) 1 2 (sPos 5 5) (by decide))) $$ [H1 HO]
  · isplitr; · iexact HR
    isplitr; · iexact Hlev
    isplitl [H1]; · iexact H1
    iexact HO
  iintro ⟨H1, HO⟩

  iapply (step_last_landing m K c 2 32 (by decide) _ (sem_x3 2 2 _ _) _ _ _ _ (owedX c (sPos 5 5)) (mayWait_recv_at c 3 (Or.inr rfl) 2 2 (sPos 5 5) (by decide))) $$ [H2 HO]
  · isplitr; · iexact HR
    isplitr; · iexact Hlev
    isplitl [H2]; · iexact H2
    iexact HO
  iintro ⟨H2, HO⟩

  ihave HO := (owes_peel c (sPos 5 5) 5 6 (by decide) (by decide)) $$ HO
  have hdev : (⟨k0_dev55 c, k0_dev55_lt c⟩ : Dev nD) = pT c 6 2 := (Forms.dev55_eq c).trans ((by decide : ∀ c : Dev nD, par 0 c = pT c 6 2) c)
  iapply (step_doubling m K c 6 1 32 (by decide) _ (sem_x3 6 1 _ _) _ _ _ _ 64 (by decide) _ (Forms.off37_256_eq c) _ _ hdev _ _ (sem_x2 6 2 _ _) (sem_x3 6 2 _ _) 5 rfl (owedX c (sPos 5 6))
      (mw_recv_peeled c 3 (Or.inr rfl) 6 1 (sPos 5 5) 5 6 (by decide) (by decide) (by decide))) $$ [H6 HO]
  · isplitr; · iexact HR
    isplitr; · iexact Hlev
    isplitl [H6]; · iexact H6
    iexact HO
  iintro ⟨H6, HO⟩
  clear hdev

  ihave HO := (owes_peel c (sPos 5 6) 5 7 (by decide) (by decide)) $$ HO
  have hdev : (⟨k0_dev56 c, k0_dev56_lt c⟩ : Dev nD) = pT c 7 2 := (Forms.dev56_eq c).trans ((by decide : ∀ c : Dev nD, par 1 c = pT c 7 2) c)
  iapply (step_doubling m K c 7 1 32 (by decide) _ (sem_x3 7 1 _ _) _ _ _ _ 64 (by decide) _ (Forms.off40_576_eq c) _ _ hdev _ _ (sem_x2 7 2 _ _) (sem_x3 7 2 _ _) 5 rfl (owedX c (sPos 5 7))
      (mw_recv_peeled c 3 (Or.inr rfl) 7 1 (sPos 5 6) 5 7 (by decide) (by decide) (by decide))) $$ [H7 HO]
  · isplitr; · iexact HR
    isplitr; · iexact Hlev
    isplitl [H7]; · iexact H7
    iexact HO
  iintro ⟨H7, HO⟩
  clear hdev

  ihave HO := (owes_peel c (sPos 5 7) 5 8 (by decide) (by decide)) $$ HO
  have hdev : (⟨k0_dev57 c, k0_dev57_lt c⟩ : Dev nD) = pT c 8 2 := (Forms.dev57_eq c).trans ((by decide : ∀ c : Dev nD, par 2 c = pT c 8 2) c)
  iapply (step_doubling m K c 8 1 32 (by decide) _ (sem_x3 8 1 _ _) _ _ _ _ 64 (by decide) _ (Forms.off41_896_eq c) _ _ hdev _ _ (sem_x2 8 2 _ _) (sem_x3 8 2 _ _) 5 rfl (owedX c (sPos 5 8))
      (mw_recv_peeled c 3 (Or.inr rfl) 8 1 (sPos 5 7) 5 8 (by decide) (by decide) (by decide))) $$ [H8 HO]
  · isplitr; · iexact HR
    isplitr; · iexact Hlev
    isplitl [H8]; · iexact H8
    iexact HO
  iintro ⟨H8, HO⟩
  clear hdev

  iapply (step_last_landing m K c 3 64 (by decide) _ (sem_x3 3 2 _ _) _ _ _ _ (owedX c (sPos 5 8)) (mayWait_recv_at c 3 (Or.inr rfl) 3 2 (sPos 5 8) (by decide))) $$ [H3 HO]
  · isplitr; · iexact HR
    isplitr; · iexact Hlev
    isplitl [H3]; · iexact H3
    iexact HO
  iintro ⟨H3, HO⟩

  iapply (step_last_landing m K c 4 64 (by decide) _ (sem_x3 4 2 _ _) _ _ _ _ (owedX c (sPos 5 8)) (mayWait_recv_at c 3 (Or.inr rfl) 4 2 (sPos 5 8) (by decide))) $$ [H4 HO]
  · isplitr; · iexact HR
    isplitr; · iexact Hlev
    isplitl [H4]; · iexact H4
    iexact HO
  iintro ⟨H4, HO⟩

  iapply (step_last_landing m K c 5 64 (by decide) _ (sem_x3 5 2 _ _) _ _ _ _ (owedX c (sPos 5 8)) (mayWait_recv_at c 3 (Or.inr rfl) 5 2 (sPos 5 8) (by decide))) $$ [H5 HO]
  · isplitr; · iexact HR
    isplitr; · iexact Hlev
    isplitl [H5]; · iexact H5
    iexact HO
  iintro ⟨H5, HO⟩

  iapply (step_last_landing m K c 6 64 (by decide) _ (sem_x3 6 2 _ _) _ _ _ _ (owedX c (sPos 5 8)) (mayWait_recv_at c 3 (Or.inr rfl) 6 2 (sPos 5 8) (by decide))) $$ [H6 HO]
  · isplitr; · iexact HR
    isplitr; · iexact Hlev
    isplitl [H6]; · iexact H6
    iexact HO
  iintro ⟨H6, HO⟩

  iapply (step_last_landing m K c 7 64 (by decide) _ (sem_x3 7 2 _ _) _ _ _ _ (owedX c (sPos 5 8)) (mayWait_recv_at c 3 (Or.inr rfl) 7 2 (sPos 5 8) (by decide))) $$ [H7 HO]
  · isplitr; · iexact HR
    isplitr; · iexact Hlev
    isplitl [H7]; · iexact H7
    iexact HO
  iintro ⟨H7, HO⟩

  iapply (step_last_landing m K c 8 64 (by decide) _ (sem_x3 8 2 _ _) _ _ _ _ (owedX c (sPos 5 8)) (mayWait_recv_at c 3 (Or.inr rfl) 8 2 (sPos 5 8) (by decide))) $$ [H8 HO]
  · isplitr; · iexact HR
    isplitr; · iexact Hlev
    isplitl [H8]; · iexact H8
    iexact HO
  iintro ⟨H8, HO⟩

  iapply (step_wait_send_0 m K c 0 _ (sem_x0 0 0 _ _) _ _ rfl (owedX c (sPos 5 8)) (mayWait_send c 0 (Or.inl rfl) 0 0 (sPos 5 8))) $$ [$]
  iintro ⟨H0, HO⟩

  iapply (step_wait_send_0 m K c 1 _ (sem_x0 1 0 _ _) _ _ rfl (owedX c (sPos 5 8)) (mayWait_send c 0 (Or.inl rfl) 1 0 (sPos 5 8))) $$ [$]
  iintro ⟨H1, HO⟩

  iapply (step_wait_send_0 m K c 2 _ (sem_x0 2 0 _ _) _ _ rfl (owedX c (sPos 5 8)) (mayWait_send c 0 (Or.inl rfl) 2 0 (sPos 5 8))) $$ [$]
  iintro ⟨H2, HO⟩

  iapply (step_wait_send_0 m K c 3 _ (sem_x0 3 0 _ _) _ _ rfl (owedX c (sPos 5 8)) (mayWait_send c 0 (Or.inl rfl) 3 0 (sPos 5 8))) $$ [$]
  iintro ⟨H3, HO⟩

  iapply (step_wait_send_0 m K c 4 _ (sem_x0 4 0 _ _) _ _ rfl (owedX c (sPos 5 8)) (mayWait_send c 0 (Or.inl rfl) 4 0 (sPos 5 8))) $$ [$]
  iintro ⟨H4, HO⟩

  iapply (step_wait_send_0 m K c 5 _ (sem_x0 5 0 _ _) _ _ rfl (owedX c (sPos 5 8)) (mayWait_send c 0 (Or.inl rfl) 5 0 (sPos 5 8))) $$ [$]
  iintro ⟨H5, HO⟩

  iapply (step_wait_send_1 m K c 0 _ (sem_x0 0 1 _ _) _ _ rfl (owedX c (sPos 5 8)) (mayWait_send c 0 (Or.inl rfl) 0 1 (sPos 5 8))) $$ [$]
  iintro ⟨H0, HO⟩

  iapply (step_wait_send_1 m K c 1 _ (sem_x0 1 1 _ _) _ _ rfl (owedX c (sPos 5 8)) (mayWait_send c 0 (Or.inl rfl) 1 1 (sPos 5 8))) $$ [$]
  iintro ⟨H1, HO⟩

  iapply (step_wait_send_1 m K c 2 _ (sem_x0 2 1 _ _) _ _ rfl (owedX c (sPos 5 8)) (mayWait_send c 0 (Or.inl rfl) 2 1 (sPos 5 8))) $$ [$]
  iintro ⟨H2, HO⟩

  iapply (step_wait_send_0 m K c 6 _ (sem_x0 6 0 _ _) _ _ rfl (owedX c (sPos 5 8)) (mayWait_send c 0 (Or.inl rfl) 6 0 (sPos 5 8))) $$ [$]
  iintro ⟨H6, HO⟩

  iapply (step_wait_send_0 m K c 7 _ (sem_x0 7 0 _ _) _ _ rfl (owedX c (sPos 5 8)) (mayWait_send c 0 (Or.inl rfl) 7 0 (sPos 5 8))) $$ [$]
  iintro ⟨H7, HO⟩

  iapply (step_wait_send_0 m K c 8 _ (sem_x0 8 0 _ _) _ _ rfl (owedX c (sPos 5 8)) (mayWait_send c 0 (Or.inl rfl) 8 0 (sPos 5 8))) $$ [$]
  iintro ⟨H8, HO⟩

  iapply (step_wait_send_1 m K c 3 _ (sem_x0 3 1 _ _) _ _ rfl (owedX c (sPos 5 8)) (mayWait_send c 0 (Or.inl rfl) 3 1 (sPos 5 8))) $$ [$]
  iintro ⟨H3, HO⟩

  iapply (step_wait_send_1 m K c 4 _ (sem_x0 4 1 _ _) _ _ rfl (owedX c (sPos 5 8)) (mayWait_send c 0 (Or.inl rfl) 4 1 (sPos 5 8))) $$ [$]
  iintro ⟨H4, HO⟩

  iapply (step_wait_send_1 m K c 5 _ (sem_x0 5 1 _ _) _ _ rfl (owedX c (sPos 5 8)) (mayWait_send c 0 (Or.inl rfl) 5 1 (sPos 5 8))) $$ [$]
  iintro ⟨H5, HO⟩

  iapply (step_wait_send_2 m K c 0 _ (sem_x0 0 2 _ _) _ _ rfl (owedX c (sPos 5 8)) (mayWait_send c 0 (Or.inl rfl) 0 2 (sPos 5 8))) $$ [$]
  iintro ⟨H0, HO⟩

  iapply (step_wait_send_2 m K c 1 _ (sem_x0 1 2 _ _) _ _ rfl (owedX c (sPos 5 8)) (mayWait_send c 0 (Or.inl rfl) 1 2 (sPos 5 8))) $$ [$]
  iintro ⟨H1, HO⟩

  iapply (step_wait_send_2 m K c 2 _ (sem_x0 2 2 _ _) _ _ rfl (owedX c (sPos 5 8)) (mayWait_send c 0 (Or.inl rfl) 2 2 (sPos 5 8))) $$ [$]
  iintro ⟨H2, HO⟩

  iapply (step_wait_send_1 m K c 6 _ (sem_x0 6 1 _ _) _ _ rfl (owedX c (sPos 5 8)) (mayWait_send c 0 (Or.inl rfl) 6 1 (sPos 5 8))) $$ [$]
  iintro ⟨H6, HO⟩

  iapply (step_wait_send_1 m K c 7 _ (sem_x0 7 1 _ _) _ _ rfl (owedX c (sPos 5 8)) (mayWait_send c 0 (Or.inl rfl) 7 1 (sPos 5 8))) $$ [$]
  iintro ⟨H7, HO⟩

  iapply (step_wait_send_1 m K c 8 _ (sem_x0 8 1 _ _) _ _ rfl (owedX c (sPos 5 8)) (mayWait_send c 0 (Or.inl rfl) 8 1 (sPos 5 8))) $$ [$]
  iintro ⟨H8, HO⟩

  iapply (step_wait_send_2 m K c 3 _ (sem_x0 3 2 _ _) _ _ rfl (owedX c (sPos 5 8)) (mayWait_send c 0 (Or.inl rfl) 3 2 (sPos 5 8))) $$ [$]
  iintro ⟨H3, HO⟩

  iapply (step_wait_send_2 m K c 4 _ (sem_x0 4 2 _ _) _ _ rfl (owedX c (sPos 5 8)) (mayWait_send c 0 (Or.inl rfl) 4 2 (sPos 5 8))) $$ [$]
  iintro ⟨H4, HO⟩

  iapply (step_wait_send_2 m K c 5 _ (sem_x0 5 2 _ _) _ _ rfl (owedX c (sPos 5 8)) (mayWait_send c 0 (Or.inl rfl) 5 2 (sPos 5 8))) $$ [$]
  iintro ⟨H5, HO⟩

  iapply (step_wait_send_3 m K c 0 _ (sem_x2 0 0 _ _) _ _ rfl (owedX c (sPos 5 8)) (mayWait_send c 2 (Or.inr rfl) 0 0 (sPos 5 8))) $$ [$]
  iintro ⟨H0, HO⟩

  iapply (step_wait_send_3 m K c 1 _ (sem_x2 1 0 _ _) _ _ rfl (owedX c (sPos 5 8)) (mayWait_send c 2 (Or.inr rfl) 1 0 (sPos 5 8))) $$ [$]
  iintro ⟨H1, HO⟩

  iapply (step_wait_send_3 m K c 2 _ (sem_x2 2 0 _ _) _ _ rfl (owedX c (sPos 5 8)) (mayWait_send c 2 (Or.inr rfl) 2 0 (sPos 5 8))) $$ [$]
  iintro ⟨H2, HO⟩

  iapply (step_wait_send_2 m K c 6 _ (sem_x0 6 2 _ _) _ _ rfl (owedX c (sPos 5 8)) (mayWait_send c 0 (Or.inl rfl) 6 2 (sPos 5 8))) $$ [$]
  iintro ⟨H6, HO⟩

  iapply (step_wait_send_2 m K c 7 _ (sem_x0 7 2 _ _) _ _ rfl (owedX c (sPos 5 8)) (mayWait_send c 0 (Or.inl rfl) 7 2 (sPos 5 8))) $$ [$]
  iintro ⟨H7, HO⟩

  iapply (step_wait_send_2 m K c 8 _ (sem_x0 8 2 _ _) _ _ rfl (owedX c (sPos 5 8)) (mayWait_send c 0 (Or.inl rfl) 8 2 (sPos 5 8))) $$ [$]
  iintro ⟨H8, HO⟩

  iapply (step_wait_send_3 m K c 3 _ (sem_x2 3 0 _ _) _ _ rfl (owedX c (sPos 5 8)) (mayWait_send c 2 (Or.inr rfl) 3 0 (sPos 5 8))) $$ [$]
  iintro ⟨H3, HO⟩

  iapply (step_wait_send_3 m K c 4 _ (sem_x2 4 0 _ _) _ _ rfl (owedX c (sPos 5 8)) (mayWait_send c 2 (Or.inr rfl) 4 0 (sPos 5 8))) $$ [$]
  iintro ⟨H4, HO⟩

  iapply (step_wait_send_3 m K c 5 _ (sem_x2 5 0 _ _) _ _ rfl (owedX c (sPos 5 8)) (mayWait_send c 2 (Or.inr rfl) 5 0 (sPos 5 8))) $$ [$]
  iintro ⟨H5, HO⟩

  iapply (step_wait_send_4 m K c 0 _ (sem_x2 0 1 _ _) _ _ rfl (owedX c (sPos 5 8)) (mayWait_send c 2 (Or.inr rfl) 0 1 (sPos 5 8))) $$ [$]
  iintro ⟨H0, HO⟩

  iapply (step_wait_send_4 m K c 1 _ (sem_x2 1 1 _ _) _ _ rfl (owedX c (sPos 5 8)) (mayWait_send c 2 (Or.inr rfl) 1 1 (sPos 5 8))) $$ [$]
  iintro ⟨H1, HO⟩

  iapply (step_wait_send_4 m K c 2 _ (sem_x2 2 1 _ _) _ _ rfl (owedX c (sPos 5 8)) (mayWait_send c 2 (Or.inr rfl) 2 1 (sPos 5 8))) $$ [$]
  iintro ⟨H2, HO⟩

  iapply (step_wait_send_3 m K c 6 _ (sem_x2 6 0 _ _) _ _ rfl (owedX c (sPos 5 8)) (mayWait_send c 2 (Or.inr rfl) 6 0 (sPos 5 8))) $$ [$]
  iintro ⟨H6, HO⟩

  iapply (step_wait_send_3 m K c 7 _ (sem_x2 7 0 _ _) _ _ rfl (owedX c (sPos 5 8)) (mayWait_send c 2 (Or.inr rfl) 7 0 (sPos 5 8))) $$ [$]
  iintro ⟨H7, HO⟩

  iapply (step_wait_send_3 m K c 8 _ (sem_x2 8 0 _ _) _ _ rfl (owedX c (sPos 5 8)) (mayWait_send c 2 (Or.inr rfl) 8 0 (sPos 5 8))) $$ [$]
  iintro ⟨H8, HO⟩

  iapply (step_wait_send_4 m K c 3 _ (sem_x2 3 1 _ _) _ _ rfl (owedX c (sPos 5 8)) (mayWait_send c 2 (Or.inr rfl) 3 1 (sPos 5 8))) $$ [$]
  iintro ⟨H3, HO⟩

  iapply (step_wait_send_4 m K c 4 _ (sem_x2 4 1 _ _) _ _ rfl (owedX c (sPos 5 8)) (mayWait_send c 2 (Or.inr rfl) 4 1 (sPos 5 8))) $$ [$]
  iintro ⟨H4, HO⟩

  iapply (step_wait_send_4 m K c 5 _ (sem_x2 5 1 _ _) _ _ rfl (owedX c (sPos 5 8)) (mayWait_send c 2 (Or.inr rfl) 5 1 (sPos 5 8))) $$ [$]
  iintro ⟨H5, HO⟩

  iapply (step_wait_send_5 m K c 0 _ (sem_x2 0 2 _ _) _ _ rfl (owedX c (sPos 5 8)) (mayWait_send c 2 (Or.inr rfl) 0 2 (sPos 5 8))) $$ [$]
  iintro ⟨H0, HO⟩

  iapply (step_wait_send_5 m K c 1 _ (sem_x2 1 2 _ _) _ _ rfl (owedX c (sPos 5 8)) (mayWait_send c 2 (Or.inr rfl) 1 2 (sPos 5 8))) $$ [$]
  iintro ⟨H1, HO⟩

  iapply (step_wait_send_5 m K c 2 _ (sem_x2 2 2 _ _) _ _ rfl (owedX c (sPos 5 8)) (mayWait_send c 2 (Or.inr rfl) 2 2 (sPos 5 8))) $$ [$]
  iintro ⟨H2, HO⟩

  iapply (step_wait_send_4 m K c 6 _ (sem_x2 6 1 _ _) _ _ rfl (owedX c (sPos 5 8)) (mayWait_send c 2 (Or.inr rfl) 6 1 (sPos 5 8))) $$ [$]
  iintro ⟨H6, HO⟩

  iapply (step_wait_send_4 m K c 7 _ (sem_x2 7 1 _ _) _ _ rfl (owedX c (sPos 5 8)) (mayWait_send c 2 (Or.inr rfl) 7 1 (sPos 5 8))) $$ [$]
  iintro ⟨H7, HO⟩

  iapply (step_wait_send_4 m K c 8 _ (sem_x2 8 1 _ _) _ _ rfl (owedX c (sPos 5 8)) (mayWait_send c 2 (Or.inr rfl) 8 1 (sPos 5 8))) $$ [$]
  iintro ⟨H8, HO⟩

  iapply (step_wait_send_5 m K c 3 _ (sem_x2 3 2 _ _) _ _ rfl (owedX c (sPos 5 8)) (mayWait_send c 2 (Or.inr rfl) 3 2 (sPos 5 8))) $$ [$]
  iintro ⟨H3, HO⟩

  iapply (step_wait_send_5 m K c 4 _ (sem_x2 4 2 _ _) _ _ rfl (owedX c (sPos 5 8)) (mayWait_send c 2 (Or.inr rfl) 4 2 (sPos 5 8))) $$ [$]
  iintro ⟨H4, HO⟩

  iapply (step_wait_send_5 m K c 5 _ (sem_x2 5 2 _ _) _ _ rfl (owedX c (sPos 5 8)) (mayWait_send c 2 (Or.inr rfl) 5 2 (sPos 5 8))) $$ [$]
  iintro ⟨H5, HO⟩

  iapply (step_wait_send_5 m K c 6 _ (sem_x2 6 2 _ _) _ _ rfl (owedX c (sPos 5 8)) (mayWait_send c 2 (Or.inr rfl) 6 2 (sPos 5 8))) $$ [$]
  iintro ⟨H6, HO⟩

  iapply (step_wait_send_5 m K c 7 _ (sem_x2 7 2 _ _) _ _ rfl (owedX c (sPos 5 8)) (mayWait_send c 2 (Or.inr rfl) 7 2 (sPos 5 8))) $$ [$]
  iintro ⟨H7, HO⟩

  iapply (step_wait_send_5 m K c 8 _ (sem_x2 8 2 _ _) _ _ rfl (owedX c (sPos 5 8)) (mayWait_send c 2 (Or.inr rfl) 8 2 (sPos 5 8))) $$ [$]
  iintro ⟨H8, HO⟩

  ihave Hall := (Entails.of_eq (bigSep_fin9 fun j => chunkSt (part m) c j 14).symm) $$ [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  ihave Hcl := (chunks_close m c) $$ Hall
  icases Hcl with ⟨Houts, Hslabs, Hzeros⟩

  iapply (step_exit m K c _ _ _ (dev58_eq c) (dev59_eq c) (dev60_eq c) _ rfl _ _ _ _ rfl rfl rfl rfl (sPos 5 8) (owedP_last c (sPos 5 8) (by decide))) $$ [Hexit HO]
  · isplitr; · iexact HR
    isplitr; · iexact Hlev
    isplitl [Hexit]; · iexact Hexit
    iexact HO
  iintro ⟨Hz, HO⟩
  rw [wp_ret]; imodintro
  iapply Hk
  iapply (body_finish m c)
  isplitl [Houts]; · iexact Houts
  isplitl [Hslabs]; · iexact Hslabs
  isplitl [Hzeros]; · iexact Hzeros
  isplitl [Hz]; · iexact Hz
  isplitl [HO]; · iexact HO
  isplitl [HA]; · iexact HA
  iexact HB

end Cert.KernelIdeal.Bfly

end
-- ==== Proof.LaunchIdeal.lean ====
import proofs.«900883_g7700000000000884_dist_matmul_k_i_m1024_n1024_k512_v7x_i8_f32_1_alg».proof.Proof.BodyDefsIdeal
import proofs.«900883_g7700000000000884_dist_matmul_k_i_m1024_n1024_k512_v7x_i8_f32_1_alg».proof.Proof.TablesIdeal
import proofs.«900883_g7700000000000884_dist_matmul_k_i_m1024_n1024_k512_v7x_i8_f32_1_alg».proof.Proof.LevelsIdeal
import proofs.«900883_g7700000000000884_dist_matmul_k_i_m1024_n1024_k512_v7x_i8_f32_1_alg».proof.Proof.Gen.KernelIdeal.Launch
import proofs.«900883_g7700000000000884_dist_matmul_k_i_m1024_n1024_k512_v7x_i8_f32_1_alg».proof.Proof.Gen.KernelIdeal.Points
import proofs.«900883_g7700000000000884_dist_matmul_k_i_m1024_n1024_k512_v7x_i8_f32_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.Bfly

open Cert.KernelIdeal Cert.KernelIdeal.Gen Cert.Butterfly
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem fin_N (t : Fin cfg0.N) : t = t0_0 := fin_N0 t

instance Rd_payload_storable (P : Dev nD → Mat F) (g : GSem nD τ sig) (r : ℕ) (d : Fin 3) :
    BI.Storable (upEmb : UEmb _ 𝕄) ((Rd P).payload g r d) := by
  obtain ⟨thr, sm⟩ := g
  cases sm with
  | reg x =>
      show BI.Storable upEmb (if x = barS then barPay thr.1 d else iprop(emp))
      unfold barPay
      split <;> infer_instance
  | dma q =>
      show BI.Storable upEmb (if arrOf q = 1 then rsRecvPay P thr.1 (chunkIx q) (stepIx q)
        else if arrOf q = 2 then agSendPay P thr.1 (chunkIx q) (stepIx q)
        else if arrOf q = 3 then agRecvPay P thr.1 (chunkIx q) (stepIx q) else iprop(emp))
      unfold rsRecvPay agSendPay agRecvPay
      (repeat' split) <;> infer_instance

def Φ₀ (c : Dev nD) : sProp 𝕄 :=
  iprop((∃ K, records m K ∗ linear c) ∗ levAts L lv ∗ (∃ f : Buf (Elt F) (commLoc c), (commLoc c ↦{fullShare} f)))

def Φ₁ (c : Dev nD) : sProp 𝕄 :=
  iprop((∃ f : Buf (Elt F) (commLoc c), (commLoc c ↦{fullShare} f)) ∗ ownZero c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aS m c
    | ⟨1, _⟩ => bS m c
    | ⟨2, _⟩ => fin (part m)
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem share_eq (c : Dev nD) (w : Fin cfg0.W) : (dats m ρ 0 c).share w = fullShare := by unfold Dat.share; split <;> rfl

theorem fetch_0 (t : Fin cfg0.N) : (cfg0.win (0 : Fin 3)).fetch t = true := fetch0_0 t
theorem fetch_1 (t : Fin cfg0.N) : (cfg0.win (1 : Fin 3)).fetch t = true := fetch0_1 t

def bodyPre' (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost' (c : Dev nD) : sProp 𝕄 :=
  iprop(Φ₁ c ∗ (dats m ρ 0 c).owesAt () t0_0.succ
    ∗ stg c cc0_stg0_0 (aS m c) ∗ stg c cc0_stg1_0 (bS m c) ∗ stg c cc0_stg2_0 (fin (part m)))

theorem body_obligation (hbody : SoundBody (F := F) m) (c : Dev nD) :
    BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ (theBody (F := F)) (fun _ => bodyPost' m ρ c)
  unfold bodyPre' Φ₀
  iintro ⟨⟨⟨%K, Hrec, Hlin⟩, Hlev, Hcomm⟩, Ho, ⟨%d0, %g0, %hg0, Hx⟩, ⟨%d1, %g1, %hg1, Hy⟩, ⟨%d2, %g2, %hg2, Hout⟩⟩
  have hx : g0 = aS m c := by rw [hg0]; unfold Dat.before; rw [if_pos (fetch_0 t0_0)]; rfl
  have hy : g1 = bS m c := by rw [hg1]; unfold Dat.before; rw [if_pos (fetch_1 t0_0)]; rfl
  subst hx hy
  unfold Dat.owesAt Pipeline.owesWithin
  icases Ho with ⟨%W, %hW, HO⟩
  rw [show (dats m ρ 0 c).owed t0_0.castSucc = O₀ c from rfl]
  iapply (hbody K c fun _ => bodyPost' m ρ c)
  unfold bodyPre
  isplitr []
  · isplitl [Hrec]; · iexact Hrec
    isplitl [Hlev]; · iexact Hlev
    isplitl [Hlin]; · iexact Hlin
    isplitl [HO]; · iexists W; iexact HO
    isplitl [Hcomm]; · iexact Hcomm
    isplitl [Hx]
    · iexists _; isplitr; · (ipureintro; rfl)
      iexact Hx
    isplitl [Hy]
    · iexists _; isplitr; · (ipureintro; rfl)
      iexact Hy
    iexists g2; iexact Hout
  · unfold bodyPost bodyPost' Φ₁ Dat.owesAt Pipeline.owesWithin
    rw [show (dats m ρ 0 c).owed t0_0.succ = 0 from rfl]
    iintro ⟨Hcomm, Hz, ⟨%W', HO⟩, Hx, Hy, Hout⟩
    isplitl [Hcomm Hz]
    · isplitl [Hcomm] <;> iassumption
    isplitl [HO]
    · iexists W'
      isplitr; · ipureintro; exact fun _ _ => Or.inl trivial
      iexact HO
    isplitl [Hx]; · iexact Hx
    isplitl [Hy] <;> iassumption

theorem bigSep_univ_option {α : Type} [Fintype α] (Φ : Option α → sProp 𝕄) :
    bigSep Finset.univ Φ = iprop(Φ none ∗ bigSep Finset.univ fun a : α => Φ (some a)) := by
  rw [bigSep_univ_equiv (Equiv.optionEquivSumPUnit.{0, 0} α).symm Φ, bigSep_univ_sum,
    bigSep_univ_of_subsingleton PUnit.unit.{1}]
  exact BI.Entails.antisymm BI.sep_comm BI.sep_comm

abbrev XK : Type := Fin 4 × Fin 9 × Fin 3

abbrev osem : Option XK → SemLoc sig := fun k => csem (some k)

theorem xsem_inj {a a' : Fin 4} {j j' : Fin 9} {s s' : Fin 3} (h : xsem a j s = xsem a' j' s') : a = a' ∧ j = j' ∧ s = s' :=
  ⟨by rw [← arrOf_xsem a j s, h, arrOf_xsem], by rw [← chunkIx_xsem a j s, h, chunkIx_xsem], by rw [← stepIx_xsem a j s, h, stepIx_xsem]⟩

theorem csem_injective : Function.Injective csem := by
  intro k k' h
  match k, k' with
  | none, none => rfl
  | none, some none => exact absurd (SemLoc.reg.inj h) barS_ne_exitS
  | none, some (some _) => cases h
  | some none, none => exact absurd (SemLoc.reg.inj h).symm barS_ne_exitS
  | some none, some none => rfl
  | some none, some (some _) => cases h
  | some (some _), none => cases h
  | some (some _), some none => cases h
  | some (some (a, j, s)), some (some (a', j', s')) =>
      obtain ⟨rfl, rfl, rfl⟩ := xsem_inj (SemLoc.dma.inj h); rfl

theorem stage_sem_lt : ∀ (w : Fin cfg0.W) (s : Fin (cfg0.spec w).nbuf), ((cfg0.spec w).sem s).val < 3 := by decide

theorem ownSemFacts : Pipeline.OwnSemFacts cfg0.spec osem where
  isScoped := by
    intro k
    match k with
    | none => decide
    | some (a, j, s) => revert a j s; decide
  inj := fun k k' h => Option.some.inj (csem_injective h)
  disj := by
    intro k w sb h
    match k with
    | none => cases h
    | some (a, j, s) =>
        have h1 := xsem_ge a j s
        have h2 := stage_sem_lt w sb
        rw [SemLoc.dma.inj h] at h1
        omega

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def allCells : Finset (GSem nD τ sig) := Finset.univ.map ⟨kcell, kcell_injective⟩

abbrev TK : Type := Fin 3 ⊕ Fin 3 ⊕ XK
def tokOf (ct : Dev nD × TK) : GSem nD τ sig × ℕ × Fin 3 :=
  match ct.2 with
  | .inl d => (barCell ct.1, 0, d)
  | .inr (.inl d) => (exitCell ct.1, 0, d)
  | .inr (.inr (a, j, s)) => (xCell a j s ct.1, 0, 0)

theorem tokOf_injective : Function.Injective (tokOf : Dev nD × TK → GSem nD τ sig × ℕ × Fin 3) := by
  rintro ⟨c, t⟩ ⟨c', t'⟩ h
  have h1 : c = c' := by
    have := congrArg (fun x : GSem nD τ sig × ℕ × Fin 3 => x.1.1.1) h
    rcases t with d | d | ⟨a, j, s⟩ <;> rcases t' with d' | d' | ⟨a', j', s'⟩ <;> exact this
  subst h1
  have hs := congrArg (fun x : GSem nD τ sig × ℕ × Fin 3 => x.1.2) h
  have hd := congrArg (fun x : GSem nD τ sig × ℕ × Fin 3 => x.2.2) h
  rcases t with d | d | ⟨a, j, s⟩ <;> rcases t' with d' | d' | ⟨a', j', s'⟩
  · have : d = d' := hd
    rw [this]
  · exact absurd (SemLoc.reg.inj hs) barS_ne_exitS
  · cases hs
  · exact absurd (SemLoc.reg.inj hs).symm barS_ne_exitS
  · have : d = d' := hd
    rw [this]
  · cases hs
  · cases hs
  · cases hs
  · obtain ⟨rfl, rfl, rfl⟩ := xsem_inj (SemLoc.dma.inj hs); rfl

def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

def toks (c : Dev nD) : sProp 𝕄 :=
  iprop((bigSep Finset.univ fun d : Fin 3 => dutyTok ER (barCell c) 0 d)
    ∗ (bigSep Finset.univ fun d : Fin 3 => dutyTok ER (exitCell c) 0 d)
    ∗ bigSep Finset.univ fun x : XK => dutyTok ER (xCell x.1 x.2.1 x.2.2 c) 0 0)

def G (c : Dev nD) : sProp 𝕄 :=
  iprop((bigSep Finset.univ fun k : CK => roundState ER (Rd (part m)) (kcell (c, k)) 0)
    ∗ (bigSep Finset.univ fun k : CK => iprop(atPos ER (kcell (c, k)) 0 ∅ 0 ∗ reached ER (kcell (c, k)) 0)) ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (Rd (part m)) allCells allToks) $$ HX with ⟨Hst, Hr, Hat, Htok⟩
  imodintro
  ihave Hst' := (Entails.of_eq (hX fun g => roundState ER (Rd (part m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_univ_option]
  iintro ⟨Ho, Hb⟩
  isplitl [Hb]; · iexact Hb
  unfold Pipeline.ownSems0; iexact Ho

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd (part m)) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd (part m)) (kcell (c, k)) 0)
      ⊢ (|={Set.univ}=> bigSep Finset.univ fun k : CK => iprop(∃ κ : ℕ, cellInv ER (Rd (part m)) κ (kcell (c, k))) : sProp 𝕄) from by
        rw [← bigSep_sep']
        exact (bigSep_mono fun k _ => (Rounds.body_intro ER (Rd (part m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem deal {I : Type} [Fintype I] (σ : I → Dev nD → Dev nD) (hσ : ∀ i c, σ i (σ i c) = c) (Φ : Dev nD → I → sProp 𝕄) :
    (bigSep Finset.univ fun c : Dev nD => bigSep Finset.univ fun i : I => Φ c i)
      = bigSep Finset.univ fun c : Dev nD => bigSep Finset.univ fun i : I => Φ (σ i c) i := by
  rw [bigSep_univ_comm, bigSep_univ_comm (fun c i => Φ (σ i c) i)]
  exact bigSep_congr fun i _ => bigSep_univ_equiv (⟨σ i, σ i, hσ i, hσ i⟩ : Dev nD ≃ Dev nD) (fun c => Φ c i)

def payer (x : XK) (c : Dev nD) : Dev nD :=
  if x.1 = 1 then par (dim x.2.1 x.2.2) c else if x.1 = 3 then par (dim x.2.1 (rev x.2.2)) c else c

theorem payer_payer (x : XK) (c : Dev nD) : payer x (payer x c) = c := by
  unfold payer
  split
  · exact par_par _ _
  · split
    · exact par_par _ _
    · rfl

def payToks (c : Dev nD) : sProp 𝕄 :=
  iprop((bigSep Finset.univ fun d : Fin 3 => dutyTok ER (barCell (par d c)) 0 d)
    ∗ (bigSep Finset.univ fun d : Fin 3 => dutyTok ER (exitCell (par d c)) 0 d)
    ∗ bigSep Finset.univ fun x : XK => dutyTok ER (xCell x.1 x.2.1 x.2.2 (payer x c)) 0 0)

theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal par par_par (fun (c : Dev nD) (d : Fin 3) => (dutyTok ER (barCell c) 0 d : sProp 𝕄)),
    deal par par_par (fun (c : Dev nD) (d : Fin 3) => (dutyTok ER (exitCell c) 0 d : sProp 𝕄)),
    deal payer payer_payer (fun (c : Dev nD) (x : XK) => (dutyTok ER (xCell x.1 x.2.1 x.2.2 c) 0 0 : sProp 𝕄))]

def lin0 (c : Dev nD) : sProp 𝕄 :=
  iprop((bigSep Finset.univ fun k : CK => atPos ER (kcell (c, k)) 0 ∅ 0) ∗ payToks c)

def G' (c : Dev nD) : sProp 𝕄 := iprop(∃ K, records m K ∗ lin0 c)

theorem regroup :
    (bigSep Finset.univ fun c : Dev nD => iprop((bigSep Finset.univ fun k : CK => iprop(∃ κ : ℕ, cellInv ER (Rd (part m)) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd (part m)) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd (part m)) κ (kcell ck) : sProp 𝕄))) $$ HI
  icases HK with ⟨%K, #HI⟩
  ihave Htk := (toks_around (F := F)) $$ Htok
  iapply (bigSep_with_persistent (R := records m K) fun c _ => show iprop(records m K ∗ lin0 c) ⊢ G' m c from by
    unfold G'; iintro ⟨HR, HL⟩; iexists K; isplitl [HR] <;> iassumption)
  isplitr
  · unfold records; isplitl; · iexact HI
    iexact HR
  · iapply (Entails.of_eq (bigSep_sep' Finset.univ (fun c : Dev nD => bigSep Finset.univ fun k : CK => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem cred3 (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by
    rw [tallyAt_add, tallyAt_add]]
  iintro ⟨H1, H2, H3⟩
  iapply (cred_add _ _).2
  isplitl [H1]; · iexact H1
  iapply (cred_add _ _).2
  isplitl [H2] <;> iassumption

def rcv (c : Dev nD) (σ : Fin 6) (j : Fin 9) : GSem nD τ sig :=
  if h : σ.val < 3 then xCell 1 j ⟨σ.val, h⟩ c
  else xCell 3 j ⟨σ.val - 3, by have := σ.isLt; omega⟩ c

def credX (c : Dev nD) : sProp 𝕄 :=
  bigSep Finset.univ fun σj : Fin 6 × Fin 9 => cred (tallyAt (rcv c σj.1 σj.2) () (payAmt σj.1 σj.2))

def credsAll (c : Dev nD) : sProp 𝕄 :=
  iprop(cred (tallyAt (barCell c) () 3) ∗ cred (tallyAt (exitCell c) () 3) ∗ credX c)

theorem launch_bar (c : Dev nD) (d : Fin 3) :
    (Pipeline.launchCred (fun d' => barDebt d' d) c : sProp 𝕄) ⊢ cred (tallyAt (barCell c) () 1) :=
  Pipeline.launchCred_tallyAt (.reg barS) (par d) (par d) (par_par d) (par_par d) () 1 c

theorem launch_exit (c : Dev nD) (d : Fin 3) :
    (Pipeline.launchCred (fun d' => exitDebt d' d) c : sProp 𝕄) ⊢ cred (tallyAt (exitCell c) () 1) :=
  Pipeline.launchCred_tallyAt (.reg exitS) (par d) (par d) (par_par d) (par_par d) () 1 c

theorem launch_recv (c : Dev nD) (σ : Fin 6) (j : Fin 9) :
    (Pipeline.launchCred (fun d => tallyAt (payCell d σ j) () (payAmt σ j)) c : sProp 𝕄) ⊢ cred (tallyAt (rcv c σ j) () (payAmt σ j)) := by
  by_cases h : σ.val < 3
  · have e : (fun d : Dev nD => (tallyAt (payCell d σ j) () (payAmt σ j) : CellTallies nD τ sig Unit))
        = fun d => tallyAt ((((par (dim j ⟨σ.val, h⟩) d : Dev nD) : Thread nD τ)), .dma (xsem 1 j ⟨σ.val, h⟩)) () (payAmt σ j) :=
      funext fun d => by unfold payCell; rw [dif_pos h]
    rw [e]; unfold rcv; rw [dif_pos h]
    exact Pipeline.launchCred_tallyAt (.dma (xsem 1 j ⟨σ.val, h⟩)) (par (dim j ⟨σ.val, h⟩)) (par (dim j ⟨σ.val, h⟩)) (par_par _) (par_par _) () (payAmt σ j) c
  · have e : (fun d : Dev nD => (tallyAt (payCell d σ j) () (payAmt σ j) : CellTallies nD τ sig Unit))
        = fun d => tallyAt ((((par (dim j (rev ⟨σ.val - 3, by have := σ.isLt; omega⟩)) d : Dev nD) : Thread nD τ)), .dma (xsem 3 j ⟨σ.val - 3, by have := σ.isLt; omega⟩)) () (payAmt σ j) :=
      funext fun d => by unfold payCell; rw [dif_neg h]
    rw [e]; unfold rcv; rw [dif_neg h]
    exact Pipeline.launchCred_tallyAt (.dma (xsem 3 j ⟨σ.val - 3, by have := σ.isLt; omega⟩)) (par (dim j (rev ⟨σ.val - 3, by have := σ.isLt; omega⟩)))
      (par (dim j (rev ⟨σ.val - 3, by have := σ.isLt; omega⟩))) (par_par _) (par_par _) () (payAmt σ j) c

theorem launch_owedP (c : Dev nD) : (Pipeline.launchCred (fun d => owedP d 0) c : sProp 𝕄) ⊢ credX c := by
  have hall : (Finset.univ : Finset (Fin 6 × Fin 9)).filter (fun σj => 0 < sPos σj.1 σj.2) = Finset.univ :=
    Finset.filter_true_of_mem fun x _ => Nat.succ_pos _
  have e : (fun d : Dev nD => owedP d 0) = fun d => ∑ σj ∈ (Finset.univ : Finset (Fin 6 × Fin 9)), tallyAt (payCell d σj.1 σj.2) () (payAmt σj.1 σj.2) :=
    funext fun d => by unfold owedP; rw [hall]
  rw [e, Pipeline.launchCred_sum Finset.univ (fun (σj : Fin 6 × Fin 9) (d : Dev nD) => (tallyAt (payCell d σj.1 σj.2) () (payAmt σj.1 σj.2) : CellTallies nD τ sig Unit)) c]
  unfold credX
  exact bigSep_mono fun σj _ => launch_recv c σj.1 σj.2

theorem creds (c : Dev nD) : (Pipeline.launchCred O₀ c : sProp 𝕄) ⊢ credsAll c := by
  have e : (O₀ : Dev nD → CellTallies nD τ sig Unit)
      = fun d => ((((((owedP d 0 + exitDebt d 2) + exitDebt d 1) + exitDebt d 0) + barDebt d 2) + barDebt d 1) + barDebt d 0) := funext fun d => rfl
  rw [e, Pipeline.launchCred_add, Pipeline.launchCred_add, Pipeline.launchCred_add, Pipeline.launchCred_add, Pipeline.launchCred_add, Pipeline.launchCred_add]
  unfold credsAll
  iintro ⟨⟨⟨⟨⟨⟨HP, He2⟩, He1⟩, He0⟩, Hb2⟩, Hb1⟩, Hb0⟩
  ihave Hb0' := (launch_bar (F := F) c 0) $$ Hb0
  ihave Hb1' := (launch_bar (F := F) c 1) $$ Hb1
  ihave Hb2' := (launch_bar (F := F) c 2) $$ Hb2
  ihave He0' := (launch_exit (F := F) c 0) $$ He0
  ihave He1' := (launch_exit (F := F) c 1) $$ He1
  ihave He2' := (launch_exit (F := F) c 2) $$ He2
  isplitl [Hb0' Hb1' Hb2']
  · iapply (cred3 (F := F) (barCell c))
    isplitl [Hb0']; · iexact Hb0'
    isplitl [Hb1'] <;> iassumption
  isplitl [He0' He1' He2']
  · iapply (cred3 (F := F) (exitCell c))
    isplitl [He0']; · iexact He0'
    isplitl [He1'] <;> iassumption
  iapply (launch_owedP (F := F) c); iexact HP

theorem launch_bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_XK (Φ : XK → sProp 𝕄) :
    bigSep Finset.univ Φ = iprop((bigSep Finset.univ fun j : Fin 9 => bigSep Finset.univ fun s : Fin 3 => Φ (0, j, s))
      ∗ (bigSep Finset.univ fun j : Fin 9 => bigSep Finset.univ fun s : Fin 3 => Φ (1, j, s))
      ∗ (bigSep Finset.univ fun j : Fin 9 => bigSep Finset.univ fun s : Fin 3 => Φ (2, j, s))
      ∗ (bigSep Finset.univ fun j : Fin 9 => bigSep Finset.univ fun s : Fin 3 => Φ (3, j, s))) := by
  rw [bigSep_univ_prod, bigSep_fin4, bigSep_univ_prod, bigSep_univ_prod, bigSep_univ_prod, bigSep_univ_prod]

theorem payer_0 (j : Fin 9) (s : Fin 3) (c : Dev nD) : payer (0, j, s) c = c := by
  unfold payer; rw [if_neg (show ¬ ((0 : Fin 4) = 1) by decide), if_neg (show ¬ ((0 : Fin 4) = 3) by decide)]
theorem payer_1 (j : Fin 9) (s : Fin 3) (c : Dev nD) : payer (1, j, s) c = pS c j s := by
  unfold payer; rw [if_pos rfl]
theorem payer_2 (j : Fin 9) (s : Fin 3) (c : Dev nD) : payer (2, j, s) c = c := by
  unfold payer; rw [if_neg (show ¬ ((2 : Fin 4) = 1) by decide), if_neg (show ¬ ((2 : Fin 4) = 3) by decide)]
theorem payer_3 (j : Fin 9) (s : Fin 3) (c : Dev nD) : payer (3, j, s) c = pT c j s := by
  unfold payer; rw [if_neg (show ¬ ((3 : Fin 4) = 1) by decide), if_pos rfl]

theorem rcv_lo (c : Dev nD) (s : Fin 3) (j : Fin 9) : rcv c (Fin.castAdd 3 s) j = xCell 1 j s c := by
  unfold rcv; rw [dif_pos (show (Fin.castAdd 3 s).val < 3 from s.isLt)]
  rfl
theorem rcv_hi (c : Dev nD) (t : Fin 3) (j : Fin 9) : rcv c (Fin.natAdd 3 t) j = xCell 3 j t c := by
  unfold rcv; rw [dif_neg (show ¬ (Fin.natAdd 3 t).val < 3 from by show ¬ 3 + t.val < 3; omega)]
  have : (⟨(Fin.natAdd 3 t).val - 3, by have := (Fin.natAdd 3 t).isLt; omega⟩ : Fin 3) = t := Fin.ext (by show 3 + t.val - 3 = t.val; omega)
  rw [this]
theorem payAmt_lo (s : Fin 3) (j : Fin 9) : payAmt (Fin.castAdd 3 s) j = amt j 1 s := by
  unfold payAmt amt; rw [dif_pos (show (Fin.castAdd 3 s).val < 3 from s.isLt), if_pos (Or.inr rfl)]
  rfl
theorem payAmt_hi (t : Fin 3) (j : Fin 9) : payAmt (Fin.natAdd 3 t) j = amt j 3 t := by
  unfold payAmt amt
  rw [dif_neg (show ¬ (Fin.natAdd 3 t).val < 3 from by show ¬ 3 + t.val < 3; omega), if_neg (by decide)]
  show crd (rows j >>> (3 - (3 + t.val - 3))) = _
  rw [Nat.add_sub_cancel_left]

abbrev credY (c : Dev nD) (σ : Fin 6) (j : Fin 9) : sProp 𝕄 := cred (tallyAt (rcv c σ j) () (payAmt σ j))

theorem credY_lo (c : Dev nD) (s : Fin 3) (j : Fin 9) : (credY c (Fin.castAdd 3 s) j : sProp 𝕄) = credOf c j 1 s := by
  unfold credY credOf; rw [rcv_lo, payAmt_lo]
theorem credY_hi (c : Dev nD) (t : Fin 3) (j : Fin 9) : (credY c (Fin.natAdd 3 t) j : sProp 𝕄) = credOf c j 3 t := by
  unfold credY credOf; rw [rcv_hi, payAmt_hi]

abbrev e6 : Fin 3 ⊕ Fin 3 ≃ Fin 6 := finSumFinEquiv (m := 3) (n := 3)

theorem credX_eq (c : Dev nD) :
    (credX c : sProp 𝕄) = iprop((bigSep Finset.univ fun j : Fin 9 => bigSep Finset.univ fun s : Fin 3 => credOf c j 1 s)
      ∗ (bigSep Finset.univ fun j : Fin 9 => bigSep Finset.univ fun s : Fin 3 => credOf c j 3 s)) :=
  calc (credX c : sProp 𝕄)
      = bigSep Finset.univ fun σ : Fin 6 => bigSep Finset.univ fun j : Fin 9 => credY c σ j :=
        bigSep_univ_prod (fun σj : Fin 6 × Fin 9 => (credY c σj.1 σj.2 : sProp 𝕄))
    _ = bigSep Finset.univ fun x : Fin 3 ⊕ Fin 3 => bigSep Finset.univ fun j : Fin 9 => credY c (e6 x) j :=
        bigSep_univ_equiv e6 (fun σ : Fin 6 => bigSep Finset.univ fun j : Fin 9 => (credY c σ j : sProp 𝕄))
    _ = iprop((bigSep Finset.univ fun s : Fin 3 => bigSep Finset.univ fun j : Fin 9 => credY c (Fin.castAdd 3 s) j)
          ∗ (bigSep Finset.univ fun t : Fin 3 => bigSep Finset.univ fun j : Fin 9 => credY c (Fin.natAdd 3 t) j)) :=
        bigSep_univ_sum (fun x : Fin 3 ⊕ Fin 3 => bigSep Finset.univ fun j : Fin 9 => (credY c (e6 x) j : sProp 𝕄))
    _ = iprop((bigSep Finset.univ fun s : Fin 3 => bigSep Finset.univ fun j : Fin 9 => credOf c j 1 s)
          ∗ (bigSep Finset.univ fun t : Fin 3 => bigSep Finset.univ fun j : Fin 9 => credOf c j 3 t)) :=
        congrArg₂ (fun A B : sProp 𝕄 => iprop(A ∗ B))
          (bigSep_congr fun s _ => bigSep_congr fun j _ => credY_lo c s j)
          (bigSep_congr fun t _ => bigSep_congr fun j _ => credY_hi c t j)
    _ = _ := by
        rw [bigSep_univ_comm (fun (s : Fin 3) (j : Fin 9) => (credOf c j 1 s : sProp 𝕄)),
          bigSep_univ_comm (fun (t : Fin 3) (j : Fin 9) => (credOf c j 3 t : sProp 𝕄))]

theorem chunk_eq (c : Dev nD) (j : Fin 9) :
    (chunkGhost c j : sProp 𝕄) = bigSep Finset.univ fun s : Fin 3 => iprop(rsGhost c j s ∗ agPending c j s) := by
  unfold chunkGhost; rw [bigSep_sep', launch_bigSep_fin3, launch_bigSep_fin3]

theorem linear_intro (c : Dev nD) : iprop(lin0 c ∗ credsAll c) ⊢ (linear c : sProp 𝕄) := by
  unfold lin0 payToks credsAll linear barGhost
  rw [credX_eq, bigSep_univ_option, bigSep_univ_option, bigSep_XK, bigSep_XK, launch_bigSep_fin3, launch_bigSep_fin3]
  simp only [payer_0, payer_1, payer_2, payer_3, chunk_eq]
  unfold rsGhost agPending tokRS tokAG posOf
  simp only [bigSep_sep']
  iintro ⟨⟨⟨HpB, HpE, P0, P1, P2, P3⟩, ⟨B0, B1, B2⟩, ⟨E0, E1, E2⟩, T0, T1, T2, T3⟩, CB, CE, C1, C3⟩
  isplitl [T0 T1 P0 P1 C1 T2 T3 P2 P3 C3]
  · isplitl [T0 T1 P0 P1 C1]
    · isplitl [T0 T1]
      · isplitl [T0] <;> iassumption
      isplitl [P0]; · iexact P0
      isplitl [P1]; · iexact P1
      iexact C1
    · isplitl [T2 T3]
      · isplitl [T2] <;> iassumption
      isplitl [P2]; · iexact P2
      isplitl [P3]; · iexact P3
      iexact C3
  isplitl [HpB CB B0 B1 B2]
  · isplitl [HpB]; · iexact HpB
    isplitl [CB]; · iexact CB
    isplitl [B0]; · iexact B0
    isplitl [B1] <;> iassumption
  · isplitl [HpE]; · iexact HpE
    isplitl [CE]; · iexact CE
    isplitl [E0]; · iexact E0
    isplitl [E1] <;> iassumption

def start (c : Dev nD) : sProp 𝕄 := iprop((∃ K, records m K ∗ linear c) ∗ levAts L lv)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  unfold G'
  icases HG with ⟨%K, HR, HL⟩
  imodintro
  unfold start
  isplitl
  · isplitl [HR HL Hc]
    · iexists K
      isplitl [HR]; · iexact HR
      iapply (linear_intro (F := F) c)
      isplitl [HL] <;> iassumption
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start
  iintro ⟨⟨Hs, Hlev⟩, -, Hr⟩
  isplitl [Hs]; · iexact Hs
  isplitl [Hlev]; · iexact Hlev
  iexact Hr

theorem ownSems0_eq (c : Dev nD) : (Pipeline.ownSems0 (Ix := Unit) (Name := ℕ) (U := UU) (Lvl := ℕ) (Val := Elt F) (τ := τ) osem c : sProp 𝕄)
    = iprop(semVal (exitCell c) 0 ∗ bigSep Finset.univ fun x : XK => semVal (xCell x.1 x.2.1 x.2.2 c) 0) := by
  unfold Pipeline.ownSems0; rw [bigSep_univ_option]; rfl

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ ownZero
  iintro ⟨Hr, HzX, HzE⟩
  isplitr; · iempintro
  isplitl [HzX HzE]
  · isplitl [HzE] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_sem_lt w s) _ (by
      rcases t with ⟨_ | _, ht⟩
      · exact Or.inl rfl
      · exact Or.inr rfl)

theorem final_in0 (c : Dev nD) : (dats m ρ 0 c).arrAt (0 : Fin 3) cfg0.N = m ((c.tc : Thread nD τ).loc main_arg0) :=
  (dats (F := F) m ρ 0 c).arrAt_in (0 : Fin 3) rfl _
theorem final_in1 (c : Dev nD) : (dats m ρ 0 c).arrAt (1 : Fin 3) cfg0.N = m ((c.tc : Thread nD τ).loc main_arg1) :=
  (dats (F := F) m ρ 0 c).arrAt_in (1 : Fin 3) rfl _

theorem final_out (c : Dev nD) : (dats m ρ 0 c).arrAt (2 : Fin 3) cfg0.N = fin (part m) := by
  show (dats m ρ 0 c).arrAt (2 : Fin 3) (t0_0.val + 1) = fin (part m)
  rw [Dat.arrAt_succ, if_pos (flush0_2 t0_0)]
  exact Memref.write_access_unit_zero_univ (Elt F) main_v1 (funext fun a => Nat.zero_mul _) _ _ (fin (part m))

set_option maxRecDepth 65536 in

-- Each cell is funded with its duties' tokens, each token dealt to the device that pays it (the partner maps are involutions).
theorem run_main (hbody : SoundBody (F := F) m) :
    θ_run (defs (F := F)) (onTc (τ := τ) (main (F := F))) (s₀ m ρ) (fun r => ∀ c : Dev nD,
      r.2.mem ((c.tc : Thread nD τ).loc main_v1) = fin (part m)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun s h c => ⟨((h c).1 2).trans (final_out m ρ c), ((h c).1 0).trans (final_in0 m ρ c), ((h c).1 1).trans (final_in1 m ρ c)⟩)

end Cert.KernelIdeal.Bfly

end
-- ==== Proof.lean ====
import proofs.«900883_g7700000000000884_dist_matmul_k_i_m1024_n1024_k512_v7x_i8_f32_1_alg».proof.Defs
import proofs.«900883_g7700000000000884_dist_matmul_k_i_m1024_n1024_k512_v7x_i8_f32_1_alg».proof.Proof.Gen.Kernel
import proofs.«900883_g7700000000000884_dist_matmul_k_i_m1024_n1024_k512_v7x_i8_f32_1_alg».proof.Proof.Gen.KernelIdeal
import proofs.«900883_g7700000000000884_dist_matmul_k_i_m1024_n1024_k512_v7x_i8_f32_1_alg».proof.Proof.Gen.ReferenceIdeal
import proofs.«900883_g7700000000000884_dist_matmul_k_i_m1024_n1024_k512_v7x_i8_f32_1_alg».proof.Proof.Gen.Pre_finite_inputs_Kernel
import proofs.«900883_g7700000000000884_dist_matmul_k_i_m1024_n1024_k512_v7x_i8_f32_1_alg».proof.Proof.Gen.Pre_finite_inputs_ReferenceIdeal
import proofs.«900883_g7700000000000884_dist_matmul_k_i_m1024_n1024_k512_v7x_i8_f32_1_alg».proof.Proof.RefSide
import proofs.«900883_g7700000000000884_dist_matmul_k_i_m1024_n1024_k512_v7x_i8_f32_1_alg».proof.Proof.ValsIdeal
import proofs.«900883_g7700000000000884_dist_matmul_k_i_m1024_n1024_k512_v7x_i8_f32_1_alg».proof.Proof.BodyIdeal
import proofs.«900883_g7700000000000884_dist_matmul_k_i_m1024_n1024_k512_v7x_i8_f32_1_alg».proof.Proof.LaunchIdeal
import Idealize.ShloMosaic.Adequacy
import Idealize.ShloMosaic.Init

noncomputable section

namespace Cert.Proof

open Idealize.ShloMosaic Idealize.SL.Sem

-- The idealization rewrote nothing: the two programs are one text, so their kernel bodies agree label by label.
theorem defs_eq : Cert.Kernel.defs (F := Bits) = Cert.KernelIdeal.defs (F := Bits) :=
  congrArg (Pipeline.defs Cert.KernelIdeal.pcfgs) (congrArg Defs.onTc (funext fun ℓ => funext fun a => by
    match ℓ, a with
    | 0, (t, s) => rfl
    | ⟨_ + 1, h⟩, _ => exact absurd h (Nat.not_lt.2 (Nat.le_add_left _ _))))

-- The run is proved once for every float instance; the first program's frame is that run with the values forgotten.
theorem frame_k : Cert.frame_Kernel (hKernel := Cert.Kernel.Gen.facts) (hPre_finite_inputs_Kernel := Cert.Pre_finite_inputs_Kernel.Gen.facts) :=
  fun m ρ _ => by
    rw [defs_eq]
    exact (θ_run Cert.KernelIdeal.defs _ _).mono (fun _ h c => ⟨(h c).2.1, (h c).2.2⟩)
      (Cert.KernelIdeal.Bfly.run_main (F := Bits) m ρ (Cert.KernelIdeal.Bfly.sound_body m))

theorem frame_ki : Cert.frame_KernelIdeal (hKernelIdeal := Cert.KernelIdeal.Gen.facts) (hPre_finite_inputs_Kernel := Cert.Pre_finite_inputs_Kernel.Gen.facts) :=
  fun m ρ _ => (θ_run Cert.KernelIdeal.defs _ _).mono (fun _ h c => ⟨(h c).2.1, (h c).2.2⟩)
    (Cert.KernelIdeal.Bfly.run_main (F := Ideal) m ρ (Cert.KernelIdeal.Bfly.sound_body m))

theorem frame_ri : Cert.frame_ReferenceIdeal (hReferenceIdeal := Cert.ReferenceIdeal.Gen.facts) (hPre_finite_inputs_ReferenceIdeal := Cert.Pre_finite_inputs_ReferenceIdeal.Gen.facts) :=
  fun m ρ _ => (θ_run Cert.ReferenceIdeal.defs _ _).mono (fun _ h c => (h c).2) (Cert.ReferenceIdeal.Value.run (F := Ideal) m ρ)

-- Every device ends at the sum of the eight partial products, which is the product of the whole arrays.
theorem algebraic : Cert.algebraic_KernelIdeal_ReferenceIdeal (hKernelIdeal := Cert.KernelIdeal.Gen.facts) (hReferenceIdeal := Cert.ReferenceIdeal.Gen.facts) (hPre_finite_inputs_Kernel := Cert.Pre_finite_inputs_Kernel.Gen.facts) := by
  intro m ρ m' ρ' _ hagree
  refine ⟨_, (θ_run Cert.KernelIdeal.defs _ _).mono (fun _ h c => ⟨(h c).1.trans (Cert.KernelIdeal.Bfly.fin_eq_reference m m' hagree), (h c).2.1, (h c).2.2⟩)
      (Cert.KernelIdeal.Bfly.run_main (F := Ideal) m ρ (Cert.KernelIdeal.Bfly.sound_body m)), ?_⟩
  exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
